-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_half_over_d8" .f32 0xBE3504F3#32 ((-2097152 / 11863283 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d2" .f32 0xBEB504F3#32 ((-4194304 / 11863283 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d5" .f32 0xBE64F92E#32 ((-2097152 / 9378749 : ℝ) : EReal)
  ∧ IdealRules.named_const.Statement Cert.KernelIdeal.κ "neg_half_over_d8" .f32 0xBE3504F3#32 ((-2097152 / 11863283 : ℝ) : EReal)
  ∧ IdealRules.named_const.Statement Cert.KernelIdeal.κ "neg_half_over_d8" .f32 0xBE3504F3#32 ((-2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x256x256 : Shape := ⟨4, ![8, 21, 256, 256]⟩
abbrev S8x256x256 : Shape := ⟨3, ![8, 256, 256]⟩
abbrev S_ : Shape := ⟨0, ![]⟩

class Facts : Prop where
  bcast_S_S8x21x256x256 : S_.BroadcastsInDim S8x21x256x256 (![] : Fin 0 → Fin S8x21x256x256.rank)
  reducesTo_S8x21x256x256_S_d0_1_2_3 : S8x21x256x256.ReducesTo [0, 1, 2, 3] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x21x256x256 .f32) (main_arg1 : IVec S8x256x256 32) (main_arg2 : FVec F S8x21x256x256 .f32) : IVec S_ 1 :=
  let main_v0 : FVec F S8x21x256x256 .f32 := Host.absf main_arg0
  let main_cst : FVec F S_ .f32 := constant S_ .f32 0x7F800000#32
  let main_v1 : FVec F S8x21x256x256 .f32 := broadcastInDim S8x21x256x256 ![] bcast_S_S8x21x256x256 main_cst
  let main_v2 : IVec S8x21x256x256 1 := cmpf .olt main_v0 main_v1
  let main_c : IVec S_ 1 := constantI S_ 1 1#1
  let main_v3 : IVec S_ 1 := (fun x v => Host.reduce IntOp.andi x v reducesTo_S8x21x256x256_S_d0_1_2_3 h_S_) main_v2 main_c
  let main_v4 : FVec F S8x21x256x256 .f32 := Host.absf main_arg2
  let main_cst_0 : FVec F S_ .f32 := constant S_ .f32 0x7F800000#32
  let main_v5 : FVec F S8x21x256x256 .f32 := broadcastInDim S8x21x256x256 ![] bcast_S_S8x21x256x256 main_cst_0
  let main_v6 : IVec S8x21x256x256 1 := cmpf .olt main_v4 main_v5
  let main_c_1 : IVec S_ 1 := constantI S_ 1 1#1
  let main_v7 : IVec S_ 1 := (fun x v => Host.reduce IntOp.andi x v reducesTo_S8x21x256x256_S_d0_1_2_3 h_S_) main_v6 main_c_1
  let main_v8 : IVec S_ 1 := andi main_v3 main_v7
  let main_c_2 : IVec S_ 32 := constantI S_ 32 0#32
  let main_v9 : IVec S8x256x256 32 := broadcastInDim S8x256x256 ![] bcast_S_S8x256x256 main_c_2
  let main_v10 : IVec S8x256x256 1 := cmpi .sge main_arg1 main_v9
  let main_c_3 : IVec S_ 1 := constantI S_ 1 1#1
  let main_v11 : IVec S_ 1 := (fun x v => Host.reduce IntOp.andi x v reducesTo_S8x256x256_S_d0_1_2 h_S_) main_v10 main_c_3
  let main_v12 : IVec S_ 1 := andi main_v8 main_v11
  let main_c_4 : IVec S_ 32 := constantI S_ 32 21#32
  let main_v13 : IVec S8x256x256 32 := broadcastInDim S8x256x256 ![] bcast_S_S8x256x256 main_c_4
  let main_v14 : IVec S8x256x256 1 := cmpi .slt main_arg1 main_v13
  let main_c_5 : IVec S_ 1 := constantI S_ 1 1#1
  let main_v15 : IVec S_ 1 := (fun x v => Host.reduce IntOp.andi x v reducesTo_S8x256x256_S_d0_1_2 h_S_) main_v14 main_c_5
  fn_part1 (F := F) main_v12 main_v15
-- ==== Kernel.lean ====
abbrev S8x21x256x256 : Shape := ⟨4, ![8, 21, 256, 256]⟩
abbrev S8x256x256 : Shape := ⟨3, ![8, 256, 256]⟩
abbrev S1x21x64x256 : Shape := ⟨4, ![1, 21, 64, 256]⟩
abbrev S1x64x256 : Shape := ⟨3, ![1, 64, 256]⟩
abbrev S21x64x256 : Shape := ⟨3, ![21, 64, 256]⟩
abbrev S64x256 : Shape := ⟨2, ![64, 256]⟩
abbrev S8x8x128 : Shape := ⟨3, ![8, 8, 128]⟩
abbrev S1x7x256x256 : Shape := ⟨4, ![1, 7, 256, 256]⟩
abbrev S1x8x128 : Shape := ⟨3, ![1, 8, 128]⟩
abbrev S7x264x384 : Shape := ⟨3, ![7, 264, 384]⟩
abbrev S7x256x256 : Shape := ⟨3, ![7, 256, 256]⟩
abbrev S7x256 : Shape := ⟨2, ![7, 256]⟩
abbrev S7x256x1 : Shape := ⟨3, ![7, 256, 1]⟩
abbrev S7x1 : Shape := ⟨2, ![7, 1]⟩
abbrev S7x1x1 : Shape := ⟨3, ![7, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S8x21x256x256, .f32⟩
  | .hbm, ⟨1, _⟩ => ⟨S8x256x256, .i32⟩
  | .hbm, ⟨2, _⟩ => ⟨S8x21x256x256, .f32⟩
  | .hbm, ⟨3, _⟩ => ⟨S8x256x256, .f32⟩
  | .hbm, ⟨4, _⟩ => ⟨S8x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x21x64x256, .f32⟩
  | .local _ .vmem, ⟨1, _⟩ => ⟨S1x21x64x256, .f32⟩
  | .local _ .vmem, ⟨2, _⟩ => ⟨S1x64x256, .i32⟩
  | .local _ .vmem, ⟨3, _⟩ => ⟨S1x64x256, .i32⟩
  | .local _ .vmem, ⟨4, _⟩ => ⟨S1x64x256, .f32⟩
  | .local _ .vmem, ⟨5, _⟩ => ⟨S1x64x256, .f32⟩
  | .local _ .vmem, ⟨6, _⟩ => ⟨S1x7x256x256, .f32⟩
  | .local _ .vmem, ⟨7, _⟩ => ⟨S1x7x256x256, .f32⟩
  | .local _ .vmem, ⟨8, _⟩ => ⟨S1x7x256x256, .f32⟩
  | .local _ .vmem, ⟨9, _⟩ => ⟨S1x7x256x256, .f32⟩
  | .local _ .vmem, ⟨10, _⟩ => ⟨S1x8x128, .f32⟩
  | .local _ .vmem, ⟨11, _⟩ => ⟨S1x8x128, .f32⟩
  | .local _ .vmem, ⟨12, _⟩ => ⟨S7x264x384, .f32⟩
  | .local _ .vmem, ⟨13, _⟩ => ⟨S7x264x384, .f32⟩
  | _, _ => ⟨S8x21x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x21x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 3], ![false, false]⟩

def k1_cond1 (i : grid1.Coords) : BitVec 1 :=
  let arg1 : BitVec 32 := BitVec.ofNat 32 (i 1).val
  let c0_i32_63 : BitVec 32 := 0#32
  let v265 : BitVec 1 := Scalar.cmpi .eq arg1 c0_i32_63
  let v266 : BitVec 32 := Scalar.extui v265
  let c0_i32_64 : BitVec 32 := 0#32
  let v267 : BitVec 1 := Scalar.cmpi .ne v266 c0_i32_64
  v267

def k1_cond2 (i : grid1.Coords) : BitVec 1 :=
  let arg1 : BitVec 32 := BitVec.ofNat 32 (i 1).val
  let c0_i32_65 : BitVec 32 := 0#32
  let v268 : BitVec 1 := Scalar.cmpi .ne arg1 c0_i32_65
  let v269 : BitVec 32 := Scalar.extui v268
  let c0_i32_66 : BitVec 32 := 0#32
  let v270 : BitVec 1 := Scalar.cmpi .ne v269 c0_i32_66
  v270

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x7x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x7x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x21x64x256_S1x21x64x256_0_0_0_0 : ∀ a, (![0, 0, 0, 0] : Fin 4 → Nat) a + S1x21x64x256.size a ≤ S1x21x64x256.size a
  h_S1x21x64x256 : 0 < S1x21x64x256.numel
  shapeCasts_S1x21x64x256_S21x64x256 : S1x21x64x256.ShapeCasts S21x64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S21x64x256_S64x256 : S21x64x256.Reduces [0] S64x256
  shapeCasts_S64x256_S1x64x256 : S64x256.ShapeCasts S1x64x256
  broadcasts_S1x64x256_S21x64x256 : S1x64x256.Broadcasts S21x64x256
  iota_S21x64x256_d0_w32 : S21x64x256.Iotas .tc 32 [0]
  natLt_1_32 : 1 < 32
  inb_S7x264x384_S7x264x384_0_0_0 : ∀ a, (![0, 0, 0] : Fin 3 → Nat) a + S7x264x384.size a ≤ S7x264x384.size a
  h_S7x264x384 : 0 < S7x264x384.numel
  shapeCasts_S7x264x384_S7x264x384 : S7x264x384.ShapeCasts S7x264x384
  inb_S1x7x256x256_S1x7x256x256_0_0_0_0 : ∀ a, (![0, 0, 0, 0] : Fin 4 → Nat) a + S1x7x256x256.size a ≤ S1x7x256x256.size a
  h_S1x7x256x256 : 0 < S1x7x256x256.numel
  shapeCasts_S1x7x256x256_S7x256x256 : S1x7x256x256.ShapeCasts S7x256x256
  inb_S7x264x384_S7x256x256_0_2_2 : ∀ a, (![0, 2, 2] : Fin 3 → Nat) a + S7x256x256.size a ≤ S7x264x384.size a
  h_S7x256x256 : 0 < S7x256x256.numel
  shapeCasts_S7x256x256_S7x256x256 : S7x256x256.ShapeCasts S7x256x256
  slices_S7x264x384_o0_2_2_S7x256x256 : S7x264x384.Slices ![0, 2, 2] S7x256x256
  slices_S7x264x384_o0_0_0_S7x256x256 : S7x264x384.Slices ![0, 0, 0] S7x256x256
  slices_S7x264x384_o0_0_1_S7x256x256 : S7x264x384.Slices ![0, 0, 1] S7x256x256
  slices_S7x264x384_o0_0_3_S7x256x256 : S7x264x384.Slices ![0, 0, 3] S7x256x256
  slices_S7x264x384_o0_0_4_S7x256x256 : S7x264x384.Slices ![0, 0, 4] S7x256x256
  slices_S7x264x384_o0_1_0_S7x256x256 : S7x264x384.Slices ![0, 1, 0] S7x256x256
  slices_S7x264x384_o0_1_1_S7x256x256 : S7x264x384.Slices ![0, 1, 1] S7x256x256
  slices_S7x264x384_o0_1_3_S7x256x256 : S7x264x384.Slices ![0, 1, 3] S7x256x256
  slices_S7x264x384_o0_1_4_S7x256x256 : S7x264x384.Slices ![0, 1, 4] S7x256x256
  slices_S7x264x384_o0_3_0_S7x256x256 : S7x264x384.Slices ![0, 3, 0] S7x256x256
  slices_S7x264x384_o0_3_1_S7x256x256 : S7x264x384.Slices ![0, 3, 1] S7x256x256
  slices_S7x264x384_o0_3_3_S7x256x256 : S7x264x384.Slices ![0, 3, 3] S7x256x256
  slices_S7x264x384_o0_3_4_S7x256x256 : S7x264x384.Slices ![0, 3, 4] S7x256x256
  slices_S7x264x384_o0_4_0_S7x256x256 : S7x264x384.Slices ![0, 4, 0] S7x256x256
  slices_S7x264x384_o0_4_1_S7x256x256 : S7x264x384.Slices ![0, 4, 1] S7x256x256
  slices_S7x264x384_o0_4_3_S7x256x256 : S7x264x384.Slices ![0, 4, 3] S7x256x256
  slices_S7x264x384_o0_4_4_S7x256x256 : S7x264x384.Slices ![0, 4, 4] S7x256x256
  reduces_S7x256x256_S7x256 : S7x256x256.Reduces [2] S7x256
  shapeCasts_S7x256_S7x256x1 : S7x256.ShapeCasts S7x256x1
  reduces_S7x256x1_S7x1 : S7x256x1.Reduces [1] S7x1
  shapeCasts_S7x1_S7x1x1 : S7x1.ShapeCasts S7x1x1
  reduces_S7x1x1_S1x1 : S7x1x1.Reduces [0] S1x1
  shapeCasts_S1x1_S1x1x1 : S1x1.ShapeCasts S1x1x1
  inpos_S1x1x1_p0_0_0 : ∀ a, (![0, 0, 0] : Fin 3 → Nat) a < S1x1x1.size a
  iota_S1x8x128_d1_w32 : S1x8x128.Iotas .tc 32 [1]
  iota_S1x8x128_d2_w32 : S1x8x128.Iotas .tc 32 [2]
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  reducesTo_S8x8x128_S_d0_1_2 : S8x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x64x256.size a ≤ S8x21x256x256.size a
  hwx0_0 : ∀ i : grid0.Coords, EltTy.bits .f32 = 32 ∨ (Rect.block (s := S8x21x256x256) S1x21x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x256x256.size a
  hwx0_1 : ∀ i : grid0.Coords, EltTy.bits .i32 = 32 ∨ (Rect.block (s := S8x256x256) S1x64x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x256x256.size a
  hwx0_2 : ∀ i : grid0.Coords, EltTy.bits .f32 = 32 ∨ (Rect.block (s := S8x256x256) S1x64x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x7x256x256.size a ≤ S8x21x256x256.size a
  hwx1_0 : ∀ i : grid1.Coords, EltTy.bits .f32 = 32 ∨ (Rect.block (s := S8x21x256x256) S1x7x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x7x256x256.size a ≤ S8x21x256x256.size a
  hwx1_1 : ∀ i : grid1.Coords, EltTy.bits .f32 = 32 ∨ (Rect.block (s := S8x21x256x256) S1x7x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S8x8x128.size a
  hwx1_2 : ∀ i : grid1.Coords, EltTy.bits .f32 = 32 ∨ (Rect.block (s := S8x8x128) S1x8x128.size (cc1_transform_2 i) (hinb1_2 i)).WholeWords (EltTy.packing .f32)

variable [Facts₀]

abbrev win0_0 : Pipeline.Window sig grid0 :=
  Pipeline.Window.ofSpec (Memref.whole main_arg0) S1x21x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x7x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x7x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S8x21x256x256 : Shape := ⟨4, ![8, 21, 256, 256]⟩
abbrev S8x256x256 : Shape := ⟨3, ![8, 256, 256]⟩
abbrev S_ : Shape := ⟨0, ![]⟩
abbrev S8x1x256x256 : Shape := ⟨4, ![8, 1, 256, 256]⟩
abbrev S8x1x256x256x1 : Shape := ⟨5, ![8, 1, 256, 256, 1]⟩
abbrev S1 : Shape := ⟨1, ![1]⟩
abbrev S1x1x1x1x1 : Shape := ⟨5, ![1, 1, 1, 1, 1]⟩
abbrev S8x21x260x260 : Shape := ⟨4, ![8, 21, 260, 260]⟩

abbrev nBuf : Space → Nat
  | .hbm => 411
  | .vmem => 0
  | .smem => 0
  | _ => 0

abbrev hbmTy0_0 (i : Nat) : BufTy := match i % 128 with
  | 0 => ⟨S8x21x256x256, .f32⟩
  | 1 => ⟨S8x256x256, .i32⟩
  | 2 => ⟨S8x21x256x256, .f32⟩
  | 3 => ⟨S_, .f32⟩
  | 4 => ⟨S8x256x256, .f32⟩
  | 5 => ⟨S_, .f32⟩
  | 6 => ⟨S8x256x256, .f32⟩
  | 7 => ⟨S8x256x256, .f32⟩
  | 8 => ⟨S8x1x256x256, .f32⟩
  | 9 => ⟨S8x21x256x256, .f32⟩
  | 10 => ⟨S8x21x256x256, .f32⟩
  | 11 => ⟨S8x21x256x256, .f32⟩
  | 12 => ⟨S_, .f32⟩
  | 13 => ⟨S8x256x256, .f32⟩
  | 14 => ⟨S8x1x256x256, .f32⟩
  | 15 => ⟨S8x1x256x256, .f32⟩
  | 16 => ⟨S8x21x256x256, .f32⟩
  | 17 => ⟨S8x21x256x256, .f32⟩
  | 18 => ⟨S8x1x256x256, .i32⟩
  | 19 => ⟨S_, .i32⟩
  | 20 => ⟨S8x1x256x256, .i32⟩
  | 21 => ⟨S8x1x256x256, .i1⟩
  | 22 => ⟨S_, .i32⟩
  | 23 => ⟨S8x1x256x256, .i32⟩
  | 24 => ⟨S8x1x256x256, .i32⟩
  | 25 => ⟨S8x1x256x256, .i32⟩
  | 26 => ⟨S8x1x256x256x1, .i32⟩
  | 27 => ⟨S1, .i32⟩
  | 28 => ⟨S_, .i32⟩
  | 29 => ⟨S8x1x256x256x1, .i32⟩
  | 30 => ⟨S8x1x256x256x1, .i1⟩
  | 31 => ⟨S1x1x1x1x1, .i32⟩
  | 32 => ⟨S8x1x256x256x1, .i32⟩
  | 33 => ⟨S8x1x256x256x1, .i1⟩
  | 34 => ⟨S8x1x256x256x1, .i1⟩
  | 35 => ⟨S_, .i1⟩
  | 36 => ⟨S8x1x256x256, .i1⟩
  | 37 => ⟨S8x1x256x256, .f32⟩
  | 38 => ⟨S_, .f32⟩
  | 39 => ⟨S8x1x256x256, .f32⟩
  | 40 => ⟨S8x1x256x256, .f32⟩
  | 41 => ⟨S8x256x256, .f32⟩
  | 42 => ⟨S8x256x256, .f32⟩
  | 43 => ⟨S_, .i32⟩
  | 44 => ⟨S_, .f32⟩
  | 45 => ⟨S8x21x260x260, .f32⟩
  | 46 => ⟨S_, .f32⟩
  | 47 => ⟨S8x21x256x256, .f32⟩
  | 48 => ⟨S8x21x256x256, .f32⟩
  | 49 => ⟨S8x21x256x256, .f32⟩
  | 50 => ⟨S8x21x256x256, .f32⟩
  | 51 => ⟨S_, .f32⟩
  | 52 => ⟨S8x21x256x256, .f32⟩
  | 53 => ⟨S8x21x256x256, .f32⟩
  | 54 => ⟨S_, .f32⟩
  | 55 => ⟨S8x21x256x256, .f32⟩
  | 56 => ⟨S8x21x256x256, .f32⟩
  | 57 => ⟨S8x21x256x256, .f32⟩
  | 58 => ⟨S8x21x256x256, .f32⟩
  | 59 => ⟨S8x21x256x256, .f32⟩
  | 60 => ⟨S8x21x256x256, .f32⟩
  | 61 => ⟨S8x21x256x256, .f32⟩
  | 62 => ⟨S_, .f32⟩
  | 63 => ⟨S8x21x256x256, .f32⟩
  | 64 => ⟨S8x21x256x256, .f32⟩
  | 65 => ⟨S_, .f32⟩
  | 66 => ⟨S8x21x256x256, .f32⟩
  | 67 => ⟨S8x21x256x256, .f32⟩
  | 68 => ⟨S8x21x256x256, .f32⟩
  | 69 => ⟨S8x21x256x256, .f32⟩
  | 70 => ⟨S8x21x256x256, .f32⟩
  | 71 => ⟨S8x21x256x256, .f32⟩
  | 72 => ⟨S8x21x256x256, .f32⟩
  | 73 => ⟨S_, .f32⟩
  | 74 => ⟨S8x21x256x256, .f32⟩
  | 75 => ⟨S8x21x256x256, .f32⟩
  | 76 => ⟨S_, .f32⟩
  | 77 => ⟨S8x21x256x256, .f32⟩
  | 78 => ⟨S8x21x256x256, .f32⟩
  | 79 => ⟨S8x21x256x256, .f32⟩
  | 80 => ⟨S8x21x256x256, .f32⟩
  | 81 => ⟨S8x21x256x256, .f32⟩
  | 82 => ⟨S8x21x256x256, .f32⟩
  | 83 => ⟨S8x21x256x256, .f32⟩
  | 84 => ⟨S_, .f32⟩
  | 85 => ⟨S8x21x256x256, .f32⟩
  | 86 => ⟨S8x21x256x256, .f32⟩
  | 87 => ⟨S_, .f32⟩
  | 88 => ⟨S8x21x256x256, .f32⟩
  | 89 => ⟨S8x21x256x256, .f32⟩
  | 90 => ⟨S8x21x256x256, .f32⟩
  | 91 => ⟨S8x21x256x256, .f32⟩
  | 92 => ⟨S8x21x256x256, .f32⟩
  | 93 => ⟨S8x21x256x256, .f32⟩
  | 94 => ⟨S8x21x256x256, .f32⟩
  | 95 => ⟨S_, .f32⟩
  | 96 => ⟨S8x21x256x256, .f32⟩
  | 97 => ⟨S8x21x256x256, .f32⟩
  | 98 => ⟨S_, .f32⟩
  | 99 => ⟨S8x21x256x256, .f32⟩
  | 100 => ⟨S8x21x256x256, .f32⟩
  | 101 => ⟨S8x21x256x256, .f32⟩
  | 102 => ⟨S8x21x256x256, .f32⟩
  | 103 => ⟨S8x21x256x256, .f32⟩
  | 104 => ⟨S8x21x256x256, .f32⟩
  | 105 => ⟨S8x21x256x256, .f32⟩
  | 106 => ⟨S_, .f32⟩
  | 107 => ⟨S8x21x256x256, .f32⟩
  | 108 => ⟨S8x21x256x256, .f32⟩
  | 109 => ⟨S_, .f32⟩
  | 110 => ⟨S8x21x256x256, .f32⟩
  | 111 => ⟨S8x21x256x256, .f32⟩
  | 112 => ⟨S8x21x256x256, .f32⟩
  | 113 => ⟨S8x21x256x256, .f32⟩
  | 114 => ⟨S8x21x256x256, .f32⟩
  | 115 => ⟨S8x21x256x256, .f32⟩
  | 116 => ⟨S8x21x256x256, .f32⟩
  | 117 => ⟨S_, .f32⟩
  | 118 => ⟨S8x21x256x256, .f32⟩
  | 119 => ⟨S8x21x256x256, .f32⟩
  | 120 => ⟨S_, .f32⟩
  | 121 => ⟨S8x21x256x256, .f32⟩
  | 122 => ⟨S8x21x256x256, .f32⟩
  | 123 => ⟨S8x21x256x256, .f32⟩
  | 124 => ⟨S8x21x256x256, .f32⟩
  | 125 => ⟨S8x21x256x256, .f32⟩
  | 126 => ⟨S8x21x256x256, .f32⟩
  | 127 => ⟨S8x21x256x256, .f32⟩
  | _ => ⟨S8x21x256x256, .f32⟩

abbrev hbmTy0_1 (i : Nat) : BufTy := match i % 128 with
  | 0 => ⟨S_, .f32⟩
  | 1 => ⟨S8x21x256x256, .f32⟩
  | 2 => ⟨S8x21x256x256, .f32⟩
  | 3 => ⟨S_, .f32⟩
  | 4 => ⟨S8x21x256x256, .f32⟩
  | 5 => ⟨S8x21x256x256, .f32⟩
  | 6 => ⟨S8x21x256x256, .f32⟩
  | 7 => ⟨S8x21x256x256, .f32⟩
  | 8 => ⟨S8x21x256x256, .f32⟩
  | 9 => ⟨S8x21x256x256, .f32⟩
  | 10 => ⟨S8x21x256x256, .f32⟩
  | 11 => ⟨S_, .f32⟩
  | 12 => ⟨S8x21x256x256, .f32⟩
  | 13 => ⟨S8x21x256x256, .f32⟩
  | 14 => ⟨S_, .f32⟩
  | 15 => ⟨S8x21x256x256, .f32⟩
  | 16 => ⟨S8x21x256x256, .f32⟩
  | 17 => ⟨S8x21x256x256, .f32⟩
  | 18 => ⟨S8x21x256x256, .f32⟩
  | 19 => ⟨S8x21x256x256, .f32⟩
  | 20 => ⟨S8x21x256x256, .f32⟩
  | 21 => ⟨S8x21x256x256, .f32⟩
  | 22 => ⟨S_, .f32⟩
  | 23 => ⟨S8x21x256x256, .f32⟩
  | 24 => ⟨S8x21x256x256, .f32⟩
  | 25 => ⟨S_, .f32⟩
  | 26 => ⟨S8x21x256x256, .f32⟩
  | 27 => ⟨S8x21x256x256, .f32⟩
  | 28 => ⟨S8x21x256x256, .f32⟩
  | 29 => ⟨S8x21x256x256, .f32⟩
  | 30 => ⟨S8x21x256x256, .f32⟩
  | 31 => ⟨S8x21x256x256, .f32⟩
  | 32 => ⟨S8x21x256x256, .f32⟩
  | 33 => ⟨S_, .f32⟩
  | 34 => ⟨S8x21x256x256, .f32⟩
  | 35 => ⟨S8x21x256x256, .f32⟩
  | 36 => ⟨S_, .f32⟩
  | 37 => ⟨S8x21x256x256, .f32⟩
  | 38 => ⟨S8x21x256x256, .f32⟩
  | 39 => ⟨S8x21x256x256, .f32⟩
  | 40 => ⟨S8x21x256x256, .f32⟩
  | 41 => ⟨S8x21x256x256, .f32⟩
  | 42 => ⟨S8x21x256x256, .f32⟩
  | 43 => ⟨S8x21x256x256, .f32⟩
  | 44 => ⟨S_, .f32⟩
  | 45 => ⟨S8x21x256x256, .f32⟩
  | 46 => ⟨S8x21x256x256, .f32⟩
  | 47 => ⟨S_, .f32⟩
  | 48 => ⟨S8x21x256x256, .f32⟩
  | 49 => ⟨S8x21x256x256, .f32⟩
  | 50 => ⟨S8x21x256x256, .f32⟩
  | 51 => ⟨S8x21x256x256, .f32⟩
  | 52 => ⟨S8x21x256x256, .f32⟩
  | 53 => ⟨S8x21x256x256, .f32⟩
  | 54 => ⟨S8x21x256x256, .f32⟩
  | 55 => ⟨S_, .f32⟩
  | 56 => ⟨S8x21x256x256, .f32⟩
  | 57 => ⟨S8x21x256x256, .f32⟩
  | 58 => ⟨S_, .f32⟩
  | 59 => ⟨S8x21x256x256, .f32⟩
  | 60 => ⟨S8x21x256x256, .f32⟩
  | 61 => ⟨S8x21x256x256, .f32⟩
  | 62 => ⟨S8x21x256x256, .f32⟩
  | 63 => ⟨S8x21x256x256, .f32⟩
  | 64 => ⟨S8x21x256x256, .f32⟩
  | 65 => ⟨S8x21x256x256, .f32⟩
  | 66 => ⟨S_, .f32⟩
  | 67 => ⟨S8x21x256x256, .f32⟩
  | 68 => ⟨S8x21x256x256, .f32⟩
  | 69 => ⟨S_, .f32⟩
  | 70 => ⟨S8x21x256x256, .f32⟩
  | 71 => ⟨S8x21x256x256, .f32⟩
  | 72 => ⟨S8x21x256x256, .f32⟩
  | 73 => ⟨S8x21x256x256, .f32⟩
  | 74 => ⟨S8x21x256x256, .f32⟩
  | 75 => ⟨S8x21x256x256, .f32⟩
  | 76 => ⟨S8x21x256x256, .f32⟩
  | 77 => ⟨S_, .f32⟩
  | 78 => ⟨S8x21x256x256, .f32⟩
  | 79 => ⟨S8x21x256x256, .f32⟩
  | 80 => ⟨S_, .f32⟩
  | 81 => ⟨S8x21x256x256, .f32⟩
  | 82 => ⟨S8x21x256x256, .f32⟩
  | 83 => ⟨S8x21x256x256, .f32⟩
  | 84 => ⟨S8x21x256x256, .f32⟩
  | 85 => ⟨S8x21x256x256, .f32⟩
  | 86 => ⟨S8x21x256x256, .f32⟩
  | 87 => ⟨S8x21x256x256, .f32⟩
  | 88 => ⟨S_, .f32⟩
  | 89 => ⟨S8x21x256x256, .f32⟩
  | 90 => ⟨S8x21x256x256, .f32⟩
  | 91 => ⟨S_, .f32⟩
  | 92 => ⟨S8x21x256x256, .f32⟩
  | 93 => ⟨S8x21x256x256, .f32⟩
  | 94 => ⟨S8x21x256x256, .f32⟩
  | 95 => ⟨S8x21x256x256, .f32⟩
  | 96 => ⟨S_, .i32⟩
  | 97 => ⟨S_, .f32⟩
  | 98 => ⟨S8x21x260x260, .f32⟩
  | 99 => ⟨S_, .f32⟩
  | 100 => ⟨S8x21x256x256, .f32⟩
  | 101 => ⟨S8x21x256x256, .f32⟩
  | 102 => ⟨S8x21x256x256, .f32⟩
  | 103 => ⟨S8x21x256x256, .f32⟩
  | 104 => ⟨S_, .f32⟩
  | 105 => ⟨S8x21x256x256, .f32⟩
  | 106 => ⟨S8x21x256x256, .f32⟩
  | 107 => ⟨S_, .f32⟩
  | 108 => ⟨S8x21x256x256, .f32⟩
  | 109 => ⟨S8x21x256x256, .f32⟩
  | 110 => ⟨S8x21x256x256, .f32⟩
  | 111 => ⟨S8x21x256x256, .f32⟩
  | 112 => ⟨S8x21x256x256, .f32⟩
  | 113 => ⟨S8x21x256x256, .f32⟩
  | 114 => ⟨S8x21x256x256, .f32⟩
  | 115 => ⟨S_, .f32⟩
  | 116 => ⟨S8x21x256x256, .f32⟩
  | 117 => ⟨S8x21x256x256, .f32⟩
  | 118 => ⟨S_, .f32⟩
  | 119 => ⟨S8x21x256x256, .f32⟩
  | 120 => ⟨S8x21x256x256, .f32⟩
  | 121 => ⟨S8x21x256x256, .f32⟩
  | 122 => ⟨S8x21x256x256, .f32⟩
  | 123 => ⟨S8x21x256x256, .f32⟩
  | 124 => ⟨S8x21x256x256, .f32⟩
  | 125 => ⟨S8x21x256x256, .f32⟩
  | 126 => ⟨S_, .f32⟩
  | 127 => ⟨S8x21x256x256, .f32⟩
  | _ => ⟨S8x21x256x256, .f32⟩

abbrev hbmTy0_2 (i : Nat) : BufTy := match i % 128 with
  | 0 => ⟨S8x21x256x256, .f32⟩
  | 1 => ⟨S_, .f32⟩
  | 2 => ⟨S8x21x256x256, .f32⟩
  | 3 => ⟨S8x21x256x256, .f32⟩
  | 4 => ⟨S8x21x256x256, .f32⟩
  | 5 => ⟨S8x21x256x256, .f32⟩
  | 6 => ⟨S8x21x256x256, .f32⟩
  | 7 => ⟨S8x21x256x256, .f32⟩
  | 8 => ⟨S8x21x256x256, .f32⟩
  | 9 => ⟨S_, .f32⟩
  | 10 => ⟨S8x21x256x256, .f32⟩
  | 11 => ⟨S8x21x256x256, .f32⟩
  | 12 => ⟨S_, .f32⟩
  | 13 => ⟨S8x21x256x256, .f32⟩
  | 14 => ⟨S8x21x256x256, .f32⟩
  | 15 => ⟨S8x21x256x256, .f32⟩
  | 16 => ⟨S8x21x256x256, .f32⟩
  | 17 => ⟨S8x21x256x256, .f32⟩
  | 18 => ⟨S8x21x256x256, .f32⟩
  | 19 => ⟨S8x21x256x256, .f32⟩
  | 20 => ⟨S_, .f32⟩
  | 21 => ⟨S8x21x256x256, .f32⟩
  | 22 => ⟨S8x21x256x256, .f32⟩
  | 23 => ⟨S_, .f32⟩
  | 24 => ⟨S8x21x256x256, .f32⟩
  | 25 => ⟨S8x21x256x256, .f32⟩
  | 26 => ⟨S8x21x256x256, .f32⟩
  | 27 => ⟨S8x21x256x256, .f32⟩
  | 28 => ⟨S8x21x256x256, .f32⟩
  | 29 => ⟨S8x21x256x256, .f32⟩
  | 30 => ⟨S8x21x256x256, .f32⟩
  | 31 => ⟨S_, .f32⟩
  | 32 => ⟨S8x21x256x256, .f32⟩
  | 33 => ⟨S8x21x256x256, .f32⟩
  | 34 => ⟨S_, .f32⟩
  | 35 => ⟨S8x21x256x256, .f32⟩
  | 36 => ⟨S8x21x256x256, .f32⟩
  | 37 => ⟨S8x21x256x256, .f32⟩
  | 38 => ⟨S8x21x256x256, .f32⟩
  | 39 => ⟨S8x21x256x256, .f32⟩
  | 40 => ⟨S8x21x256x256, .f32⟩
  | 41 => ⟨S8x21x256x256, .f32⟩
  | 42 => ⟨S_, .f32⟩
  | 43 => ⟨S8x21x256x256, .f32⟩
  | 44 => ⟨S8x21x256x256, .f32⟩
  | 45 => ⟨S_, .f32⟩
  | 46 => ⟨S8x21x256x256, .f32⟩
  | 47 => ⟨S8x21x256x256, .f32⟩
  | 48 => ⟨S8x21x256x256, .f32⟩
  | 49 => ⟨S8x21x256x256, .f32⟩
  | 50 => ⟨S8x21x256x256, .f32⟩
  | 51 => ⟨S8x21x256x256, .f32⟩
  | 52 => ⟨S8x21x256x256, .f32⟩
  | 53 => ⟨S_, .f32⟩
  | 54 => ⟨S8x21x256x256, .f32⟩
  | 55 => ⟨S8x21x256x256, .f32⟩
  | 56 => ⟨S_, .f32⟩
  | 57 => ⟨S8x21x256x256, .f32⟩
  | 58 => ⟨S8x21x256x256, .f32⟩
  | 59 => ⟨S8x21x256x256, .f32⟩
  | 60 => ⟨S8x21x256x256, .f32⟩
  | 61 => ⟨S8x21x256x256, .f32⟩
  | 62 => ⟨S8x21x256x256, .f32⟩
  | 63 => ⟨S8x21x256x256, .f32⟩
  | 64 => ⟨S_, .f32⟩
  | 65 => ⟨S8x21x256x256, .f32⟩
  | 66 => ⟨S8x21x256x256, .f32⟩
  | 67 => ⟨S_, .f32⟩
  | 68 => ⟨S8x21x256x256, .f32⟩
  | 69 => ⟨S8x21x256x256, .f32⟩
  | 70 => ⟨S8x21x256x256, .f32⟩
  | 71 => ⟨S8x21x256x256, .f32⟩
  | 72 => ⟨S8x21x256x256, .f32⟩
  | 73 => ⟨S8x21x256x256, .f32⟩
  | 74 => ⟨S8x21x256x256, .f32⟩
  | 75 => ⟨S_, .f32⟩
  | 76 => ⟨S8x21x256x256, .f32⟩
  | 77 => ⟨S8x21x256x256, .f32⟩
  | 78 => ⟨S_, .f32⟩
  | 79 => ⟨S8x21x256x256, .f32⟩
  | 80 => ⟨S8x21x256x256, .f32⟩
  | 81 => ⟨S8x21x256x256, .f32⟩
  | 82 => ⟨S8x21x256x256, .f32⟩
  | 83 => ⟨S8x21x256x256, .f32⟩
  | 84 => ⟨S8x21x256x256, .f32⟩
  | 85 => ⟨S8x21x256x256, .f32⟩
  | 86 => ⟨S_, .f32⟩
  | 87 => ⟨S8x21x256x256, .f32⟩
  | 88 => ⟨S8x21x256x256, .f32⟩
  | 89 => ⟨S_, .f32⟩
  | 90 => ⟨S8x21x256x256, .f32⟩
  | 91 => ⟨S8x21x256x256, .f32⟩
  | 92 => ⟨S8x21x256x256, .f32⟩
  | 93 => ⟨S8x21x256x256, .f32⟩
  | 94 => ⟨S8x21x256x256, .f32⟩
  | 95 => ⟨S8x21x256x256, .f32⟩
  | 96 => ⟨S8x21x256x256, .f32⟩
  | 97 => ⟨S_, .f32⟩
  | 98 => ⟨S8x21x256x256, .f32⟩
  | 99 => ⟨S8x21x256x256, .f32⟩
  | 100 => ⟨S_, .f32⟩
  | 101 => ⟨S8x21x256x256, .f32⟩
  | 102 => ⟨S8x21x256x256, .f32⟩
  | 103 => ⟨S8x21x256x256, .f32⟩
  | 104 => ⟨S8x21x256x256, .f32⟩
  | 105 => ⟨S8x21x256x256, .f32⟩
  | 106 => ⟨S8x21x256x256, .f32⟩
  | 107 => ⟨S8x21x256x256, .f32⟩
  | 108 => ⟨S_, .f32⟩
  | 109 => ⟨S8x21x256x256, .f32⟩
  | 110 => ⟨S8x21x256x256, .f32⟩
  | 111 => ⟨S_, .f32⟩
  | 112 => ⟨S8x21x256x256, .f32⟩
  | 113 => ⟨S8x21x256x256, .f32⟩
  | 114 => ⟨S8x21x256x256, .f32⟩
  | 115 => ⟨S8x21x256x256, .f32⟩
  | 116 => ⟨S8x21x256x256, .f32⟩
  | 117 => ⟨S8x21x256x256, .f32⟩
  | 118 => ⟨S8x21x256x256, .f32⟩
  | 119 => ⟨S_, .f32⟩
  | 120 => ⟨S8x21x256x256, .f32⟩
  | 121 => ⟨S8x21x256x256, .f32⟩
  | 122 => ⟨S_, .f32⟩
  | 123 => ⟨S8x21x256x256, .f32⟩
  | 124 => ⟨S8x21x256x256, .f32⟩
  | 125 => ⟨S8x21x256x256, .f32⟩
  | 126 => ⟨S8x21x256x256, .f32⟩
  | 127 => ⟨S8x21x256x256, .f32⟩
  | _ => ⟨S8x21x256x256, .f32⟩

abbrev hbmTy0_3 (i : Nat) : BufTy := match i % 128 with
  | 0 => ⟨S8x21x256x256, .f32⟩
  | 1 => ⟨S8x21x256x256, .f32⟩
  | 2 => ⟨S_, .f32⟩
  | 3 => ⟨S8x21x256x256, .f32⟩
  | 4 => ⟨S8x21x256x256, .f32⟩
  | 5 => ⟨S_, .f32⟩
  | 6 => ⟨S8x21x256x256, .f32⟩
  | 7 => ⟨S8x21x256x256, .f32⟩
  | 8 => ⟨S8x21x256x256, .f32⟩
  | 9 => ⟨S8x21x256x256, .f32⟩
  | 10 => ⟨S8x21x256x256, .f32⟩
  | 11 => ⟨S8x21x256x256, .f32⟩
  | 12 => ⟨S8x21x256x256, .f32⟩
  | 13 => ⟨S_, .f32⟩
  | 14 => ⟨S8x21x256x256, .f32⟩
  | 15 => ⟨S8x21x256x256, .f32⟩
  | 16 => ⟨S_, .f32⟩
  | 17 => ⟨S8x21x256x256, .f32⟩
  | 18 => ⟨S8x21x256x256, .f32⟩
  | 19 => ⟨S8x21x256x256, .f32⟩
  | 20 => ⟨S8x21x256x256, .f32⟩
  | 21 => ⟨S8x21x256x256, .f32⟩
  | 22 => ⟨S8x21x256x256, .f32⟩
  | 23 => ⟨S_, .f32⟩
  | 24 => ⟨S_, .f32⟩
  | 25 => ⟨S_, .f32⟩
  | 26 => ⟨S_, .f32⟩
  | _ => ⟨S8x21x256x256, .f32⟩

abbrev hbmTy (i : Nat) : BufTy := match i / 128 with
  | 0 => hbmTy0_0 i
  | 1 => hbmTy0_1 i
  | 2 => hbmTy0_2 i
  | 3 => hbmTy0_3 i
  | _ => ⟨S8x21x256x256, .f32⟩

abbrev bufTy : (tb : Table) → Fin (tcTables nBuf tb) → BufTy
  | .hbm, ⟨i, _⟩ => hbmTy i
  | _, _ => ⟨S8x21x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_call2_v0 : Ref sig .tc := ⟨.hbm, 44, rfl⟩
abbrev main_v5 : Ref sig .tc := ⟨.hbm, 45, rfl⟩
abbrev main_cst : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_0 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_2 : Ref sig .tc := ⟨.hbm, 62, rfl⟩
abbrev main_v19 : Ref sig .tc := ⟨.hbm, 63, rfl⟩
abbrev main_v20 : Ref sig .tc := ⟨.hbm, 64, rfl⟩
abbrev main_cst_3 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_8 : Ref sig .tc := ⟨.hbm, 95, rfl⟩
abbrev main_v46 : Ref sig .tc := ⟨.hbm, 96, rfl⟩
abbrev main_v47 : Ref sig .tc := ⟨.hbm, 97, rfl⟩
abbrev main_cst_9 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_10 : Ref sig .tc := ⟨.hbm, 106, rfl⟩
abbrev main_v55 : Ref sig .tc := ⟨.hbm, 107, rfl⟩
abbrev main_v56 : Ref sig .tc := ⟨.hbm, 108, rfl⟩
abbrev main_cst_11 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_12 : Ref sig .tc := ⟨.hbm, 117, rfl⟩
abbrev main_v64 : Ref sig .tc := ⟨.hbm, 118, rfl⟩
abbrev main_v65 : Ref sig .tc := ⟨.hbm, 119, rfl⟩
abbrev main_cst_13 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_14 : Ref sig .tc := ⟨.hbm, 128, rfl⟩
abbrev main_v73 : Ref sig .tc := ⟨.hbm, 129, rfl⟩
abbrev main_v74 : Ref sig .tc := ⟨.hbm, 130, rfl⟩
abbrev main_cst_15 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_16 : Ref sig .tc := ⟨.hbm, 139, rfl⟩
abbrev main_v82 : Ref sig .tc := ⟨.hbm, 140, rfl⟩
abbrev main_v83 : Ref sig .tc := ⟨.hbm, 141, rfl⟩
abbrev main_cst_17 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_18 : Ref sig .tc := ⟨.hbm, 150, rfl⟩
abbrev main_v91 : Ref sig .tc := ⟨.hbm, 151, rfl⟩
abbrev main_v92 : Ref sig .tc := ⟨.hbm, 152, rfl⟩
abbrev main_cst_19 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_20 : Ref sig .tc := ⟨.hbm, 161, rfl⟩
abbrev main_v100 : Ref sig .tc := ⟨.hbm, 162, rfl⟩
abbrev main_v101 : Ref sig .tc := ⟨.hbm, 163, rfl⟩
abbrev main_cst_21 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_22 : Ref sig .tc := ⟨.hbm, 172, rfl⟩
abbrev main_v109 : Ref sig .tc := ⟨.hbm, 173, rfl⟩
abbrev main_v110 : Ref sig .tc := ⟨.hbm, 174, rfl⟩
abbrev main_cst_23 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_24 : Ref sig .tc := ⟨.hbm, 183, rfl⟩
abbrev main_v118 : Ref sig .tc := ⟨.hbm, 184, rfl⟩
abbrev main_v119 : Ref sig .tc := ⟨.hbm, 185, rfl⟩
abbrev main_cst_25 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_26 : Ref sig .tc := ⟨.hbm, 194, rfl⟩
abbrev main_v127 : Ref sig .tc := ⟨.hbm, 195, rfl⟩
abbrev main_v128 : Ref sig .tc := ⟨.hbm, 196, rfl⟩
abbrev main_cst_27 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_28 : Ref sig .tc := ⟨.hbm, 205, rfl⟩
abbrev main_v136 : Ref sig .tc := ⟨.hbm, 206, rfl⟩
abbrev main_v137 : Ref sig .tc := ⟨.hbm, 207, rfl⟩
abbrev main_cst_29 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_30 : Ref sig .tc := ⟨.hbm, 216, rfl⟩
abbrev main_v145 : Ref sig .tc := ⟨.hbm, 217, rfl⟩
abbrev main_v146 : Ref sig .tc := ⟨.hbm, 218, rfl⟩
abbrev main_cst_31 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_c_32 : Ref sig .tc := ⟨.hbm, 224, rfl⟩
abbrev main_call3_v0 : Ref sig .tc := ⟨.hbm, 225, rfl⟩
abbrev main_v151 : Ref sig .tc := ⟨.hbm, 226, rfl⟩
abbrev main_cst_33 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_cst_34 : Ref sig .tc := ⟨.hbm, 232, rfl⟩
abbrev main_v156 : Ref sig .tc := ⟨.hbm, 233, rfl⟩
abbrev main_v157 : Ref sig .tc := ⟨.hbm, 234, rfl⟩
abbrev main_cst_35 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_36 : Ref sig .tc := ⟨.hbm, 243, rfl⟩
abbrev main_v165 : Ref sig .tc := ⟨.hbm, 244, rfl⟩
abbrev main_v166 : Ref sig .tc := ⟨.hbm, 245, rfl⟩
abbrev main_cst_37 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_38 : Ref sig .tc := ⟨.hbm, 254, rfl⟩
abbrev main_v174 : Ref sig .tc := ⟨.hbm, 255, rfl⟩
abbrev main_v175 : Ref sig .tc := ⟨.hbm, 256, rfl⟩
abbrev main_cst_39 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_cst_40 : Ref sig .tc := ⟨.hbm, 265, rfl⟩
abbrev main_v183 : Ref sig .tc := ⟨.hbm, 266, rfl⟩
abbrev main_v184 : Ref sig .tc := ⟨.hbm, 267, rfl⟩
abbrev main_cst_41 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_42 : Ref sig .tc := ⟨.hbm, 276, rfl⟩
abbrev main_v192 : Ref sig .tc := ⟨.hbm, 277, rfl⟩
abbrev main_v193 : Ref sig .tc := ⟨.hbm, 278, rfl⟩
abbrev main_cst_43 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_cst_44 : Ref sig .tc := ⟨.hbm, 287, rfl⟩
abbrev main_v201 : Ref sig .tc := ⟨.hbm, 288, rfl⟩
abbrev main_v202 : Ref sig .tc := ⟨.hbm, 289, rfl⟩
abbrev main_cst_45 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_cst_46 : Ref sig .tc := ⟨.hbm, 298, rfl⟩
abbrev main_v210 : Ref sig .tc := ⟨.hbm, 299, rfl⟩
abbrev main_v211 : Ref sig .tc := ⟨.hbm, 300, rfl⟩
abbrev main_cst_47 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_cst_48 : Ref sig .tc := ⟨.hbm, 309, rfl⟩
abbrev main_v219 : Ref sig .tc := ⟨.hbm, 310, rfl⟩
abbrev main_v220 : Ref sig .tc := ⟨.hbm, 311, rfl⟩
abbrev main_cst_49 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_cst_50 : Ref sig .tc := ⟨.hbm, 320, rfl⟩
abbrev main_v228 : Ref sig .tc := ⟨.hbm, 321, rfl⟩
abbrev main_v229 : Ref sig .tc := ⟨.hbm, 322, rfl⟩
abbrev main_cst_51 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_cst_52 : Ref sig .tc := ⟨.hbm, 331, rfl⟩
abbrev main_v237 : Ref sig .tc := ⟨.hbm, 332, rfl⟩
abbrev main_v238 : Ref sig .tc := ⟨.hbm, 333, rfl⟩
abbrev main_cst_53 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_cst_54 : Ref sig .tc := ⟨.hbm, 342, rfl⟩
abbrev main_v246 : Ref sig .tc := ⟨.hbm, 343, rfl⟩
abbrev main_v247 : Ref sig .tc := ⟨.hbm, 344, rfl⟩
abbrev main_cst_55 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_cst_56 : Ref sig .tc := ⟨.hbm, 353, rfl⟩
abbrev main_v255 : Ref sig .tc := ⟨.hbm, 354, rfl⟩
abbrev main_v256 : Ref sig .tc := ⟨.hbm, 355, rfl⟩
abbrev main_cst_57 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_cst_58 : Ref sig .tc := ⟨.hbm, 364, rfl⟩
abbrev main_v264 : Ref sig .tc := ⟨.hbm, 365, rfl⟩
abbrev main_v265 : Ref sig .tc := ⟨.hbm, 366, rfl⟩
abbrev main_cst_59 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_cst_60 : Ref sig .tc := ⟨.hbm, 375, rfl⟩
abbrev main_v273 : Ref sig .tc := ⟨.hbm, 376, rfl⟩
abbrev main_v274 : Ref sig .tc := ⟨.hbm, 377, rfl⟩
abbrev main_cst_61 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_cst_62 : Ref sig .tc := ⟨.hbm, 386, rfl⟩
abbrev main_v282 : Ref sig .tc := ⟨.hbm, 387, rfl⟩
abbrev main_v283 : Ref sig .tc := ⟨.hbm, 388, rfl⟩
abbrev main_cst_63 : Ref sig .tc := ⟨.hbm, 389, rfl⟩
abbrev main_v284 : Ref sig .tc := ⟨.hbm, 390, rfl⟩
abbrev main_v285 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_cst_64 : Ref sig .tc := ⟨.hbm, 397, rfl⟩
abbrev main_v291 : Ref sig .tc := ⟨.hbm, 398, rfl⟩
abbrev main_v292 : Ref sig .tc := ⟨.hbm, 399, rfl⟩
abbrev main_cst_65 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_v297 : Ref sig .tc := ⟨.hbm, 405, rfl⟩
abbrev main_v298 : Ref sig .tc := ⟨.hbm, 406, rfl⟩
abbrev main_cst_66 : Ref sig .tc := ⟨.hbm, 407, rfl⟩
abbrev main_v299 : Ref sig .tc := ⟨.hbm, 408, rfl⟩
abbrev main_cst_67 : Ref sig .tc := ⟨.hbm, 409, rfl⟩
abbrev main_v300 : Ref sig .tc := ⟨.hbm, 410, rfl⟩

abbrev nD : Nat := 1
abbrev τ : Topo := Topo.v7x

variable {F : FTy → Type} [FloatOps F]

class Facts₀ : Prop where
  reducesTo_S8x21x256x256_S8x256x256_d1 : S8x21x256x256.ReducesTo [1] S8x256x256
  h_S_ : 0 < S_.numel
  bcast_S_S8x256x256 : S_.BroadcastsInDim S8x256x256 (![] : Fin 0 → Fin S8x256x256.rank)
  bcast_S8x256x256_S8x1x256x256_0_2_3 : S8x256x256.BroadcastsInDim S8x1x256x256 (![0, 2, 3] : Fin 3 → Fin S8x1x256x256.rank)
  bcast_S8x1x256x256_S8x21x256x256_0_1_2_3 : S8x1x256x256.BroadcastsInDim S8x21x256x256 (![0, 1, 2, 3] : Fin 4 → Fin S8x21x256x256.rank)
  bcast_S_S8x1x256x256 : S_.BroadcastsInDim S8x1x256x256 (![] : Fin 0 → Fin S8x1x256x256.rank)
  shapeCasts_S8x1x256x256_S8x1x256x256x1 : S8x1x256x256.ShapeCasts S8x1x256x256x1
  bcast_S_S8x1x256x256x1 : S_.BroadcastsInDim S8x1x256x256x1 (![] : Fin 0 → Fin S8x1x256x256x1.rank)
  bcast_S1_S1x1x1x1x1_4 : S1.BroadcastsInDim S1x1x1x1x1 (![4] : Fin 1 → Fin S1x1x1x1x1.rank)
  bcast_S1x1x1x1x1_S8x1x256x256x1_0_1_2_3_4 : S1x1x1x1x1.BroadcastsInDim S8x1x256x256x1 (![0, 1, 2, 3, 4] : Fin 5 → Fin S8x1x256x256x1.rank)
  reducesTo_S8x1x256x256x1_S8x1x256x256_d4 : S8x1x256x256x1.ReducesTo [4] S8x1x256x256
  shapeCasts_S8x1x256x256_S8x256x256 : S8x1x256x256.ShapeCasts S8x256x256
  pads_S8x21x256x256_S8x21x260x260_000_000_220_220 : S8x21x256x256.Pads (![0, 0, 2, 2] : Fin 4 → Nat) ![0, 0, 2, 2] ![0, 0, 0, 0] S8x21x260x260
  bcast_S_S8x21x256x256 : S_.BroadcastsInDim S8x21x256x256 (![] : Fin 0 → Fin S8x21x256x256.rank)
  slices_S8x21x260x260_S8x21x256x256_0_0_0_0 : S8x21x260x260.Slices ![0, 0, 0, 0] S8x21x256x256
  slices_S8x21x260x260_S8x21x256x256_0_0_0_1 : S8x21x260x260.Slices ![0, 0, 0, 1] S8x21x256x256
  slices_S8x21x260x260_S8x21x256x256_0_0_0_3 : S8x21x260x260.Slices ![0, 0, 0, 3] S8x21x256x256
  slices_S8x21x260x260_S8x21x256x256_0_0_0_4 : S8x21x260x260.Slices ![0, 0, 0, 4] S8x21x256x256
  slices_S8x21x260x260_S8x21x256x256_0_0_1_0 : S8x21x260x260.Slices ![0, 0, 1, 0] S8x21x256x256
  slices_S8x21x260x260_S8x21x256x256_0_0_1_1 : S8x21x260x260.Slices ![0, 0, 1, 1] S8x21x256x256
  slices_S8x21x260x260_S8x21x256x256_0_0_1_3 : S8x21x260x260.Slices ![0, 0, 1, 3] S8x21x256x256
  slices_S8x21x260x260_S8x21x256x256_0_0_1_4 : S8x21x260x260.Slices ![0, 0, 1, 4] S8x21x256x256
  slices_S8x21x260x260_S8x21x256x256_0_0_3_0 : S8x21x260x260.Slices ![0, 0, 3, 0] S8x21x256x256
  slices_S8x21x260x260_S8x21x256x256_0_0_3_1 : S8x21x260x260.Slices ![0, 0, 3, 1] S8x21x256x256
  slices_S8x21x260x260_S8x21x256x256_0_0_3_3 : S8x21x260x260.Slices ![0, 0, 3, 3] S8x21x256x256
  slices_S8x21x260x260_S8x21x256x256_0_0_3_4 : S8x21x260x260.Slices ![0, 0, 3, 4] S8x21x256x256
  slices_S8x21x260x260_S8x21x256x256_0_0_4_0 : S8x21x260x260.Slices ![0, 0, 4, 0] S8x21x256x256
  slices_S8x21x260x260_S8x21x256x256_0_0_4_1 : S8x21x260x260.Slices ![0, 0, 4, 1] S8x21x256x256
  slices_S8x21x260x260_S8x21x256x256_0_0_4_3 : S8x21x260x260.Slices ![0, 0, 4, 3] S8x21x256x256
  slices_S8x21x260x260_S8x21x256x256_0_0_4_4 : S8x21x260x260.Slices ![0, 0, 4, 4] S8x21x256x256
  reducesTo_S8x21x256x256_S_d0_1_2_3 : S8x21x256x256.ReducesTo [0, 1, 2, 3] S_
  gather_S8x21x256x256_S8x1x256x256x1_S8x1x256x256_n_1_023_023_1_4_1111_wf : GatherDims.WF S8x21x256x256 S8x1x256x256x1 S8x1x256x256 [] [1] [0, 2, 3] [1] [0, 2, 3] 4 ![1, 1, 1, 1]

variable [Facts₀]

def gather_S8x21x256x256_S8x1x256x256x1_S8x1x256x256_n_1_023_023_1_4_1111 : GatherDims S8x21x256x256 S8x1x256x256x1 S8x1x256x256 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x21x256x256_S8x1x256x256x1_S8x1x256x256_n_1_023_023_1_4_1111_wf

class Facts : Prop extends Facts₀ where

variable [Facts]
-- ==== Proof.Run.lean ====
import proofs.«413255_j25812753449052_3_alg».proof.Proof.Gen.KernelIdeal.Launch
import proofs.«413255_j25812753449052_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev VT (F : FTy → Type) := (c : Dev nD) → (b : Ref sig .tc) → Buf (Elt F) ((c : Thread nD τ).loc b)

section Run

variable (m : (ℓ : Loc nD τ sig) → Buf (Elt F) ℓ) (ρ : Dev nD → PrngReg)
variable (dat0 : VT F → (c : Dev nD) → Dat τ (Elt F) Unit ℕ (UR sig nD τ) ℕ cfg0 c)
  (dat1 : VT F → (c : Dev nD) → Dat τ (Elt F) Unit ℕ (UR sig nD τ) ℕ cfg1 c)

abbrev W0 : Dev nD → Valuation τ sig (Elt F) := fun c b => (s₀ m ρ).mem ((c : Dev nD), b)

abbrev V0 : VT F := fun c b => W0 m ρ c b

def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ dat0 c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ dat0 c (Proc.devRef .tc b) = W0 m ρ c (Proc.devRef .tc b) := by
  unfold W2; exact Pipeline.withArrays_of_ne spec0 c _ _ b hb

abbrev V2 : VT F := fun c b => W2 m ρ dat0 c b
theorem hF0 (c : Dev nD) (w : Fin cfg0.W) : (dat0 (V0 m ρ) c).arrAt w cfg0.N = V2 m ρ dat0 c (Pipeline.arrRef spec0 w) :=
  (W2_arr m ρ dat0 c w).symm
theorem hrest0 (c : Dev nD) : ∀ b, b ∉ Finset.univ.image (Pipeline.arrRef spec0) → V2 m ρ dat0 c b = V0 m ρ c b :=
  fun b hb => W2_of_ne m ρ dat0 c b fun w e => hb (Finset.mem_image.mpr ⟨w, Finset.mem_univ _, e⟩)

def W4 (c : Dev nD) : Valuation τ sig (Elt F) :=
  Pipeline.withArrays spec1 c (W2 m ρ dat0 c) fun w => (dat1 (V2 m ρ dat0) c).arrAt w cfg1.N
theorem W4_arr (c : Dev nD) (w : Fin cfg1.W) :
    W4 m ρ dat0 dat1 c (Proc.devRef .tc (Pipeline.arrRef spec1 w)) = (dat1 (V2 m ρ dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ dat0 dat1 c (Proc.devRef .tc b) = W2 m ρ dat0 c (Proc.devRef .tc b) := by
  unfold W4; exact Pipeline.withArrays_of_ne spec1 c _ _ b hb

abbrev V4 : VT F := fun c b => W4 m ρ dat0 dat1 c b
theorem hF1 (c : Dev nD) (w : Fin cfg1.W) : (dat1 (V2 m ρ dat0) c).arrAt w cfg1.N = V4 m ρ dat0 dat1 c (Pipeline.arrRef spec1 w) :=
  (W4_arr m ρ dat0 dat1 c w).symm
theorem hrest1 (c : Dev nD) : ∀ b, b ∉ Finset.univ.image (Pipeline.arrRef spec1) → V4 m ρ dat0 dat1 c b = V2 m ρ dat0 c b :=
  fun b hb => W4_of_ne m ρ dat0 dat1 c b fun w e => hb (Finset.mem_image.mpr ⟨w, Finset.mem_univ _, e⟩)

abbrev W5 : Dev nD → Valuation τ sig (Elt F) := fun c => StableHlo.after hostOps2 (W4 m ρ dat0 dat1 c)

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ dat0) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ dat0 dat1 c) ∗ ∃ r, prngReg c r)

variable (hA0 : ∀ V c w, (dat0 V c).A w = V c (Pipeline.arrRef spec0 w))
  (hΦ0 : ∀ V c i, (dat0 V c).Φ i = Pipeline.ΦA spec0 c)
  (hq0 : ∀ V c w, (dat0 V c).q w = fullShare)
  (ho0 : ∀ V c i, (dat0 V c).owed i = 0)
  (hr0 : ∀ V c i, (dat0 V c).recorded i = Set.univ)
  (hb0 : ∀ V c, BodyObligation (dat0 V c) (defs₀ (F := F)) Variants.none () Set.univ)
  (hA1 : ∀ V c w, (dat1 V c).A w = V c (Pipeline.arrRef spec1 w))
  (hΦ1 : ∀ V c i, (dat1 V c).Φ i = Pipeline.ΦA spec1 c)
  (hq1 : ∀ V c w, (dat1 V c).q w = fullShare)
  (ho1 : ∀ V c i, (dat1 V c).owed i = 0)
  (hr1 : ∀ V c i, (dat1 V c).recorded i = Set.univ)
  (hb1 : ∀ V c, BodyObligation (dat1 V c) (defs₀ (F := F)) Variants.none () Set.univ)

set_option backward.isDefEq.respectTransparency.types false in

def reg0 : Pipeline.RegionSeg (pcfgs (F := F)) adm (pdats m ρ dat0 dat1) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun c t => ho0 (V0 m ρ) c t
  pre c := iprop(StableHlo.held (c : Thread nD τ) (Pipeline.ucRefs τ sig) (W0 m ρ c) ∗ R c)
  post c := iprop(StableHlo.held (c : Thread nD τ) (Pipeline.ucRefs τ sig) (W2 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ dat0 dat1) launch0.win launch0.arr_whole c
      ((pdats m ρ dat0 dat1 0 c).share_full fun w => hq0 (V0 m ρ) c w) (V0 m ρ c) fun w => hA0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ dat0 dat1 0 c).recorded 0 = Set.univ from hr0 (V0 m ρ) c 0]; trivial)
      rw [show (pdats m ρ dat0 dat1 0 c).owed 0 = 0 from ho0 (V0 m ρ) c 0]
      iexact HO
    isplitl [Hp]; · iexact Hp
    iexact Hrest
  hin c := by
    rw [show (pdats m ρ dat0 dat1 0 c).Φ 0 = Pipeline.ΦA spec0 c from hΦ0 (V0 m ρ) c 0]; unfold Pipeline.ΦA
    iintro ⟨Hp, -, Hr⟩
    isplitl [Hr]; · iexact Hr
    iexact Hp
  hout c := by
    rw [Pipeline.ownSems0_none, show (pdats m ρ dat0 dat1 0 c).Φ (Fin.last _) = Pipeline.ΦA spec0 c from hΦ0 (V0 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0 dat1) ((pdats m ρ dat0 dat1 0 c).share_full fun w => hq0 (V0 m ρ) c w)
      (V0 m ρ c) (V2 m ρ dat0 c) ((pdats m ρ dat0 dat1 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ dat0 dat1 0 c).owed (Fin.last _) = 0 from ho0 (V0 m ρ) c (Fin.last _)]
    iexact HO

set_option backward.isDefEq.respectTransparency.types false in

def reg1 : Pipeline.RegionSeg (pcfgs (F := F)) adm (pdats m ρ dat0 dat1) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ dat0) c).loose
  hwaits := Pipeline.hwaits_of_owed_zero _ _ _ _ L lv 1 fun c t => ho1 (V2 m ρ dat0) c t
  pre c := iprop(StableHlo.held (c : Thread nD τ) (Pipeline.ucRefs τ sig) (W2 m ρ dat0 c) ∗ R c)
  post c := iprop(StableHlo.held (c : Thread nD τ) (Pipeline.ucRefs τ sig) (W4 m ρ dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m ρ dat0 c)
  hentry c := by
    rw [Pipeline.ownSems0_none]
    have hsplit := Pipeline.arrays_of_unscopedBufs (p := 1) (pcfgs (F := F)) adm (pdats m ρ dat0 dat1) launch1.win launch1.arr_whole c
      ((pdats m ρ dat0 dat1 1 c).share_full fun w => hq1 (V2 m ρ dat0) c w) (V2 m ρ dat0 c) fun w => hA1 (V2 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ dat0 dat1 1 c).recorded 0 = Set.univ from hr1 (V2 m ρ dat0) c 0]; trivial)
      rw [show (pdats m ρ dat0 dat1 1 c).owed 0 = 0 from ho1 (V2 m ρ dat0) c 0]
      iexact HO
    isplitl [Hp]; · iexact Hp
    iexact Hrest
  hin c := by
    rw [show (pdats m ρ dat0 dat1 1 c).Φ 0 = Pipeline.ΦA spec1 c from hΦ1 (V2 m ρ dat0) c 0]; unfold Pipeline.ΦA
    iintro ⟨Hp, -, Hr⟩
    isplitl [Hr]; · iexact Hr
    iexact Hp
  hout c := by
    rw [Pipeline.ownSems0_none, show (pdats m ρ dat0 dat1 1 c).Φ (Fin.last _) = Pipeline.ΦA spec1 c from hΦ1 (V2 m ρ dat0) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0 dat1) ((pdats m ρ dat0 dat1 1 c).share_full fun w => hq1 (V2 m ρ dat0) c w)
      (V2 m ρ dat0 c) (V4 m ρ dat0 dat1 c) ((pdats m ρ dat0 dat1 1 c).arrAt · cfg1.N) (hF1 m ρ dat0 dat1 c) (hrest1 m ρ dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ dat0 dat1 1 c).owed (Fin.last _) = 0 from ho1 (V2 m ρ dat0) c (Fin.last _)]
    iexact HO

abbrev segs : List (Pipeline.Seg (pcfgs (F := F)) adm (pdats m ρ dat0 dat1) () defs₀ 𝒱₀ L lv) :=
  [ .region (reg0 m ρ dat0 dat1 hA0 hΦ0 hq0 ho0 hr0 hb0),
    .region (reg1 m ρ dat0 dat1 hA1 hΦ1 hq1 ho1 hr1 hb1),
    .host (hseg hostOps2 hostOps2_sub hostOps2_fresh (W4 m ρ dat0 dat1)) ]

theorem main_run (c : Dev nD) : main (F := F) c = Pipeline.Seg.run (segs m ρ dat0 dat1 hA0 hΦ0 hq0 ho0 hr0 hb0 hA1 hΦ1 hq1 ho1 hr1 hb1) :=
  main_segs adm (pdats m ρ dat0 dat1) () 𝒱₀ L lv _ _ _ rfl c

include hA0 hΦ0 hq0 ho0 hr0 hb0 hA1 hΦ1 hq1 ho1 hr1 hb1 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  Pipeline.θ_run_regions_kit (pcfgs (F := F)) adm (pdats m ρ dat0 dat1) () cellOf_inj emb₁ defs₀ 𝒱₀ L lv m ρ main
    (segs m ρ dat0 dat1 hA0 hΦ0 hq0 ho0 hr0 hb0 hA1 hΦ1 hq1 ho1 hr1 hb1)
    (fun c Q => by rw [main_run m ρ dat0 dat1 hA0 hΦ0 hq0 ho0 hr0 hb0 hA1 hΦ1 hq1 ho1 hr1 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat0 dat1)
    (hch := ⟨fun _ => .rfl, fun _ => .rfl, fun _ => .rfl, fun c => show iprop(StableHlo.held (c : Thread nD τ) (Pipeline.ucRefs τ sig) (W5 m ρ dat0 dat1 c) ∗ R c)
        ⊢ iprop(Tₙ m ρ dat0 dat1 c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 dat1 c) s')
      isplitl [Hh] <;> iassumption)
    (hQ := fun s h => h)

theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl

include hA0 in
theorem W2_main_arg0 (c : Dev nD) : W2 m ρ dat0 c (Proc.devRef .tc main_arg0) = m ((c : Thread nD τ).loc main_arg0) :=
  (W2_arr m ρ dat0 c 0).trans (((dat0 (V0 m ρ) c).arrAt_in 0 rfl _).trans (hA0 (V0 m ρ) c 0))
include hA0 in
theorem W2_main_arg1 (c : Dev nD) : W2 m ρ dat0 c (Proc.devRef .tc main_arg1) = m ((c : Thread nD τ).loc main_arg1) :=
  (W2_arr m ρ dat0 c 1).trans (((dat0 (V0 m ρ) c).arrAt_in 1 rfl _).trans (hA0 (V0 m ρ) c 1))
theorem W2_main_arg2 (c : Dev nD) : W2 m ρ dat0 c (Proc.devRef .tc main_arg2) = m ((c : Thread nD τ).loc main_arg2) :=
  W2_of_ne m ρ dat0 c main_arg2 (by decide)

theorem W2_main_v0 (c : Dev nD) : W2 m ρ dat0 c (Proc.devRef .tc main_v0) = (dat0 (V0 m ρ) c).arrAt 2 cfg0.N :=
  W2_arr m ρ dat0 c 2

include hA0 in

theorem V2_main_arg0 (c : Dev nD) : V2 m ρ dat0 c main_arg0 = m ((c : Thread nD τ).loc main_arg0) :=
  W2_main_arg0 m ρ dat0 hA0 c
theorem V2_main_arg2 (c : Dev nD) : V2 m ρ dat0 c main_arg2 = m ((c : Thread nD τ).loc main_arg2) :=
  W2_main_arg2 m ρ dat0 c

include hA0 hA1 in
theorem W4_main_arg0 (c : Dev nD) : W4 m ρ dat0 dat1 c (Proc.devRef .tc main_arg0) = m ((c : Thread nD τ).loc main_arg0) :=
  calc W4 m ρ dat0 dat1 c (Proc.devRef .tc main_arg0)
    _ = W2 m ρ dat0 c (Proc.devRef .tc main_arg0) :=
          (W4_arr m ρ dat0 dat1 c 0).trans (((dat1 (V2 m ρ dat0) c).arrAt_in 0 rfl _).trans (hA1 (V2 m ρ dat0) c 0))
    _ = m ((c : Thread nD τ).loc main_arg0) := W2_main_arg0 m ρ dat0 hA0 c
include hA0 in
theorem W4_main_arg1 (c : Dev nD) : W4 m ρ dat0 dat1 c (Proc.devRef .tc main_arg1) = m ((c : Thread nD τ).loc main_arg1) :=
  (W4_of_ne m ρ dat0 dat1 c main_arg1 (by decide)).trans (W2_main_arg1 m ρ dat0 hA0 c)
include hA1 in
theorem W4_main_arg2 (c : Dev nD) : W4 m ρ dat0 dat1 c (Proc.devRef .tc main_arg2) = m ((c : Thread nD τ).loc main_arg2) :=
  calc W4 m ρ dat0 dat1 c (Proc.devRef .tc main_arg2)
    _ = W2 m ρ dat0 c (Proc.devRef .tc main_arg2) :=
          (W4_arr m ρ dat0 dat1 c 1).trans (((dat1 (V2 m ρ dat0) c).arrAt_in 1 rfl _).trans (hA1 (V2 m ρ dat0) c 1))
    _ = m ((c : Thread nD τ).loc main_arg2) := W2_main_arg2 m ρ dat0 c

theorem W4_main_v0 (c : Dev nD) : W4 m ρ dat0 dat1 c (Proc.devRef .tc main_v0) = (dat0 (V0 m ρ) c).arrAt 2 cfg0.N :=
  (W4_of_ne m ρ dat0 dat1 c main_v0 (by decide)).trans (W2_main_v0 m ρ dat0 c)

theorem W4_main_v1 (c : Dev nD) : W4 m ρ dat0 dat1 c (Proc.devRef .tc main_v1) = (dat1 (V2 m ρ dat0) c).arrAt 2 cfg1.N :=
  W4_arr m ρ dat0 dat1 c 2

theorem W5_of (c : Dev nD) (r : Ref sig .tc) (h : r ∉ hostOps2_W) :
    W5 m ρ dat0 dat1 c (Proc.devRef .tc r) = W4 m ρ dat0 dat1 c (Proc.devRef .tc r) :=
  StableHlo.after_of_writes_sub hostOps2 _ hostOps2_writes h

include hA0 hA1 in
theorem W5_main_arg0 (c : Dev nD) : W5 m ρ dat0 dat1 c (Proc.devRef .tc main_arg0) = m ((c : Thread nD τ).loc main_arg0) :=
  (W5_of m ρ dat0 dat1 c main_arg0 (by decide)).trans (W4_main_arg0 m ρ dat0 dat1 hA0 hA1 c)
include hA0 in
theorem W5_main_arg1 (c : Dev nD) : W5 m ρ dat0 dat1 c (Proc.devRef .tc main_arg1) = m ((c : Thread nD τ).loc main_arg1) :=
  (W5_of m ρ dat0 dat1 c main_arg1 (by decide)).trans (W4_main_arg1 m ρ dat0 dat1 hA0 c)
include hA1 in
theorem W5_main_arg2 (c : Dev nD) : W5 m ρ dat0 dat1 c (Proc.devRef .tc main_arg2) = m ((c : Thread nD τ).loc main_arg2) :=
  (W5_of m ρ dat0 dat1 c main_arg2 (by decide)).trans (W4_main_arg2 m ρ dat0 dat1 hA1 c)

theorem W5_main_v0 (c : Dev nD) : W5 m ρ dat0 dat1 c (Proc.devRef .tc main_v0) = (dat0 (V0 m ρ) c).arrAt 2 cfg0.N :=
  (W5_of m ρ dat0 dat1 c main_v0 (by decide)).trans (W4_main_v0 m ρ dat0 dat1 c)

theorem W5_main_v3 (c : Dev nD) : W5 m ρ dat0 dat1 c (Proc.devRef .tc main_v3)
    = Host.divf (Host.reduceAdd (W4 m ρ dat0 dat1 c (Proc.devRef .tc main_v1)) (constant S_ .f32 0x00000000#32) reducesTo_S8x8x128_S_d0_1_2 h_S_)
        (constant S_ .f32 0x4B280000#32) := by
  show StableHlo.after hostOps2 (W4 m ρ dat0 dat1 c) (Proc.devRef .tc main_v3) = _
  after_results

end Run

end Cert.KernelIdeal.Hand

end
-- ==== Proof.Frame0.lean ====
import proofs.«413255_j25812753449052_3_alg».proof.Proof.Gen.KernelIdeal.Launch
import proofs.«413255_j25812753449052_3_alg».proof.Proof.Gen.KernelIdeal.Skeleton
import proofs.«413255_j25812753449052_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_in0 : Rect S1x21x64x256 := Rect.unit (s := S1x21x64x256) ![0, 0, 0, 0] S1x21x64x256.size inb_S1x21x64x256_S1x21x64x256_0_0_0_0
abbrev r0_in1 : Rect S1x64x256 := Rect.unit (s := S1x64x256) ![0, 0, 0] S1x64x256.size inb_S1x64x256_S1x64x256_0_0_0

def out0_2 (x0 : Vec F S1x21x64x256 .f32) (x1 : Vec F S1x64x256 .i32) : Vec F S1x64x256 .f32 :=
  View.canon [⟨r0_in1, k0_pay1 (View.ld x0 r0_in0) (View.ld x1 r0_in1)⟩]

theorem cover0_2 (p0 : Vec F S1x64x256 .f32) (y : S1x64x256.Idx) :
    ∃ pc ∈ ([⟨r0_in1, p0⟩] : List (View.Piece (Elt F) S1x64x256 .f32)), y ∈ pc.1.set :=
  View.cover_of_tiled [⟨r0_in1, p0⟩] S1x64x256.size (by rfl) y

set_option maxHeartbeats 1000000 in

theorem sound_kernel0 (c : Dev nD) (E : Set ℕ) (i : grid0.Coords)
    (arg2 : Memref sig .tc .vmem S1x21x64x256 .f32) (harg2 : arg2.IsWhole)
    (arg3 : Memref sig .tc .vmem S1x64x256 .i32) (harg3 : arg3.IsWhole)
    (arg4 : Memref sig .tc .vmem S1x64x256 .f32) (harg4 : arg4.IsWhole)
    (x0 : Vec F S1x21x64x256 .f32) (x1 : Vec F S1x64x256 .i32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ce_kernel i arg2 harg2 arg3 harg3 arg4 harg4) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Frame1Runs.lean ====
import proofs.«413255_j25812753449052_3_alg».proof.Proof.Gen.KernelIdeal.Launch
import proofs.«413255_j25812753449052_3_alg».proof.Proof.Gen.KernelIdeal.Skeleton
import proofs.«413255_j25812753449052_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

theorem hcond1_1 : ∀ t : Fin cfg1.N, k1_cond1 (grid1.coords t) = 1#1 ↔ t.val % 3 = 0 :=
  (by decide +kernel : ∀ t : Fin grid1.N, k1_cond1 (grid1.coords t) = 1#1 ↔ t.val % 3 = 0)

theorem hcond1_2 : ∀ t : Fin cfg1.N, k1_cond2 (grid1.coords t) = 1#1 ↔ t.val % 3 ≠ 0 :=
  (by decide +kernel : ∀ t : Fin grid1.N, k1_cond2 (grid1.coords t) = 1#1 ↔ t.val % 3 ≠ 0)

abbrev VO1_2 : View sig .tc .vmem S1x8x128 .f32 := (Memref.whole cc1_stg2_0 : Memref sig .tc .vmem S1x8x128 .f32).view

abbrev ms1_0 (t : Fin cfg1.N) : Memref sig .tc .vmem S1x7x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x7x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x128 .f32 := win1_2.stage (cfg1.slots t 2)
abbrev hs1_2 (t : Fin cfg1.N) : (ms1_2 t).IsWhole := hstage1_2 ((cfg1.slots t 2).cast nbuf1_2)

abbrev scM1_0 : Memref sig .tc .vmem S7x264x384 .f32 := Memref.whole cc1_scratch0
abbrev scM1_1 : Memref sig .tc .vmem S7x264x384 .f32 := Memref.whole cc1_scratch1

def otherStages (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem PhiA1_eq (c : Dev nD) :
    (Pipeline.ΦA spec1 c : sProp 𝕄)
      = iprop(iprop(otherStages (F := F) c ∗ (∃ d, owns (c : Thread nD τ) scM1_0 fullShare d) ∗ (∃ d, owns (c : Thread nD τ) scM1_1 fullShare d)) ∗ (∃ r, prngReg c r)) := by
  unfold Pipeline.ΦA otherStages; rw [scopedRest1_eq]; simp only [scM1_0, scM1_1, owns_whole]

  refine BI.equiv_iff.mp ⟨?_, ?_⟩
  · show (_ : sProp 𝕄) ⊢ _
    iintro ⟨⟨A1, A2, A3, A4, A5, A6, S0, S1⟩, R⟩
    isplitl [A1 A2 A3 A4 A5 A6 S0 S1]
    · isplitl [A1 A2 A3 A4 A5 A6]
      · isplitl [A1]; · iexact A1
        isplitl [A2]; · iexact A2
        isplitl [A3]; · iexact A3
        isplitl [A4]; · iexact A4
        isplitl [A5]; · iexact A5
        iexact A6
      isplitl [S0]; · iexact S0
      iexact S1
    iexact R
  · show (_ : sProp 𝕄) ⊢ _
    iintro ⟨⟨⟨A1, A2, A3, A4, A5, A6⟩, S0, S1⟩, R⟩
    isplitl [A1 A2 A3 A4 A5 A6 S0 S1]
    · isplitl [A1]; · iexact A1
      isplitl [A2]; · iexact A2
      isplitl [A3]; · iexact A3
      isplitl [A4]; · iexact A4
      isplitl [A5]; · iexact A5
      isplitl [A6]; · iexact A6
      isplitl [S0]; · iexact S0
      iexact S1
    iexact R

end Cert.KernelIdeal.Hand

end
-- ==== Proof.Frame1RunA.lean ====
import proofs.«413255_j25812753449052_3_alg».proof.Proof.Frame1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun1_A (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) :
    { L2 : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ d, owns (c : Thread nD τ) arg5 fullShare d) ∗ (∃ d, owns (c : Thread nD τ) arg6 fullShare d)) -∗ K ⟨⟩))
          ⊢ wp frame (wpE (defs₀ (F := F)) Variants.none c none) E (cc1__gmse_kernel i arg2 harg2 arg3 harg3 arg4 harg4 arg5 harg5 arg6 harg6) K } := by
  refine ⟨?_, fun E K => ?run⟩
  case run =>
    simp only [cc1__gmse_kernel_eq_skeleton]; unfold cc1__gmse_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%d5, %f5, -, H5⟩, ⟨%d6, %f6, -, H6⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexists _; isplitr
      swap; · iexact H5
      ipureintro; rfl
    iexists _; iexists _; isplitr
    swap; · iexact H6
    ipureintro; rfl

end Cert.KernelIdeal.Hand

end
-- ==== Proof.Frame1RunB.lean ====
import proofs.«413255_j25812753449052_3_alg».proof.Proof.Frame1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun1_B (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) :
    { L2 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ d, owns (c : Thread nD τ) arg5 fullShare d) ∗ (∃ d, owns (c : Thread nD τ) arg6 fullShare d)) -∗ K ⟨⟩))
          ⊢ wp frame (wpE (defs₀ (F := F)) Variants.none c none) E (cc1__gmse_kernel i arg2 harg2 arg3 harg3 arg4 harg4 arg5 harg5 arg6 harg6) K } := by
  refine ⟨?_, fun E K => ?run⟩
  case run =>
    simp only [cc1__gmse_kernel_eq_skeleton]; unfold cc1__gmse_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexists _; isplitr
      swap; · iexact H5
      ipureintro; rfl
    iexists _; iexists _; isplitr
    swap; · iexact H6
    ipureintro; rfl

end Cert.KernelIdeal.Hand

end
-- ==== Proof.Frame1.lean ====
import proofs.«413255_j25812753449052_3_alg».proof.Proof.Frame1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem liveAt1_0 : ∀ t : Fin cfg1.N, cfg1.idle 0 (grid1.coords t) = false := by decide +kernel
theorem liveAt1_1 : ∀ t : Fin cfg1.N, cfg1.idle 1 (grid1.coords t) = false := by decide +kernel

theorem liveAt1_2 : ∀ t : Fin cfg1.N, cfg1.idle 2 (grid1.coords t) = false := by decide +kernel

theorem live1_2 : ∀ i : grid1.Coords, cfg1.idle 2 i = false := by decide +kernel

section Region1

variable (V : (c : Dev nD) → (b : Ref sig .tc) → Buf (Elt F) ((c : Thread nD τ).loc b))

theorem cover1_A_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) (y : S1x8x128.Idx) :
    ∃ pc ∈ (kernelRun1_A c i arg2 harg2 arg3 harg3 arg4 harg4 arg5 harg5 arg6 harg6 hc1 hc2 x0 x1).1, y ∈ pc.1.set :=
  View.cover_of_tiledL (kernelRun1_A c i arg2 harg2 arg3 harg3 arg4 harg4 arg5 harg5 arg6 harg6 hc1 hc2 x0 x1).1 S1x8x128.size (by sl_kernel_rfl) y

def out1_A_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) : Vec F S1x8x128 .f32 :=
  VO1_2.read (Elt F) (VO1_2.writes (Elt F) VO1_2.junk (kernelRun1_A c i arg2 harg2 arg3 harg3 arg4 harg4 arg5 harg5 arg6 harg6 hc1 hc2 x0 x1).1)

theorem cover1_B_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) (y : S1x8x128.Idx) :
    ∃ pc ∈ (kernelRun1_B c i arg2 harg2 arg3 harg3 arg4 harg4 arg5 harg5 arg6 harg6 hc1 hc2 x0 x1 xo2).1, y ∈ pc.1.set :=
  View.cover_of_tiledL (kernelRun1_B c i arg2 harg2 arg3 harg3 arg4 harg4 arg5 harg5 arg6 harg6 hc1 hc2 x0 x1 xo2).1 S1x8x128.size (by sl_kernel_rfl) y

def out1_B_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) : Vec F S1x8x128 .f32 :=
  VO1_2.read (Elt F) (VO1_2.writes (Elt F) VO1_2.junk (kernelRun1_B c i arg2 harg2 arg3 harg3 arg4 harg4 arg5 harg5 arg6 harg6 hc1 hc2 x0 x1 xo2).1)

def outsAt1 (c : Dev nD) : (n : ℕ) → n < cfg1.N → Vec F S1x8x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_1 ⟨0, hn⟩).mpr (Nat.zero_mod _)) (fun h => (hcond1_2 ⟨0, hn⟩).mp h (Nat.zero_mod _)) (iblk1 V c 0 ⟨0, hn⟩) (iblk1 V c 1 ⟨0, hn⟩)
  | n + 1, hn =>
    if h0 : (n + 1) % 3 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_1 ⟨n + 1, hn⟩).mpr h0) (fun h => (hcond1_2 ⟨n + 1, hn⟩).mp h h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_1 ⟨n + 1, hn⟩).mp h)) ((hcond1_2 ⟨n + 1, hn⟩).mpr h0) (iblk1 V c 0 ⟨n + 1, hn⟩) (iblk1 V c 1 ⟨n + 1, hn⟩) (outsAt1 c n (Nat.lt_of_succ_lt hn))

theorem outsAt1_A (c : Dev nD) (t : Fin cfg1.N) (h0 : t.val % 3 = 0) :
    outsAt1 V c t.val t.isLt = out1_A_2 c (grid1.coords t) (ms1_0 t) (hs1_0 t) (ms1_1 t) (hs1_1 t) (ms1_2 t) (hs1_2 t) scM1_0 (Memref.isWhole_whole _) scM1_1 (Memref.isWhole_whole _) ((hcond1_1 t).mpr h0) (fun h => (hcond1_2 t).mp h h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 3 = 0) :
    outsAt1 V c t.val t.isLt = out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_1 t).mp h)) ((hcond1_2 t).mpr h0) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 3 = 0) (d) :
    (dat1 V c).before 2 t d = outsAt1 V c (t.val - 1) (Nat.lt_of_le_of_lt (Nat.sub_le _ _) t.isLt) := by
  have hN : t.val < 24 := lt_of_lt_of_eq t.isLt (show cfg1.N = 24 from N_1)
  rw [Dat.before_out_kept _ 2 rfl t (by omega) (Bool.eq_false_iff.mpr fun h => by have := (flush1_2 _).mp h; dsimp only at this; omega)
    live1_2 (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t]]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  have hN : t.val < 24 := lt_of_lt_of_eq t.isLt (show cfg1.N = 24 from N_1)
  by_cases h0 : t.val % 3 = 0
  · rw [outsAt1_A V c t h0]
    unfold out1_A_2
    iintro ⟨⟨⟨Hst, HS0, HS1⟩, Hg⟩, Ho, ⟨%d0, H0⟩, ⟨%d1, H1⟩, ⟨%d2, H2⟩⟩
    iapply ((kernelRun1_A c (grid1.coords t) _ _ _ _ _ _ _ _ _ _ ((hcond1_1 t).mpr h0) (fun h => (hcond1_2 t).mp h h0) (iblk1 V c 0 t) (iblk1 V c 1 t)).2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, HS0, HS1⟩
    isplitl [Hst HS0 HS1 Hg]
    · isplitl [Hst HS0 HS1]
      · isplitl [Hst]; · iexact Hst
        isplitl [HS0]; · iexact HS0
        iexact HS1
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _ _ _)
  · rw [outsAt1_B V c t h0]
    simp only [before1_2_B V c t h0]
    unfold out1_B_2
    iintro ⟨⟨⟨Hst, HS0, HS1⟩, Hg⟩, Ho, ⟨%d0, H0⟩, ⟨%d1, H1⟩, ⟨%d2, H2⟩⟩
    iapply ((kernelRun1_B c (grid1.coords t) _ _ _ _ _ _ _ _ _ _ (fun h => h0 ((hcond1_1 t).mp h)) ((hcond1_2 t).mpr h0) (iblk1 V c 0 t) (iblk1 V c 1 t) _).2 Set.univ _)
    isplitl [H0]; · iexact H0
    isplitl [H1]; · iexact H1
    isplitl [H2]; · iexact H2
    isplitl [HS0]; · iexact HS0
    isplitl [HS1]; · iexact HS1
    iintro ⟨H0, H1, ⟨%e2, H2⟩, HS0, HS1⟩
    isplitl [Hst HS0 HS1 Hg]
    · isplitl [Hst HS0 HS1]
      · isplitl [Hst]; · iexact Hst
        isplitl [HS0]; · iexact HS0
        iexact HS1
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Asm.lean ====
import proofs.«413255_j25812753449052_3_alg».proof.Proof.Run
import proofs.«413255_j25812753449052_3_alg».proof.Proof.Frame0
import proofs.«413255_j25812753449052_3_alg».proof.Proof.Frame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Whole

variable (m : (ℓ : Loc nD τ sig) → Buf (Elt F) ℓ) (ρ : Dev nD → PrngReg)

theorem run_at : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  run_all m ρ dat0 dat1
    (fun V c w => A_eq0 V c w) (fun _ _ _ => rfl) (fun _ _ _ => rfl) (fun _ _ _ => rfl) (fun _ _ _ => rfl) (fun V c => body_obligation0 V c)
    (fun V c w => A_eq1 V c w) (fun _ _ _ => rfl) (fun _ _ _ => rfl) (fun _ _ _ => rfl) (fun _ _ _ => rfl) (fun V c => body_obligation1 V c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_arg0 (by decide))).trans (W5_main_arg0 m ρ dat0 dat1 (fun V c w => A_eq0 V c w) (fun V c w => A_eq1 V c w) c),
     (h c _ (mem_uc main_arg1 (by decide))).trans (W5_main_arg1 m ρ dat0 dat1 (fun V c w => A_eq0 V c w) c),
     (h c _ (mem_uc main_arg2 (by decide))).trans (W5_main_arg2 m ρ dat0 dat1 (fun V c w => A_eq1 V c w) c)⟩) (run_at m ρ)

theorem run_values : θ_run defs (onTc (τ := τ) (main (F := F))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v3)
          = Host.divf (Host.reduceAdd ((dat1 (V2 m ρ dat0) c).arrAt 2 cfg1.N) (constant S_ .f32 0x00000000#32) reducesTo_S8x8x128_S_d0_1_2 h_S_)
              (constant S_ .f32 0x4B280000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_v0 (by decide))).trans (W5_main_v0 m ρ dat0 dat1 c),
     (h c _ (mem_uc main_v3 (by decide))).trans ((W5_main_v3 m ρ dat0 dat1 c).trans (by rw [W4_main_v1 m ρ dat0 dat1 c])),
     (h c _ (mem_uc main_arg0 (by decide))).trans (W5_main_arg0 m ρ dat0 dat1 (fun V c w => A_eq0 V c w) (fun V c w => A_eq1 V c w) c),
     (h c _ (mem_uc main_arg1 (by decide))).trans (W5_main_arg1 m ρ dat0 dat1 (fun V c w => A_eq0 V c w) c),
     (h c _ (mem_uc main_arg2 (by decide))).trans (W5_main_arg2 m ρ dat0 dat1 (fun V c w => A_eq1 V c w) c)⟩) (run_at m ρ)

end Whole

end Cert.KernelIdeal.Hand

end
-- ==== Proof.KRun.lean ====
import proofs.«413255_j25812753449052_3_alg».proof.Proof.Gen.Kernel.Launch
import proofs.«413255_j25812753449052_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VT (F : FTy → Type) := (c : Dev nD) → (b : Ref sig .tc) → Buf (Elt F) ((c : Thread nD τ).loc b)

section Run

variable (m : (ℓ : Loc nD τ sig) → Buf (Elt F) ℓ) (ρ : Dev nD → PrngReg)
variable (dat0 : VT F → (c : Dev nD) → Dat τ (Elt F) Unit ℕ (UR sig nD τ) ℕ cfg0 c)
  (dat1 : VT F → (c : Dev nD) → Dat τ (Elt F) Unit ℕ (UR sig nD τ) ℕ cfg1 c)

abbrev W0 : Dev nD → Valuation τ sig (Elt F) := fun c b => (s₀ m ρ).mem ((c : Dev nD), b)

abbrev V0 : VT F := fun c b => W0 m ρ c b

def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ dat0 c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ dat0 c (Proc.devRef .tc b) = W0 m ρ c (Proc.devRef .tc b) := by
  unfold W2; exact Pipeline.withArrays_of_ne spec0 c _ _ b hb

abbrev V2 : VT F := fun c b => W2 m ρ dat0 c b
theorem hF0 (c : Dev nD) (w : Fin cfg0.W) : (dat0 (V0 m ρ) c).arrAt w cfg0.N = V2 m ρ dat0 c (Pipeline.arrRef spec0 w) :=
  (W2_arr m ρ dat0 c w).symm
theorem hrest0 (c : Dev nD) : ∀ b, b ∉ Finset.univ.image (Pipeline.arrRef spec0) → V2 m ρ dat0 c b = V0 m ρ c b :=
  fun b hb => W2_of_ne m ρ dat0 c b fun w e => hb (Finset.mem_image.mpr ⟨w, Finset.mem_univ _, e⟩)

def W4 (c : Dev nD) : Valuation τ sig (Elt F) :=
  Pipeline.withArrays spec1 c (W2 m ρ dat0 c) fun w => (dat1 (V2 m ρ dat0) c).arrAt w cfg1.N
theorem W4_arr (c : Dev nD) (w : Fin cfg1.W) :
    W4 m ρ dat0 dat1 c (Proc.devRef .tc (Pipeline.arrRef spec1 w)) = (dat1 (V2 m ρ dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ dat0 dat1 c (Proc.devRef .tc b) = W2 m ρ dat0 c (Proc.devRef .tc b) := by
  unfold W4; exact Pipeline.withArrays_of_ne spec1 c _ _ b hb

abbrev V4 : VT F := fun c b => W4 m ρ dat0 dat1 c b
theorem hF1 (c : Dev nD) (w : Fin cfg1.W) : (dat1 (V2 m ρ dat0) c).arrAt w cfg1.N = V4 m ρ dat0 dat1 c (Pipeline.arrRef spec1 w) :=
  (W4_arr m ρ dat0 dat1 c w).symm
theorem hrest1 (c : Dev nD) : ∀ b, b ∉ Finset.univ.image (Pipeline.arrRef spec1) → V4 m ρ dat0 dat1 c b = V2 m ρ dat0 c b :=
  fun b hb => W4_of_ne m ρ dat0 dat1 c b fun w e => hb (Finset.mem_image.mpr ⟨w, Finset.mem_univ _, e⟩)

abbrev W5 : Dev nD → Valuation τ sig (Elt F) := fun c => StableHlo.after hostOps2 (W4 m ρ dat0 dat1 c)

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ dat0) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ dat0 dat1 c) ∗ ∃ r, prngReg c r)

variable (hA0 : ∀ V c w, (dat0 V c).A w = V c (Pipeline.arrRef spec0 w))
  (hΦ0 : ∀ V c i, (dat0 V c).Φ i = Pipeline.ΦA spec0 c)
  (hq0 : ∀ V c w, (dat0 V c).q w = fullShare)
  (ho0 : ∀ V c i, (dat0 V c).owed i = 0)
  (hr0 : ∀ V c i, (dat0 V c).recorded i = Set.univ)
  (hb0 : ∀ V c, BodyObligation (dat0 V c) (defs₀ (F := F)) Variants.none () Set.univ)
  (hA1 : ∀ V c w, (dat1 V c).A w = V c (Pipeline.arrRef spec1 w))
  (hΦ1 : ∀ V c i, (dat1 V c).Φ i = Pipeline.ΦA spec1 c)
  (hq1 : ∀ V c w, (dat1 V c).q w = fullShare)
  (ho1 : ∀ V c i, (dat1 V c).owed i = 0)
  (hr1 : ∀ V c i, (dat1 V c).recorded i = Set.univ)
  (hb1 : ∀ V c, BodyObligation (dat1 V c) (defs₀ (F := F)) Variants.none () Set.univ)

set_option backward.isDefEq.respectTransparency.types false in

def reg0 : Pipeline.RegionSeg (pcfgs (F := F)) adm (pdats m ρ dat0 dat1) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose
  hwaits := Pipeline.hwaits_of_owed_zero _ _ _ _ L lv 0 fun c t => ho0 (V0 m ρ) c t
  pre c := iprop(StableHlo.held (c : Thread nD τ) (Pipeline.ucRefs τ sig) (W0 m ρ c) ∗ R c)
  post c := iprop(StableHlo.held (c : Thread nD τ) (Pipeline.ucRefs τ sig) (W2 m ρ dat0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ dat0 dat1) launch0.win launch0.arr_whole c
      ((pdats m ρ dat0 dat1 0 c).share_full fun w => hq0 (V0 m ρ) c w) (V0 m ρ c) fun w => hA0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ dat0 dat1 0 c).recorded 0 = Set.univ from hr0 (V0 m ρ) c 0]; trivial)
      rw [show (pdats m ρ dat0 dat1 0 c).owed 0 = 0 from ho0 (V0 m ρ) c 0]
      iexact HO
    isplitl [Hp]; · iexact Hp
    iexact Hrest
  hin c := by
    rw [show (pdats m ρ dat0 dat1 0 c).Φ 0 = Pipeline.ΦA spec0 c from hΦ0 (V0 m ρ) c 0]; unfold Pipeline.ΦA
    iintro ⟨Hp, -, Hr⟩
    isplitl [Hr]; · iexact Hr
    iexact Hp
  hout c := by
    rw [Pipeline.ownSems0_none, show (pdats m ρ dat0 dat1 0 c).Φ (Fin.last _) = Pipeline.ΦA spec0 c from hΦ0 (V0 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ dat0 dat1) ((pdats m ρ dat0 dat1 0 c).share_full fun w => hq0 (V0 m ρ) c w)
      (V0 m ρ c) (V2 m ρ dat0 c) ((pdats m ρ dat0 dat1 0 c).arrAt · cfg0.N) (hF0 m ρ dat0 c) (hrest0 m ρ dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ dat0 dat1 0 c).owed (Fin.last _) = 0 from ho0 (V0 m ρ) c (Fin.last _)]
    iexact HO

set_option backward.isDefEq.respectTransparency.types false in

def reg1 : Pipeline.RegionSeg (pcfgs (F := F)) adm (pdats m ρ dat0 dat1) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m ρ dat0) c).loose
  hwaits := Pipeline.hwaits_of_owed_zero _ _ _ _ L lv 1 fun c t => ho1 (V2 m ρ dat0) c t
  pre c := iprop(StableHlo.held (c : Thread nD τ) (Pipeline.ucRefs τ sig) (W2 m ρ dat0 c) ∗ R c)
  post c := iprop(StableHlo.held (c : Thread nD τ) (Pipeline.ucRefs τ sig) (W4 m ρ dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m ρ dat0 c)
  hentry c := by
    rw [Pipeline.ownSems0_none]
    have hsplit := Pipeline.arrays_of_unscopedBufs (p := 1) (pcfgs (F := F)) adm (pdats m ρ dat0 dat1) launch1.win launch1.arr_whole c
      ((pdats m ρ dat0 dat1 1 c).share_full fun w => hq1 (V2 m ρ dat0) c w) (V2 m ρ dat0 c) fun w => hA1 (V2 m ρ dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ dat0 dat1 1 c).recorded 0 = Set.univ from hr1 (V2 m ρ dat0) c 0]; trivial)
      rw [show (pdats m ρ dat0 dat1 1 c).owed 0 = 0 from ho1 (V2 m ρ dat0) c 0]
      iexact HO
    isplitl [Hp]; · iexact Hp
    iexact Hrest
  hin c := by
    rw [show (pdats m ρ dat0 dat1 1 c).Φ 0 = Pipeline.ΦA spec1 c from hΦ1 (V2 m ρ dat0) c 0]; unfold Pipeline.ΦA
    iintro ⟨Hp, -, Hr⟩
    isplitl [Hr]; · iexact Hr
    iexact Hp
  hout c := by
    rw [Pipeline.ownSems0_none, show (pdats m ρ dat0 dat1 1 c).Φ (Fin.last _) = Pipeline.ΦA spec1 c from hΦ1 (V2 m ρ dat0) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ dat0 dat1) ((pdats m ρ dat0 dat1 1 c).share_full fun w => hq1 (V2 m ρ dat0) c w)
      (V2 m ρ dat0 c) (V4 m ρ dat0 dat1 c) ((pdats m ρ dat0 dat1 1 c).arrAt · cfg1.N) (hF1 m ρ dat0 dat1 c) (hrest1 m ρ dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ dat0 dat1 1 c).owed (Fin.last _) = 0 from ho1 (V2 m ρ dat0) c (Fin.last _)]
    iexact HO

abbrev segs : List (Pipeline.Seg (pcfgs (F := F)) adm (pdats m ρ dat0 dat1) () defs₀ 𝒱₀ L lv) :=
  [ .region (reg0 m ρ dat0 dat1 hA0 hΦ0 hq0 ho0 hr0 hb0),
    .region (reg1 m ρ dat0 dat1 hA1 hΦ1 hq1 ho1 hr1 hb1),
    .host (hseg hostOps2 hostOps2_sub hostOps2_fresh (W4 m ρ dat0 dat1)) ]

theorem main_run (c : Dev nD) : main (F := F) c = Pipeline.Seg.run (segs m ρ dat0 dat1 hA0 hΦ0 hq0 ho0 hr0 hb0 hA1 hΦ1 hq1 ho1 hr1 hb1) :=
  main_segs adm (pdats m ρ dat0 dat1) () 𝒱₀ L lv _ _ _ rfl c

include hA0 hΦ0 hq0 ho0 hr0 hb0 hA1 hΦ1 hq1 ho1 hr1 hb1 in
set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  Pipeline.θ_run_regions_kit (pcfgs (F := F)) adm (pdats m ρ dat0 dat1) () cellOf_inj emb₁ defs₀ 𝒱₀ L lv m ρ main
    (segs m ρ dat0 dat1 hA0 hΦ0 hq0 ho0 hr0 hb0 hA1 hΦ1 hq1 ho1 hr1 hb1)
    (fun c Q => by rw [main_run m ρ dat0 dat1 hA0 hΦ0 hq0 ho0 hr0 hb0 hA1 hΦ1 hq1 ho1 hr1 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ dat0 dat1)
    (hch := ⟨fun _ => .rfl, fun _ => .rfl, fun _ => .rfl, fun c => show iprop(StableHlo.held (c : Thread nD τ) (Pipeline.ucRefs τ sig) (W5 m ρ dat0 dat1 c) ∗ R c)
        ⊢ iprop(Tₙ m ρ dat0 dat1 c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ dat0 dat1 c) s')
      isplitl [Hh] <;> iassumption)
    (hQ := fun s h => h)

theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl

include hA0 in
theorem W2_main_arg0 (c : Dev nD) : W2 m ρ dat0 c (Proc.devRef .tc main_arg0) = m ((c : Thread nD τ).loc main_arg0) :=
  (W2_arr m ρ dat0 c 0).trans (((dat0 (V0 m ρ) c).arrAt_in 0 rfl _).trans (hA0 (V0 m ρ) c 0))
include hA0 in
theorem W2_main_arg1 (c : Dev nD) : W2 m ρ dat0 c (Proc.devRef .tc main_arg1) = m ((c : Thread nD τ).loc main_arg1) :=
  (W2_arr m ρ dat0 c 1).trans (((dat0 (V0 m ρ) c).arrAt_in 1 rfl _).trans (hA0 (V0 m ρ) c 1))
theorem W2_main_arg2 (c : Dev nD) : W2 m ρ dat0 c (Proc.devRef .tc main_arg2) = m ((c : Thread nD τ).loc main_arg2) :=
  W2_of_ne m ρ dat0 c main_arg2 (by decide)

theorem W2_main_v0 (c : Dev nD) : W2 m ρ dat0 c (Proc.devRef .tc main_v0) = (dat0 (V0 m ρ) c).arrAt 2 cfg0.N :=
  W2_arr m ρ dat0 c 2

include hA0 in

theorem V2_main_arg0 (c : Dev nD) : V2 m ρ dat0 c main_arg0 = m ((c : Thread nD τ).loc main_arg0) :=
  W2_main_arg0 m ρ dat0 hA0 c
theorem V2_main_arg2 (c : Dev nD) : V2 m ρ dat0 c main_arg2 = m ((c : Thread nD τ).loc main_arg2) :=
  W2_main_arg2 m ρ dat0 c

include hA0 hA1 in
theorem W4_main_arg0 (c : Dev nD) : W4 m ρ dat0 dat1 c (Proc.devRef .tc main_arg0) = m ((c : Thread nD τ).loc main_arg0) :=
  calc W4 m ρ dat0 dat1 c (Proc.devRef .tc main_arg0)
    _ = W2 m ρ dat0 c (Proc.devRef .tc main_arg0) :=
          (W4_arr m ρ dat0 dat1 c 0).trans (((dat1 (V2 m ρ dat0) c).arrAt_in 0 rfl _).trans (hA1 (V2 m ρ dat0) c 0))
    _ = m ((c : Thread nD τ).loc main_arg0) := W2_main_arg0 m ρ dat0 hA0 c
include hA0 in
theorem W4_main_arg1 (c : Dev nD) : W4 m ρ dat0 dat1 c (Proc.devRef .tc main_arg1) = m ((c : Thread nD τ).loc main_arg1) :=
  (W4_of_ne m ρ dat0 dat1 c main_arg1 (by decide)).trans (W2_main_arg1 m ρ dat0 hA0 c)
include hA1 in
theorem W4_main_arg2 (c : Dev nD) : W4 m ρ dat0 dat1 c (Proc.devRef .tc main_arg2) = m ((c : Thread nD τ).loc main_arg2) :=
  calc W4 m ρ dat0 dat1 c (Proc.devRef .tc main_arg2)
    _ = W2 m ρ dat0 c (Proc.devRef .tc main_arg2) :=
          (W4_arr m ρ dat0 dat1 c 1).trans (((dat1 (V2 m ρ dat0) c).arrAt_in 1 rfl _).trans (hA1 (V2 m ρ dat0) c 1))
    _ = m ((c : Thread nD τ).loc main_arg2) := W2_main_arg2 m ρ dat0 c

theorem W4_main_v0 (c : Dev nD) : W4 m ρ dat0 dat1 c (Proc.devRef .tc main_v0) = (dat0 (V0 m ρ) c).arrAt 2 cfg0.N :=
  (W4_of_ne m ρ dat0 dat1 c main_v0 (by decide)).trans (W2_main_v0 m ρ dat0 c)

theorem W4_main_v1 (c : Dev nD) : W4 m ρ dat0 dat1 c (Proc.devRef .tc main_v1) = (dat1 (V2 m ρ dat0) c).arrAt 2 cfg1.N :=
  W4_arr m ρ dat0 dat1 c 2

theorem W5_of (c : Dev nD) (r : Ref sig .tc) (h : r ∉ hostOps2_W) :
    W5 m ρ dat0 dat1 c (Proc.devRef .tc r) = W4 m ρ dat0 dat1 c (Proc.devRef .tc r) :=
  StableHlo.after_of_writes_sub hostOps2 _ hostOps2_writes h

include hA0 hA1 in
theorem W5_main_arg0 (c : Dev nD) : W5 m ρ dat0 dat1 c (Proc.devRef .tc main_arg0) = m ((c : Thread nD τ).loc main_arg0) :=
  (W5_of m ρ dat0 dat1 c main_arg0 (by decide)).trans (W4_main_arg0 m ρ dat0 dat1 hA0 hA1 c)
include hA0 in
theorem W5_main_arg1 (c : Dev nD) : W5 m ρ dat0 dat1 c (Proc.devRef .tc main_arg1) = m ((c : Thread nD τ).loc main_arg1) :=
  (W5_of m ρ dat0 dat1 c main_arg1 (by decide)).trans (W4_main_arg1 m ρ dat0 dat1 hA0 c)
include hA1 in
theorem W5_main_arg2 (c : Dev nD) : W5 m ρ dat0 dat1 c (Proc.devRef .tc main_arg2) = m ((c : Thread nD τ).loc main_arg2) :=
  (W5_of m ρ dat0 dat1 c main_arg2 (by decide)).trans (W4_main_arg2 m ρ dat0 dat1 hA1 c)

theorem W5_main_v0 (c : Dev nD) : W5 m ρ dat0 dat1 c (Proc.devRef .tc main_v0) = (dat0 (V0 m ρ) c).arrAt 2 cfg0.N :=
  (W5_of m ρ dat0 dat1 c main_v0 (by decide)).trans (W4_main_v0 m ρ dat0 dat1 c)

theorem W5_main_v3 (c : Dev nD) : W5 m ρ dat0 dat1 c (Proc.devRef .tc main_v3)
    = Host.divf (Host.reduceAdd (W4 m ρ dat0 dat1 c (Proc.devRef .tc main_v1)) (constant S_ .f32 0x00000000#32) reducesTo_S8x8x128_S_d0_1_2 h_S_)
        (constant S_ .f32 0x4B280000#32) := by
  show StableHlo.after hostOps2 (W4 m ρ dat0 dat1 c) (Proc.devRef .tc main_v3) = _
  after_results

end Run

end Cert.Kernel.Hand

end
-- ==== Proof.KFrame0.lean ====
import proofs.«413255_j25812753449052_3_alg».proof.Proof.Gen.Kernel.Launch
import proofs.«413255_j25812753449052_3_alg».proof.Proof.Gen.Kernel.Skeleton
import proofs.«413255_j25812753449052_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_in0 : Rect S1x21x64x256 := Rect.unit (s := S1x21x64x256) ![0, 0, 0, 0] S1x21x64x256.size inb_S1x21x64x256_S1x21x64x256_0_0_0_0
abbrev r0_in1 : Rect S1x64x256 := Rect.unit (s := S1x64x256) ![0, 0, 0] S1x64x256.size inb_S1x64x256_S1x64x256_0_0_0

def out0_2 (x0 : Vec F S1x21x64x256 .f32) (x1 : Vec F S1x64x256 .i32) : Vec F S1x64x256 .f32 :=
  View.canon [⟨r0_in1, k0_pay1 (View.ld x0 r0_in0) (View.ld x1 r0_in1)⟩]

theorem cover0_2 (p0 : Vec F S1x64x256 .f32) (y : S1x64x256.Idx) :
    ∃ pc ∈ ([⟨r0_in1, p0⟩] : List (View.Piece (Elt F) S1x64x256 .f32)), y ∈ pc.1.set :=
  View.cover_of_tiled [⟨r0_in1, p0⟩] S1x64x256.size (by rfl) y

set_option maxHeartbeats 1000000 in

theorem sound_kernel0 (c : Dev nD) (E : Set ℕ) (i : grid0.Coords)
    (arg2 : Memref sig .tc .vmem S1x21x64x256 .f32) (harg2 : arg2.IsWhole)
    (arg3 : Memref sig .tc .vmem S1x64x256 .i32) (harg3 : arg3.IsWhole)
    (arg4 : Memref sig .tc .vmem S1x64x256 .f32) (harg4 : arg4.IsWhole)
    (x0 : Vec F S1x21x64x256 .f32) (x1 : Vec F S1x64x256 .i32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ce_kernel i arg2 harg2 arg3 harg3 arg4 harg4) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrame1Runs.lean ====
import proofs.«413255_j25812753449052_3_alg».proof.Proof.Gen.Kernel.Launch
import proofs.«413255_j25812753449052_3_alg».proof.Proof.Gen.Kernel.Skeleton
import proofs.«413255_j25812753449052_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

theorem hcond1_1 : ∀ t : Fin cfg1.N, k1_cond1 (grid1.coords t) = 1#1 ↔ t.val % 3 = 0 :=
  (by decide +kernel : ∀ t : Fin grid1.N, k1_cond1 (grid1.coords t) = 1#1 ↔ t.val % 3 = 0)

theorem hcond1_2 : ∀ t : Fin cfg1.N, k1_cond2 (grid1.coords t) = 1#1 ↔ t.val % 3 ≠ 0 :=
  (by decide +kernel : ∀ t : Fin grid1.N, k1_cond2 (grid1.coords t) = 1#1 ↔ t.val % 3 ≠ 0)

abbrev VO1_2 : View sig .tc .vmem S1x8x128 .f32 := (Memref.whole cc1_stg2_0 : Memref sig .tc .vmem S1x8x128 .f32).view

abbrev ms1_0 (t : Fin cfg1.N) : Memref sig .tc .vmem S1x7x256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x7x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x128 .f32 := win1_2.stage (cfg1.slots t 2)
abbrev hs1_2 (t : Fin cfg1.N) : (ms1_2 t).IsWhole := hstage1_2 ((cfg1.slots t 2).cast nbuf1_2)

abbrev scM1_0 : Memref sig .tc .vmem S7x264x384 .f32 := Memref.whole cc1_scratch0
abbrev scM1_1 : Memref sig .tc .vmem S7x264x384 .f32 := Memref.whole cc1_scratch1

def otherStages (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem PhiA1_eq (c : Dev nD) :
    (Pipeline.ΦA spec1 c : sProp 𝕄)
      = iprop(iprop(otherStages (F := F) c ∗ (∃ d, owns (c : Thread nD τ) scM1_0 fullShare d) ∗ (∃ d, owns (c : Thread nD τ) scM1_1 fullShare d)) ∗ (∃ r, prngReg c r)) := by
  unfold Pipeline.ΦA otherStages; rw [scopedRest1_eq]; simp only [scM1_0, scM1_1, owns_whole]

  refine BI.equiv_iff.mp ⟨?_, ?_⟩
  · show (_ : sProp 𝕄) ⊢ _
    iintro ⟨⟨A1, A2, A3, A4, A5, A6, S0, S1⟩, R⟩
    isplitl [A1 A2 A3 A4 A5 A6 S0 S1]
    · isplitl [A1 A2 A3 A4 A5 A6]
      · isplitl [A1]; · iexact A1
        isplitl [A2]; · iexact A2
        isplitl [A3]; · iexact A3
        isplitl [A4]; · iexact A4
        isplitl [A5]; · iexact A5
        iexact A6
      isplitl [S0]; · iexact S0
      iexact S1
    iexact R
  · show (_ : sProp 𝕄) ⊢ _
    iintro ⟨⟨⟨A1, A2, A3, A4, A5, A6⟩, S0, S1⟩, R⟩
    isplitl [A1 A2 A3 A4 A5 A6 S0 S1]
    · isplitl [A1]; · iexact A1
      isplitl [A2]; · iexact A2
      isplitl [A3]; · iexact A3
      isplitl [A4]; · iexact A4
      isplitl [A5]; · iexact A5
      isplitl [A6]; · iexact A6
      isplitl [S0]; · iexact S0
      iexact S1
    iexact R

end Cert.Kernel.Hand

end
-- ==== Proof.KFrame1RunA.lean ====
import proofs.«413255_j25812753449052_3_alg».proof.Proof.KFrame1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) :
    { L2 : List (View.Piece (Elt F) S1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ d, owns (c : Thread nD τ) arg5 fullShare d) ∗ (∃ d, owns (c : Thread nD τ) arg6 fullShare d)) -∗ K ⟨⟩))
          ⊢ wp frame (wpE (defs₀ (F := F)) Variants.none c none) E (cc1__gmse_kernel i arg2 harg2 arg3 harg3 arg4 harg4 arg5 harg5 arg6 harg6) K } := by
  refine ⟨?_, fun E K => ?run⟩
  case run =>
    simp only [cc1__gmse_kernel_eq_skeleton]; unfold cc1__gmse_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%d5, %f5, -, H5⟩, ⟨%d6, %f6, -, H6⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexists _; isplitr
      swap; · iexact H5
      ipureintro; rfl
    iexists _; iexists _; isplitr
    swap; · iexact H6
    ipureintro; rfl

end Cert.Kernel.Hand

end
-- ==== Proof.KFrame1RunB.lean ====
import proofs.«413255_j25812753449052_3_alg».proof.Proof.KFrame1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) :
    { L2 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ d, owns (c : Thread nD τ) arg5 fullShare d) ∗ (∃ d, owns (c : Thread nD τ) arg6 fullShare d)) -∗ K ⟨⟩))
          ⊢ wp frame (wpE (defs₀ (F := F)) Variants.none c none) E (cc1__gmse_kernel i arg2 harg2 arg3 harg3 arg4 harg4 arg5 harg5 arg6 harg6) K } := by
  refine ⟨?_, fun E K => ?run⟩
  case run =>
    simp only [cc1__gmse_kernel_eq_skeleton]; unfold cc1__gmse_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H5]
    · iexists _; iexists _; isplitr
      swap; · iexact H5
      ipureintro; rfl
    iexists _; iexists _; isplitr
    swap; · iexact H6
    ipureintro; rfl

end Cert.Kernel.Hand

end
-- ==== Proof.KFrame1.lean ====
import proofs.«413255_j25812753449052_3_alg».proof.Proof.KFrame1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem liveAt1_0 : ∀ t : Fin cfg1.N, cfg1.idle 0 (grid1.coords t) = false := by decide +kernel
theorem liveAt1_1 : ∀ t : Fin cfg1.N, cfg1.idle 1 (grid1.coords t) = false := by decide +kernel

theorem liveAt1_2 : ∀ t : Fin cfg1.N, cfg1.idle 2 (grid1.coords t) = false := by decide +kernel

theorem live1_2 : ∀ i : grid1.Coords, cfg1.idle 2 i = false := by decide +kernel

section Region1

variable (V : (c : Dev nD) → (b : Ref sig .tc) → Buf (Elt F) ((c : Thread nD τ).loc b))

theorem cover1_A_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) (y : S1x8x128.Idx) :
    ∃ pc ∈ (kernelRun1_A c i arg2 harg2 arg3 harg3 arg4 harg4 arg5 harg5 arg6 harg6 hc1 hc2 x0 x1).1, y ∈ pc.1.set :=
  View.cover_of_tiledL (kernelRun1_A c i arg2 harg2 arg3 harg3 arg4 harg4 arg5 harg5 arg6 harg6 hc1 hc2 x0 x1).1 S1x8x128.size (by sl_kernel_rfl) y

def out1_A_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) : Vec F S1x8x128 .f32 :=
  VO1_2.read (Elt F) (VO1_2.writes (Elt F) VO1_2.junk (kernelRun1_A c i arg2 harg2 arg3 harg3 arg4 harg4 arg5 harg5 arg6 harg6 hc1 hc2 x0 x1).1)

theorem cover1_B_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) (y : S1x8x128.Idx) :
    ∃ pc ∈ (kernelRun1_B c i arg2 harg2 arg3 harg3 arg4 harg4 arg5 harg5 arg6 harg6 hc1 hc2 x0 x1 xo2).1, y ∈ pc.1.set :=
  View.cover_of_tiledL (kernelRun1_B c i arg2 harg2 arg3 harg3 arg4 harg4 arg5 harg5 arg6 harg6 hc1 hc2 x0 x1 xo2).1 S1x8x128.size (by sl_kernel_rfl) y

def out1_B_2 (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) : Vec F S1x8x128 .f32 :=
  VO1_2.read (Elt F) (VO1_2.writes (Elt F) VO1_2.junk (kernelRun1_B c i arg2 harg2 arg3 harg3 arg4 harg4 arg5 harg5 arg6 harg6 hc1 hc2 x0 x1 xo2).1)

def outsAt1 (c : Dev nD) : (n : ℕ) → n < cfg1.N → Vec F S1x8x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_1 ⟨0, hn⟩).mpr (Nat.zero_mod _)) (fun h => (hcond1_2 ⟨0, hn⟩).mp h (Nat.zero_mod _)) (iblk1 V c 0 ⟨0, hn⟩) (iblk1 V c 1 ⟨0, hn⟩)
  | n + 1, hn =>
    if h0 : (n + 1) % 3 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_1 ⟨n + 1, hn⟩).mpr h0) (fun h => (hcond1_2 ⟨n + 1, hn⟩).mp h h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_1 ⟨n + 1, hn⟩).mp h)) ((hcond1_2 ⟨n + 1, hn⟩).mpr h0) (iblk1 V c 0 ⟨n + 1, hn⟩) (iblk1 V c 1 ⟨n + 1, hn⟩) (outsAt1 c n (Nat.lt_of_succ_lt hn))

theorem outsAt1_A (c : Dev nD) (t : Fin cfg1.N) (h0 : t.val % 3 = 0) :
    outsAt1 V c t.val t.isLt = out1_A_2 c (grid1.coords t) (ms1_0 t) (hs1_0 t) (ms1_1 t) (hs1_1 t) (ms1_2 t) (hs1_2 t) scM1_0 (Memref.isWhole_whole _) scM1_1 (Memref.isWhole_whole _) ((hcond1_1 t).mpr h0) (fun h => (hcond1_2 t).mp h h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 3 = 0) :
    outsAt1 V c t.val t.isLt = out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_1 t).mp h)) ((hcond1_2 t).mpr h0) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 3 = 0) (d) :
    (dat1 V c).before 2 t d = outsAt1 V c (t.val - 1) (Nat.lt_of_le_of_lt (Nat.sub_le _ _) t.isLt) := by
  have hN : t.val < 24 := lt_of_lt_of_eq t.isLt (show cfg1.N = 24 from N_1)
  rw [Dat.before_out_kept _ 2 rfl t (by omega) (Bool.eq_false_iff.mpr fun h => by have := (flush1_2 _).mp h; dsimp only at this; omega)
    live1_2 (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t]]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  have hN : t.val < 24 := lt_of_lt_of_eq t.isLt (show cfg1.N = 24 from N_1)
  by_cases h0 : t.val % 3 = 0
  · rw [outsAt1_A V c t h0]
    unfold out1_A_2
    iintro ⟨⟨⟨Hst, HS0, HS1⟩, Hg⟩, Ho, ⟨%d0, H0⟩, ⟨%d1, H1⟩, ⟨%d2, H2⟩⟩
    iapply ((kernelRun1_A c (grid1.coords t) _ _ _ _ _ _ _ _ _ _ ((hcond1_1 t).mpr h0) (fun h => (hcond1_2 t).mp h h0) (iblk1 V c 0 t) (iblk1 V c 1 t)).2 Set.univ _)
    isplitl [H0]; · iexact H0
    isplitl [H1]; · iexact H1
    isplitl [H2]; · iexists _; iexact H2
    isplitl [HS0]; · iexact HS0
    isplitl [HS1]; · iexact HS1
    iintro ⟨H0, H1, ⟨%e2, H2⟩, HS0, HS1⟩
    isplitl [Hst HS0 HS1 Hg]
    · isplitl [Hst HS0 HS1]
      · isplitl [Hst]; · iexact Hst
        isplitl [HS0]; · iexact HS0
        iexact HS1
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _ _ _ _ _)
  · rw [outsAt1_B V c t h0]
    simp only [before1_2_B V c t h0]
    unfold out1_B_2
    iintro ⟨⟨⟨Hst, HS0, HS1⟩, Hg⟩, Ho, ⟨%d0, H0⟩, ⟨%d1, H1⟩, ⟨%d2, H2⟩⟩
    iapply ((kernelRun1_B c (grid1.coords t) _ _ _ _ _ _ _ _ _ _ (fun h => h0 ((hcond1_1 t).mp h)) ((hcond1_2 t).mpr h0) (iblk1 V c 0 t) (iblk1 V c 1 t) _).2 Set.univ _)
    isplitl [H0]; · iexact H0
    isplitl [H1]; · iexact H1
    isplitl [H2]; · iexact H2
    isplitl [HS0]; · iexact HS0
    isplitl [HS1]; · iexact HS1
    iintro ⟨H0, H1, ⟨%e2, H2⟩, HS0, HS1⟩
    isplitl [Hst HS0 HS1 Hg]
    · isplitl [Hst HS0 HS1]
      · isplitl [Hst]; · iexact Hst
        isplitl [HS0]; · iexact HS0
        iexact HS1
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KAsm.lean ====
import proofs.«413255_j25812753449052_3_alg».proof.Proof.KRun
import proofs.«413255_j25812753449052_3_alg».proof.Proof.KFrame0
import proofs.«413255_j25812753449052_3_alg».proof.Proof.KFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Whole

variable (m : (ℓ : Loc nD τ sig) → Buf (Elt F) ℓ) (ρ : Dev nD → PrngReg)

theorem run_at : θ_run defs (onTc (τ := τ) (main (F := F))) ⟨m, fun _ => 0, ρ⟩ (fun r => ∀ c : Dev nD,
      ∀ b ∈ Pipeline.ucRefs τ sig, r.2.mem (((c : Thread nD τ)).1, b) = W5 m ρ dat0 dat1 c b) :=
  run_all m ρ dat0 dat1
    (fun V c w => A_eq0 V c w) (fun _ _ _ => rfl) (fun _ _ _ => rfl) (fun _ _ _ => rfl) (fun _ _ _ => rfl) (fun V c => body_obligation0 V c)
    (fun V c w => A_eq1 V c w) (fun _ _ _ => rfl) (fun _ _ _ => rfl) (fun _ _ _ => rfl) (fun _ _ _ => rfl) (fun V c => body_obligation1 V c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_arg0 (by decide))).trans (W5_main_arg0 m ρ dat0 dat1 (fun V c w => A_eq0 V c w) (fun V c w => A_eq1 V c w) c),
     (h c _ (mem_uc main_arg1 (by decide))).trans (W5_main_arg1 m ρ dat0 dat1 (fun V c w => A_eq0 V c w) c),
     (h c _ (mem_uc main_arg2 (by decide))).trans (W5_main_arg2 m ρ dat0 dat1 (fun V c w => A_eq1 V c w) c)⟩) (run_at m ρ)

theorem run_values : θ_run defs (onTc (τ := τ) (main (F := F))) ⟨m, fun _ => 0, ρ⟩ (fun r => ∀ c : Dev nD,
      r.2.mem ((c.tc : Thread nD τ).loc main_v0) = (dat0 (V0 m ρ) c).arrAt 2 cfg0.N
      ∧ r.2.mem ((c.tc : Thread nD τ).loc main_v3)
          = Host.divf (Host.reduceAdd ((dat1 (V2 m ρ dat0) c).arrAt 2 cfg1.N) (constant S_ .f32 0x00000000#32) reducesTo_S8x8x128_S_d0_1_2 h_S_)
              (constant S_ .f32 0x4B280000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
    ⟨(h c _ (mem_uc main_v0 (by decide))).trans (W5_main_v0 m ρ dat0 dat1 c),
     (h c _ (mem_uc main_v3 (by decide))).trans ((W5_main_v3 m ρ dat0 dat1 c).trans (by rw [W4_main_v1 m ρ dat0 dat1 c])),
     (h c _ (mem_uc main_arg0 (by decide))).trans (W5_main_arg0 m ρ dat0 dat1 (fun V c w => A_eq0 V c w) (fun V c w => A_eq1 V c w) c),
     (h c _ (mem_uc main_arg1 (by decide))).trans (W5_main_arg1 m ρ dat0 dat1 (fun V c w => A_eq0 V c w) c),
     (h c _ (mem_uc main_arg2 (by decide))).trans (W5_main_arg2 m ρ dat0 dat1 (fun V c w => A_eq1 V c w) c)⟩) (run_at m ρ)

end Whole

end Cert.Kernel.Hand

end
-- ==== Proof.Frames.lean ====
import proofs.«413255_j25812753449052_3_alg».proof.Defs
import proofs.«413255_j25812753449052_3_alg».proof.Proof.Asm
import proofs.«413255_j25812753449052_3_alg».proof.Proof.KAsm
import proofs.«413255_j25812753449052_3_alg».proof.Proof.Gen.Kernel
import proofs.«413255_j25812753449052_3_alg».proof.Proof.Gen.KernelIdeal
import proofs.«413255_j25812753449052_3_alg».proof.Proof.Gen.Pre_finite_inputs

noncomputable section

namespace Cert.Proof

open Idealize.ShloMosaic Idealize.SL.Sem

theorem frame_k : Cert.frame_Kernel := fun m g _ => Cert.Kernel.Hand.frame (F := Bits) m g

theorem frame_ki : Cert.frame_KernelIdeal := fun m g _ => Cert.KernelIdeal.Hand.frame (F := Ideal) m g

end Cert.Proof

end
-- ==== Proof.Preserves.lean ====
import proofs.«413255_j25812753449052_3_alg».proof.Defs

noncomputable section

namespace Cert.Proof

open Idealize.ShloMosaic

-- Each of the three literals is read as the exact quotient -(1/2) / dist; the thirty-two conjuncts are these three facts.
theorem preserves : Cert.preserves_Kernel_KernelIdeal :=
  have d8 := IdealRules.named_const.statement Cert.KernelIdeal.κ "neg_half_over_d8" .f32 0xBE3504F3#32 ((-2097152 / 11863283 : ℝ) : EReal) rfl
  have d5 := IdealRules.named_const.statement Cert.KernelIdeal.κ "neg_half_over_d5" .f32 0xBE64F92E#32 ((-2097152 / 9378749 : ℝ) : EReal) rfl
  have d2 := IdealRules.named_const.statement Cert.KernelIdeal.κ "neg_half_over_d2" .f32 0xBEB504F3#32 ((-4194304 / 11863283 : ℝ) : EReal) rfl
  ⟨d8, d8, d5, d5, d5, d5, d8, d8, d5, d5, d2, d2, d2, d2, d5, d5, d5, d5, d2, d2, d2, d2, d5, d5, d8, d8, d5, d5, d5, d5, d8, d8⟩

end Cert.Proof

end
-- ==== Proof.Spec.lean ====
import Mathlib.Analysis.SpecialFunctions.Exp
import Mathlib.Analysis.SpecialFunctions.Log.Basic
import Mathlib.Algebra.BigOperators.Fin
import Mathlib.Data.Real.Basic

noncomputable section

namespace Cert.Spec

def offY : Fin 16 → ℕ := ![0, 0, 0, 0, 1, 1, 1, 1, 3, 3, 3, 3, 4, 4, 4, 4]

def offX : Fin 16 → ℕ := ![0, 1, 3, 4, 0, 1, 3, 4, 0, 1, 3, 4, 0, 1, 3, 4]

def d2 : ℝ := 11863283 / 8388608
def d5 : ℝ := 9378749 / 4194304
def d8 : ℝ := 11863283 / 4194304

def dist : Fin 16 → ℝ := ![d8, d5, d5, d8, d5, d2, d2, d5, d5, d2, d2, d5, d8, d5, d5, d8]

def kap : Fin 16 → ℝ :=
  ![-2097152 / 11863283, -2097152 / 9378749, -2097152 / 9378749, -2097152 / 11863283,
    -2097152 / 9378749, -4194304 / 11863283, -4194304 / 11863283, -2097152 / 9378749,
    -2097152 / 9378749, -4194304 / 11863283, -4194304 / 11863283, -2097152 / 9378749,
    -2097152 / 11863283, -2097152 / 9378749, -2097152 / 9378749, -2097152 / 11863283]

theorem kap_eq (k : Fin 16) : kap k = -(1 / 2) / dist k := by
  fin_cases k <;> simp [kap, dist, d2, d5, d8] <;> norm_num

theorem dist_pos (k : Fin 16) : 0 < dist k := by
  fin_cases k <;> simp [dist, d2, d5, d8] <;> norm_num

def pad2 (a : ℕ → ℕ → ℝ) (H W : ℕ) : ℝ :=
  if 2 ≤ H ∧ H < 258 ∧ 2 ≤ W ∧ W < 258 then a (H - 2) (W - 2) else 0

def dsq (a : ℕ → ℕ → ℝ) (k : Fin 16) (h w : ℕ) : ℝ :=
  (a h w - pad2 a (h + offY k) (w + offX k)) * (a h w - pad2 a (h + offY k) (w + offX k))

def tapR (a : ℕ → ℕ → ℝ) (k : Fin 16) (h w : ℕ) : ℝ := Real.exp (-(1 / 2) * dsq a k h w / dist k)

def tapK (a : ℕ → ℕ → ℝ) (k : Fin 16) (h w : ℕ) : ℝ := Real.exp (dsq a k h w * kap k)

theorem tapK_eq_tapR (a : ℕ → ℕ → ℝ) (k : Fin 16) (h w : ℕ) : tapK a k h w = tapR a k h w := by
  unfold tapK tapR; rw [kap_eq]; congr 1; ring

def gauss (a : ℕ → ℕ → ℝ) (h w : ℕ) : ℝ := ∑ k : Fin 16, tapR a k h w

def gaussL (a : ℕ → ℕ → ℝ) (h w : ℕ) : ℝ :=
  (List.finRange 16).foldl (fun s k => s + tapR a k h w) 0

def accK (a b : ℕ → ℕ → ℝ) (h w : ℕ) : ℝ :=
  (List.finRange 16).foldl (fun s k => s + tapK a k h w - tapK b k h w) 0

theorem gaussL_eq (a : ℕ → ℕ → ℝ) (h w : ℕ) : gaussL a h w = gauss a h w := by
  unfold gaussL gauss
  simp [List.finRange_succ, List.foldl, Fin.sum_univ_succ]
  ring

theorem accK_eq (a b : ℕ → ℕ → ℝ) (h w : ℕ) : accK a b h w = gauss a h w - gauss b h w := by
  unfold accK gauss
  simp only [tapK_eq_tapR]
  simp [List.finRange_succ, List.foldl, Fin.sum_univ_succ]
  ring

abbrev R4 := ℕ → ℕ → ℕ → ℕ → ℝ

def blockSum (x l : ℕ → ℕ → ℕ → ℝ) : ℝ :=
  ∑ c : Fin 7, ∑ h : Fin 256, ∑ w : Fin 256, accK (x c) (l c) h w * accK (x c) (l c) h w

def sqSum (x l : R4) : ℝ :=
  ∑ b : Fin 8, ∑ c : Fin 21, ∑ h : Fin 256, ∑ w : Fin 256,
    (gauss (x b c) h w - gauss (l b c) h w) * (gauss (x b c) h w - gauss (l b c) h w)

def mse (x l : R4) : ℝ := sqSum x l / 11010048

def sqSumK (x l : R4) : ℝ :=
  ∑ b : Fin 8, ((blockSum (fun c => x b c) (fun c => l b c) + blockSum (fun c => x b (7 + c)) (fun c => l b (7 + c)))
    + blockSum (fun c => x b (14 + c)) (fun c => l b (14 + c)))

def chanMax (x : ℕ → ℝ) : ℝ := (Finset.univ : Finset (Fin 21)).sup' Finset.univ_nonempty (fun c => x c)

def logSoftmax (x : ℕ → ℝ) (k : ℕ) : ℝ :=
  (x k - chanMax x) - Real.log (∑ c : Fin 21, Real.exp (x c - chanMax x))

def ce (x : ℕ → ℝ) (k : ℕ) : ℝ := -logSoftmax x k

end Cert.Spec

end
-- ==== Proof.CeKernel.lean ====
import proofs.«413255_j25812753449052_3_alg».proof.Proof.Frame0
import proofs.«413255_j25812753449052_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

theorem coe_sum21 (f : Fin 21 → ℝ) : ((∑ c : Fin 21, f c : ℝ) : EReal) = ∑ c : Fin 21, (f c : EReal) := by
  have : ∀ s : Finset (Fin 21), ((∑ c ∈ s, f c : ℝ) : EReal) = ∑ c ∈ s, (f c : EReal) := by
    intro s
    induction s using Finset.induction_on with
    | empty => simp
    | insert a s ha ih => rw [Finset.sum_insert ha, Finset.sum_insert ha, EReal.coe_add, ih]
  exact this _

theorem fold_max_eq_chanMax (x : ℕ → ℝ) :
    (Finset.univ : Finset (Fin 21)).fold max (⊥ : EReal) (fun c => ((x c.val : ℝ) : EReal)) = ((Cert.Spec.chanMax x : ℝ) : EReal) := by
  unfold Cert.Spec.chanMax
  rw [Finset.comp_sup'_eq_sup'_comp Finset.univ_nonempty (fun r : ℝ => (r : EReal)) (fun a b => EReal.coe_strictMono.monotone.map_sup a b)]
  rw [Finset.sup'_eq_sup]
  rfl

theorem ofBits_neg_inf : Ideal.ofBits .f32 0xFF800000#32 = (⊥ : EReal) := by
  simp [Ideal.ofBits, Ideal.ieee]

theorem lift_pixel (hr : S21x64x256.Reduces [0] S64x256) (h : Fin 64) (w : Fin 256) (c : Fin 21) :
    hr.lift (ix2 h w) c = ix3 c h w := by
  funext a; apply Fin.ext
  match a with
  | ⟨0, _⟩ => rfl
  | ⟨1, _⟩ => rfl
  | ⟨2, _⟩ => rfl

theorem chanSum_apply (v : FVec Ideal S21x64x256 .f32) (hr : S21x64x256.Reduces [0] S64x256) (hφ : FKind.Formats .f32)
    (hacc : (0x00000000#32 : BitVec 32) = 0x00000000#32) (h : Fin 64) (w : Fin 256) :
    multiReduction .add [0] S64x256 v 0x00000000#32 hr hφ hacc (ix2 h w) = ∑ c : Fin 21, v (ix3 c h w) :=
  (Ideal.multiReduction_add_single v 0x00000000#32 hr hφ hacc (ix2 h w)).trans
    (Finset.sum_congr rfl fun c _ => congrArg v (lift_pixel hr h w c))

theorem chanMaxFold_apply (v : FVec Ideal S21x64x256 .f32) (hr : S21x64x256.Reduces [0] S64x256) (hφ : FKind.Formats .f32)
    (hacc : (0xFF800000#32 : BitVec 32) = 0xFF800000#32) (h : Fin 64) (w : Fin 256) :
    multiReduction .maximumf [0] S64x256 v 0xFF800000#32 hr hφ hacc (ix2 h w)
      = (Finset.univ : Finset (Fin 21)).fold max (⊥ : EReal) (fun c => v (ix3 c h w)) := by
  refine (Ideal.multiReduction_maximumf_single v 0xFF800000#32 hr hφ hacc (ix2 h w)).trans ?_
  rw [Ideal.ofBits_def, ofBits_neg_inf]
  congr 1
  funext c
  exact congrArg v (lift_pixel hr h w c)

theorem bcastChan_apply {α : Type} (v : S1x64x256.Idx → α) (hb : S1x64x256.Broadcasts S21x64x256) (c : Fin 21) (h : Fin 64) (w : Fin 256) :
    broadcastTo S21x64x256 v hb (ix3 c h w) = v (ix3 (0 : Fin 1) h w) :=
  broadcastTo_apply v hb _ _ fun a => match a with
    | ⟨0, _⟩ => rfl
    | ⟨1, _⟩ => rfl
    | ⟨2, _⟩ => rfl

theorem iotaChan_apply (hi : S21x64x256.Iotas .tc 32 [0]) (c : Fin 21) (h : Fin 64) (w : Fin 256) :
    iota .tc S21x64x256 32 [0] hi (ix3 c h w) = BitVec.ofNat 32 c.val :=
  iota_single_apply .tc S21x64x256 32 0 hi (ix3 c h w)

theorem vexp_apply {s : Shape} {φ : FTy} (a : FVec Ideal s φ) (i : s.Idx) : exp a i = Ideal.exp (a i) := rfl
theorem vlog_apply {s : Shape} {φ : FTy} (a : FVec Ideal s φ) (i : s.Idx) : log a i = Ideal.log (a i) := rfl
theorem vcmpi_apply {s : Shape} {w : Nat} (p : CmpIPredicate) (a b : IVec s w) (i : s.Idx) : cmpi p a b i = IntOp.cmpi p (a i) (b i) := rfl

theorem cmp_label (c lab : ℕ) (hc : c < 21) (hl : lab < 21) :
    IntOp.cmpi .eq (BitVec.ofNat 32 c) (BitVec.ofNat 32 lab) = if c = lab then 1#1 else 0#1 := by
  have e : (BitVec.ofNat 32 c == BitVec.ofNat 32 lab) = decide (c = lab) := by
    rw [Bool.eq_iff_iff]; simp only [beq_iff_eq, decide_eq_true_eq]
    constructor
    · intro h
      have h2 := congrArg BitVec.toNat h
      simp only [BitVec.toNat_ofNat] at h2
      omega
    · intro h; rw [h]
  unfold IntOp.cmpi
  simp only [e]
  by_cases h : c = lab <;> simp [h]

theorem onehot (c lab : ℕ) (hc : c < 21) (hl : lab < 21) :
    FloatOps.sitofp (F := Ideal) .f32 ((IntOp.cmpi .eq (BitVec.ofNat 32 c) (BitVec.ofNat 32 lab)).setWidth 32)
      = (((if c = lab then 1 else 0 : ℝ)) : EReal) := by
  rw [cmp_label c lab hc hl]
  show (((((if c = lab then 1#1 else 0#1 : BitVec 1).setWidth 32).toInt : ℝ)) : EReal) = _
  by_cases h : c = lab <;> simp [h]

theorem ce_value (xr : ℕ → ℝ) (lab : ℕ) (hlr : lab < 21) :
    (0 : EReal) - ∑ c : Fin 21,
        ((((xr c.val : ℝ) : EReal) - (Finset.univ : Finset (Fin 21)).fold max (⊥ : EReal) (fun c => ((xr c.val : ℝ) : EReal)))
          - Ideal.log (∑ c' : Fin 21, Ideal.exp (((xr c'.val : ℝ) : EReal)
              - (Finset.univ : Finset (Fin 21)).fold max (⊥ : EReal) (fun c => ((xr c.val : ℝ) : EReal)))))
        * FloatOps.sitofp (F := Ideal) .f32 ((IntOp.cmpi .eq (BitVec.ofNat 32 c.val) (BitVec.ofNat 32 lab)).setWidth 32)
      = ((Cert.Spec.ce xr lab : ℝ) : EReal) := by
  rw [fold_max_eq_chanMax]
  have hexp : ∀ c : Fin 21, Ideal.exp (((xr c.val : ℝ) : EReal) - ((Cert.Spec.chanMax xr : ℝ) : EReal))
      = ((Real.exp (xr c.val - Cert.Spec.chanMax xr) : ℝ) : EReal) := fun c => by
    rw [← EReal.coe_sub, Ideal.exp_coe]
  simp only [hexp]
  rw [← coe_sum21]
  have hpos : 0 < ∑ c : Fin 21, Real.exp (xr c.val - Cert.Spec.chanMax xr) :=
    Finset.sum_pos (fun c _ => Real.exp_pos _) Finset.univ_nonempty
  rw [Ideal.log_coe, if_neg (not_le.mpr hpos)]
  have hterm : ∀ c : Fin 21,
      (((xr c.val : ℝ) : EReal) - ((Cert.Spec.chanMax xr : ℝ) : EReal)
          - ((Real.log (∑ c : Fin 21, Real.exp (xr c.val - Cert.Spec.chanMax xr)) : ℝ) : EReal))
        * FloatOps.sitofp (F := Ideal) .f32 ((IntOp.cmpi .eq (BitVec.ofNat 32 c.val) (BitVec.ofNat 32 lab)).setWidth 32)
      = (((xr c.val - Cert.Spec.chanMax xr - Real.log (∑ c : Fin 21, Real.exp (xr c.val - Cert.Spec.chanMax xr)))
          * (if c.val = lab then 1 else 0) : ℝ) : EReal) := fun c => by
    rw [onehot c.val lab c.isLt hlr, ← EReal.coe_sub, ← EReal.coe_sub, ← EReal.coe_mul]
  simp only [hterm]
  rw [← coe_sum21]
  have hsum : ∑ c : Fin 21, (xr c.val - Cert.Spec.chanMax xr - Real.log (∑ c : Fin 21, Real.exp (xr c.val - Cert.Spec.chanMax xr)))
        * (if c.val = lab then (1 : ℝ) else 0)
      = xr lab - Cert.Spec.chanMax xr - Real.log (∑ c : Fin 21, Real.exp (xr c.val - Cert.Spec.chanMax xr)) := by
    rw [Finset.sum_eq_single (⟨lab, hlr⟩ : Fin 21)]
    · simp
    · intro b _ hb
      have hne : b.val ≠ lab := fun e => hb (Fin.ext e)
      simp [hne]
    · intro hn; exact absurd (Finset.mem_univ _) hn
  rw [hsum, ← EReal.coe_zero, ← EReal.coe_sub, zero_sub]
  rfl

theorem pay_pixel (x0 : Vec Ideal S1x21x64x256 .f32) (x1 : Vec Ideal S1x64x256 .i32)
    (u : Fin 1) (h : Fin 64) (w : Fin 256) (xr : ℕ → ℝ) (hx : ∀ c : Fin 21, x0 (ix4 (0 : Fin 1) c h w) = ((xr c.val : ℝ) : EReal))
    (lab : ℕ) (hl : x1 (ix3 (0 : Fin 1) h w) = BitVec.ofNat 32 lab) (hlr : lab < 21) :
    k0_pay1 x0 x1 (ix3 u h w) = ((Cert.Spec.ce xr lab : ℝ) : EReal) := by
  unfold k0_pay1
  dsimp only
  rw [shapeCast_ab_1ab_apply, subf_apply, broadcast_apply, chanSum_apply]
  simp only [mulf_apply, subf_apply, sitofp_apply, extui_apply, vcmpi_apply, vexp_apply, vlog_apply,
    bcastChan_apply, shapeCast_ab_1ab_apply, shapeCast_1ab_ab_apply, shapeCast_1abc_abc_apply, iotaChan_apply]
  rw [chanSum_apply]
  simp only [subf_apply, vexp_apply, bcastChan_apply, shapeCast_ab_1ab_apply, shapeCast_1abc_abc_apply]
  rw [chanMaxFold_apply]
  simp only [shapeCast_1abc_abc_apply, Ideal.ofBits_def, Ideal.ofBits_zero_f32, hx, hl]
  have hio : ∀ x : Fin 21, iota Kind.tc S21x64x256 32 [0] iota_S21x64x256_d0_w32 (ix3 x h w) = BitVec.ofNat 32 x.val :=
    fun x => iotaChan_apply _ x h w
  simp only [hio]
  exact ce_value xr lab hlr

section Array
variable (V : (c : Dev nD) → (b : Ref sig .tc) → Buf (Elt Ideal) ((c : Thread nD τ).loc b))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

def ceArr (xr : Cert.Spec.R4) (lab : ℕ → ℕ → ℕ → ℕ) : S8x256x256.Idx → EReal :=
  fun j => ((Cert.Spec.ce (fun ch => xr (j 0).val ch (j 1).val (j 2).val) (lab (j 0).val (j 1).val (j 2).val) : ℝ) : EReal)

theorem idx_facts : ∀ t : Fin cfg0.N,
    win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_1.index t (0 : Fin 3) = win0_2.index t (0 : Fin 3) ∧ win0_1.index t (1 : Fin 3) = win0_2.index t (1 : Fin 3)
    ∧ win0_1.index t (2 : Fin 3) = 0 ∧ win0_2.index t (2 : Fin 3) = 0
    ∧ win0_2.index t (0 : Fin 3) ≤ 7 ∧ win0_2.index t (1 : Fin 3) ≤ 3 :=
  (by decide +kernel : ∀ t : Fin grid0.N, _)

theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

theorem flushed_ce (c : Dev nD) (xr : Cert.Spec.R4)
    (hx : ∀ i, V c main_arg0 i = ((xr (i 0).val (i 1).val (i 2).val (i 3).val : ℝ) : EReal))
    (lab : ℕ → ℕ → ℕ → ℕ) (hlab : ∀ i, V c main_arg1 i = BitVec.ofNat 32 (lab (i 0).val (i 1).val (i 2).val))
    (hlr : ∀ b h w, lab b h w < 21) (t : Fin cfg0.N) :
    (dat0 (F := Ideal) V c).flushed 2 t = ((cfg0.win 2).blk t).view.read (Elt Ideal) (ceArr xr lab) := by
  show (cfg0.win 2).cut (grid0.coords t) ((dat0 V c).after 2 t) = _
  rw [after0_2]
  unfold out0_2
  rw [View.canon_unit_zero zero3]
  simp only [View.ld_unit_zero (S := S1x21x64x256) zero4, View.ld_unit_zero (S := S1x64x256) zero3]
  obtain ⟨e0, e1, e2, e3, e4, e5, e6, e7, e8, e9⟩ := idx_facts t
  funext y
  obtain ⟨u, h, w, rfl⟩ : ∃ (u : Fin 1) (h : Fin 64) (w : Fin 256), y = ix3 u h w := ⟨y 0, y 1, y 2, eq_ix3 y⟩
  show k0_pay1 (iblk0 V c 0 t) (iblk0 V c 1 t) (ix3 u h w) = ceArr xr lab (((cfg0.win 2).blk t).view.emb (ix3 u h w))
  have hu : u.val = 0 := by omega
  refine (pay_pixel _ _ u h w
    (fun ch => xr (win0_2.index t (0 : Fin 3) * 1 + 1 * u.val) ch (win0_2.index t (1 : Fin 3) * 64 + 1 * h.val) (win0_2.index t (2 : Fin 3) * 256 + 1 * w.val))
    ?_ (lab (win0_2.index t (0 : Fin 3) * 1 + 1 * u.val) (win0_2.index t (1 : Fin 3) * 64 + 1 * h.val) (win0_2.index t (2 : Fin 3) * 256 + 1 * w.val))
    ?_ (hlr _ _ _)).trans ?_
  · intro ch
    show V c main_arg0 (((cfg0.win 0).blk t).view.emb (ix4 (0 : Fin 1) ch h w)) = _
    rw [hx]
    have h0 : ((((cfg0.win 0).blk t).view.emb (ix4 (0 : Fin 1) ch h w)) 0).val = win0_2.index t (0 : Fin 3) * 1 + 1 * u.val := by
      show win0_0.index t (0 : Fin 4) * 1 + 1 * (0 : Fin 1).val = _
      omega
    have h1 : ((((cfg0.win 0).blk t).view.emb (ix4 (0 : Fin 1) ch h w)) 1).val = ch.val := by
      show win0_0.index t (1 : Fin 4) * 21 + 1 * ch.val = _
      omega
    have h2 : ((((cfg0.win 0).blk t).view.emb (ix4 (0 : Fin 1) ch h w)) 2).val = win0_2.index t (1 : Fin 3) * 64 + 1 * h.val := by
      show win0_0.index t (2 : Fin 4) * 64 + 1 * h.val = _
      omega
    have h3 : ((((cfg0.win 0).blk t).view.emb (ix4 (0 : Fin 1) ch h w)) 3).val = win0_2.index t (2 : Fin 3) * 256 + 1 * w.val := by
      show win0_0.index t (3 : Fin 4) * 256 + 1 * w.val = _
      omega
    rw [h0, h1, h2, h3]
  · show V c main_arg1 (((cfg0.win 1).blk t).view.emb (ix3 (0 : Fin 1) h w)) = _
    rw [hlab]
    have h0 : ((((cfg0.win 1).blk t).view.emb (ix3 (0 : Fin 1) h w)) 0).val = win0_2.index t (0 : Fin 3) * 1 + 1 * u.val := by
      show win0_1.index t (0 : Fin 3) * 1 + 1 * (0 : Fin 1).val = _
      omega
    have h1 : ((((cfg0.win 1).blk t).view.emb (ix3 (0 : Fin 1) h w)) 1).val = win0_2.index t (1 : Fin 3) * 64 + 1 * h.val := by
      show win0_1.index t (1 : Fin 3) * 64 + 1 * h.val = _
      omega
    have h2 : ((((cfg0.win 1).blk t).view.emb (ix3 (0 : Fin 1) h w)) 2).val = win0_2.index t (2 : Fin 3) * 256 + 1 * w.val := by
      show win0_1.index t (2 : Fin 3) * 256 + 1 * w.val = _
      omega
    rw [h0, h1, h2]
  · rfl

theorem mem_blk_out (t : Fin cfg0.N) (i : S8x256x256.Idx) :
    i ∈ ((cfg0.win 2).blk t).view.set ↔ ∀ a : Fin 3, win0_2.index t a * S1x64x256.size a ≤ (i a).val ∧ (i a).val < win0_2.index t a * S1x64x256.size a + S1x64x256.size a := by
  show i ∈ ((View.whole main_v0).slice (win0_2.rect t)).set ↔ _
  rw [View.set_slice_whole, Rect.mem_set_unit]
  exact Iff.rfl

theorem cover_out (i : S8x256x256.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 256 := (i 2).isLt
  obtain ⟨t, ht⟩ := idx_onto ⟨(i 0).val, hi0⟩ ⟨(i 1).val / 64, by omega⟩
  have q0 : win0_2.index t (0 : Fin 3) = (i 0).val := congrFun ht 0
  have q1 : win0_2.index t (1 : Fin 3) = (i 1).val / 64 := congrFun ht 1
  have q2 : win0_2.index t (2 : Fin 3) = 0 := congrFun ht 2
  refine ⟨t, flush0_2 t, ?_⟩
  rw [mem_blk_out]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 256 ≤ (i 2).val ∧ (i 2).val < win0_2.index t (2 : Fin 3) * 256 + 256; omega

theorem ceK_arr (c : Dev nD) (xr : Cert.Spec.R4)
    (hx : ∀ i, V c main_arg0 i = ((xr (i 0).val (i 1).val (i 2).val (i 3).val : ℝ) : EReal))
    (lab : ℕ → ℕ → ℕ → ℕ) (hlab : ∀ i, V c main_arg1 i = BitVec.ofNat 32 (lab (i 0).val (i 1).val (i 2).val))
    (hlr : ∀ b h w, lab b h w < 21) :
    (dat0 (F := Ideal) V c).arrAt 2 cfg0.N
      = fun j => ((Cert.Spec.ce (fun ch => xr (j 0).val ch (j 1).val (j 2).val) (lab (j 0).val (j 1).val (j 2).val) : ℝ) : EReal) :=
  (dat0 V c).arrAt_eq_of_cover 2 (ceArr xr lab) (fun t _ => flushed_ce V c xr hx lab hlab hlr t) cover_out

end Array

end Cert.KernelIdeal.Hand
end
-- ==== Proof.CeRef.lean ====
import proofs.«413255_j25812753449052_3_alg».proof.Proof.RefRead
import proofs.«413255_j25812753449052_3_alg».proof.Proof.Spec
import Idealize.ShloMosaic.Lib.ValueIdx
import Idealize.ShloMosaic.Lib.StableHlo.Predicate
import Idealize.ShloMosaic.Lib.Affine
import Idealize.ShloMosaic.PureOps.Ideal.Laws
import Mathlib.Data.EReal.Operations
import Mathlib.Data.Finset.Lattice.Fold

noncomputable section

namespace Cert.ReferenceIdeal.Hand

open Cert.ReferenceIdeal Cert.ReferenceIdeal.Gen Idealize.ShloMosaic Cert.ReferenceIdeal.ReadP

theorem coe_sum' {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_coe {n : ℕ} (r : Fin (n+1) → ℝ) :
    (Finset.univ : Finset (Fin (n+1))).fold max (⊥ : EReal) (fun k => (r k : EReal))
      = ((Finset.univ.sup' Finset.univ_nonempty r : ℝ) : EReal) := by
  have h1 : (Finset.univ : Finset (Fin (n+1))).fold max (⊥ : EReal) (fun k => (r k : EReal))
      = Finset.univ.sup (fun k => (r k : EReal)) := rfl
  rw [h1, ← Finset.sup'_eq_sup Finset.univ_nonempty]
  exact (Finset.comp_sup'_eq_sup'_comp Finset.univ_nonempty (fun x : ℝ => (x : EReal))
    (fun x y => EReal.coe_strictMono.monotone.map_max)).symm

theorem ofBits_neg_inf : Ideal.ofBits .f32 0xFF800000#32 = (⊥ : EReal) := by
  simp [Ideal.ofBits, Ideal.ieee]

def mx (xr : Cert.Spec.R4) (b h w : ℕ) : ℝ := Cert.Spec.chanMax (fun ch => xr b ch h w)

def sm (xr : Cert.Spec.R4) (b h w : ℕ) : ℝ := ∑ c : Fin 21, Real.exp (xr b c h w - mx xr b h w)

theorem sm_pos (xr : Cert.Spec.R4) (b h w : ℕ) : 0 < sm xr b h w :=
  Finset.sum_pos (fun _ _ => Real.exp_pos _) Finset.univ_nonempty

section
variable (x : (⟨S8x21x256x256, .f32⟩ : BufTy).Contents (Elt Ideal)) (xr : Cert.Spec.R4)
  (hx : ∀ i, x i = ((xr (i 0).val (i 1).val (i 2).val (i 3).val : ℝ) : EReal))
include hx

theorem chanMax_apply (j : S8x256x256.Idx) :
    val_main_call0_v0 (F := Ideal) x j
      = ((Cert.Spec.chanMax (fun ch => xr (j 0).val ch (j 1).val (j 2).val) : ℝ) : EReal) := by
  unfold val_main_call0_v0
  refine (Host.reduce_eq_fold_single (FloatOps.maximumf (F := Ideal) (φ := .f32)) x _ reducesTo_S8x21x256x256_S8x256x256_d1 (by decide) h_S_ j).trans ?_
  have hf : (x ∘ (Shape.Reduces.lift (s := S8x21x256x256) (a := 1) (t := S8x256x256) (by decide) j))
      = fun k : Fin 21 => ((xr (j 0).val k.val (j 1).val (j 2).val : ℝ) : EReal) := by
    funext k; simp only [Function.comp]; rw [hx]; rfl
  rw [hf, val_main_call0_cst_apply, Ideal.ofBits_def, ofBits_neg_inf]
  exact fold_max_coe (n := 20) (fun k => xr (j 0).val k.val (j 1).val (j 2).val)

theorem v2r (j : S8x256x256.Idx) :
    val_main_call0_v2 (F := Ideal) x j = ((mx xr (j 0).val (j 1).val (j 2).val : ℝ) : EReal) := by
  rw [val_main_call0_v2_apply, val_main_call0_v1_apply, val_main_call0_cst_0_apply, Ideal.ofBits_def, ofBits_neg_inf,
    chanMax_apply x xr hx j, Ideal.maximumf_def]
  exact max_bot_left _

theorem v5r (i : S8x21x256x256.Idx) :
    val_main_call0_v5 (F := Ideal) x i
      = ((xr (i 0).val (i 1).val (i 2).val (i 3).val - mx xr (i 0).val (i 2).val (i 3).val : ℝ) : EReal) := by
  rw [val_main_call0_v5_apply, val_main_call0_v4_apply, val_main_call0_v3_apply, v2r x xr hx, hx, Ideal.subf_def,
    EReal.coe_sub]

theorem v6r (i : S8x21x256x256.Idx) :
    val_main_call0_v6 (F := Ideal) x i
      = ((Real.exp (xr (i 0).val (i 1).val (i 2).val (i 3).val - mx xr (i 0).val (i 2).val (i 3).val) : ℝ) : EReal) := by
  rw [val_main_call0_v6_apply, v5r x xr hx, Ideal.hostUnary_exp_def, Ideal.exp_coe]

theorem v7r (j : S8x256x256.Idx) :
    val_main_call0_v7 (F := Ideal) x j = ((sm xr (j 0).val (j 1).val (j 2).val : ℝ) : EReal) := by
  rw [val_main_call0_v7_apply, val_main_call0_cst_1_apply, Ideal.ofBits_def, Ideal.ofBits_zero_f32, zero_add]
  unfold sm
  rw [coe_sum']
  refine Finset.sum_congr rfl fun k _ => ?_
  rw [v6r x xr hx]

theorem v9r (i : S8x1x256x256.Idx) :
    val_main_call0_v9 (F := Ideal) x i = ((Real.log (sm xr (i 0).val (i 2).val (i 3).val) : ℝ) : EReal) := by
  rw [val_main_call0_v9_apply, val_main_call0_v8_apply, v7r x xr hx, Ideal.hostUnary_log_def, Ideal.log_coe,
    if_neg (not_le.2 (sm_pos xr _ _ _))]

theorem logSoftmax_apply (i : S8x21x256x256.Idx) :
    val_main_v0 (F := Ideal) x i
      = ((Cert.Spec.logSoftmax (fun ch => xr (i 0).val ch (i 2).val (i 3).val) (i 1).val : ℝ) : EReal) := by
  rw [val_main_v0_apply, v5r x xr hx, val_main_call0_v10_apply, v9r x xr hx, Ideal.subf_def, ← EReal.coe_sub]
  rfl

end

section
variable (lbl : (⟨S8x256x256, .i32⟩ : BufTy).Contents (Elt Ideal)) (lab : ℕ → ℕ → ℕ → ℕ)
  (hlab : ∀ i, lbl i = BitVec.ofNat 32 (lab (i 0).val (i 1).val (i 2).val)) (hlr : ∀ b h w, lab b h w < 21)
include hlab hlr

theorem lab_toInt (b h w : ℕ) : (BitVec.ofNat 32 (lab b h w)).toInt = (lab b h w : ℤ) :=
  Idealize.ShloMosaic.StableHlo.Predicate.toInt_ofNat_small _ (by have := hlr b h w; omega)

theorem m1r (i : S8x1x256x256.Idx) :
    val_main_v1 (F := Ideal) lbl i = BitVec.ofNat 32 (lab (i 0).val (i 2).val (i 3).val) := by
  rw [val_main_v1_apply, hlab]

theorem c1v4r (i : S8x1x256x256.Idx) :
    val_main_call1_v4 (F := Ideal) lbl i = BitVec.ofNat 32 (lab (i 0).val (i 2).val (i 3).val) := by
  have hc : val_main_call1_v1 (F := Ideal) lbl i = 0#1 := by
    refine Idealize.ShloMosaic.ValueIdx.eq_zero_of_ne_one fun h => ?_
    rw [val_main_call1_v1_apply, IntOp.cmpi_slt, m1r lbl lab hlab hlr, val_main_call1_v0_apply, val_main_call1_c_apply,
      lab_toInt lbl lab hlab hlr] at h
    have : (0#32 : BitVec 32).toInt = 0 := by decide
    omega
  rw [val_main_call1_v4_apply, hc, Idealize.ShloMosaic.ValueIdx.select_zero, m1r lbl lab hlab hlr]

theorem c1v5r (i : S8x1x256x256x1.Idx) :
    val_main_call1_v5 (F := Ideal) lbl i = BitVec.ofNat 32 (lab (i 0).val (i 2).val (i 3).val) := by
  rw [val_main_call1_v5_apply, c1v4r lbl lab hlab hlr]
  have h0 : (i 0).val < 8 := (i 0).isLt
  have h1 : (i 1).val < 1 := (i 1).isLt
  have h2 : (i 2).val < 256 := (i 2).isLt
  have h3 : (i 3).val < 256 := (i 3).isLt
  have h4 : (i 4).val < 1 := (i 4).isLt
  have e0 : (idx_main_call1_v5 i 0).val = (i 0).val := by
    show (((((i 0).val * 1 + (i 1).val) * 256 + (i 2).val) * 256 + (i 3).val) * 1 + (i 4).val) / 65536 = (i 0).val
    omega
  have e2 : (idx_main_call1_v5 i 2).val = (i 2).val := by
    show (((((i 0).val * 1 + (i 1).val) * 256 + (i 2).val) * 256 + (i 3).val) * 1 + (i 4).val) / 256 % 256 = (i 2).val
    omega
  have e3 : (idx_main_call1_v5 i 3).val = (i 3).val := by
    show (((((i 0).val * 1 + (i 1).val) * 256 + (i 2).val) * 256 + (i 3).val) * 1 + (i 4).val) % 256 = (i 3).val
    omega
  rw [e0, e2, e3]

theorem c1v11r : val_main_call1_v11 (F := Ideal) lbl = fun _ => 1#1 := by
  funext i
  rw [val_main_call1_v11_apply, IntOp.andi_eq_one]
  constructor
  · rw [val_main_call1_v7_apply, IntOp.cmpi_sge, c1v5r lbl lab hlab hlr, val_main_call1_v6_apply, val_main_call1_c_2_apply,
      lab_toInt lbl lab hlab hlr]
    have : (0#32 : BitVec 32).toInt = 0 := by decide
    omega
  · rw [val_main_call1_v10_apply, IntOp.cmpi_sle, c1v5r lbl lab hlab hlr, val_main_call1_v9_apply, val_main_call1_v8_apply,
      val_main_call1_c_1_apply, lab_toInt lbl lab hlab hlr]
    have : (20#32 : BitVec 32).toInt = 20 := by decide
    have := hlr (i 0).val (i 2).val (i 3).val
    omega

theorem c1v12r (j : S8x1x256x256.Idx) : val_main_call1_v12 (F := Ideal) lbl j = 1#1 := by
  unfold val_main_call1_v12
  refine (Host.reduce_eq_fold_single (IntOp.andi (w := 1)) _ _ reducesTo_S8x1x256x256x1_S8x1x256x256_d4 (by decide) h_S_ j).trans ?_
  rw [c1v11r lbl lab hlab hlr]
  show Finset.fold (IntOp.andi (w := 1)) 1#1 (fun _ => 1#1) (Finset.univ : Finset (Fin 1)) = 1#1
  rw [Finset.univ_unique, Finset.fold_singleton]
  rfl

end

abbrev gdims : GatherDims S8x21x256x256 S8x1x256x256x1 S8x1x256x256 :=
  gather_S8x21x256x256_S8x1x256x256x1_S8x1x256x256_n_1_023_023_1_4_1111

abbrev sIdx (j : S8x1x256x256.Idx) : S8x1x256x256x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨0, Nat.one_pos⟩

abbrev gIdx (j : S8x1x256x256.Idx) (n : ℕ) (hn : n < 21) : S8x21x256x256.Idx := fun a => match a with
  | ⟨0, _⟩ => ⟨(j 0).val, (j 0).isLt⟩
  | ⟨1, _⟩ => ⟨n, hn⟩
  | ⟨2, _⟩ => ⟨(j 2).val, (j 2).isLt⟩
  | ⟨3, _⟩ => ⟨(j 3).val, (j 3).isLt⟩

theorem gather_apply {α : Type} (y : S8x21x256x256.Idx → α) (idx : IVec S8x1x256x256x1 32) (j : S8x1x256x256.Idx) :
    Host.gather gdims y idx j = y (gIdx j (min (idx (sIdx j)).toInt.toNat 20) (by omega)) := by
  unfold Host.gather
  congr 1
  funext a
  refine Fin.ext ?_
  have hsi : gdims.siIdx j ⟨List.idxOf (1 : Fin 4) gdims.startIndexMap,
      List.idxOf_lt_length_iff.2 (List.mem_singleton.mpr rfl)⟩ = sIdx j := by
    funext b; refine Fin.ext ?_
    match b with
    | ⟨0, _⟩ => rfl
    | ⟨1, _⟩ => rfl
    | ⟨2, _⟩ => rfl
    | ⟨3, _⟩ => rfl
    | ⟨4, _⟩ => rfl
  match a with
  | ⟨0, _⟩ =>
    show gdims.start j idx 0 + gdims.batchCoord j 0 + gdims.offCoord j 0 = (j 0).val
    rw [GatherDims.start_batching _ _ _ _ (by decide),
      GatherDims.offCoord_eq_zero _ _ _ (fun h => ((GatherDims.mem_sKept _ _).mp h).2 (by decide))]
    simp only [Nat.add_zero, Nat.zero_add]
    rfl
  | ⟨1, _⟩ =>
    show gdims.start j idx 1 + gdims.batchCoord j 1 + gdims.offCoord j 1 = min (idx (sIdx j)).toInt.toNat 20
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 4) ∈ gdims.startIndexMap from List.mem_singleton.mpr rfl), hsi]
    rfl
  | ⟨2, _⟩ =>
    show gdims.start j idx 2 + gdims.batchCoord j 2 + gdims.offCoord j 2 = (j 2).val
    rw [GatherDims.start_batching _ _ _ _ (by decide),
      GatherDims.offCoord_eq_zero _ _ _ (fun h => ((GatherDims.mem_sKept _ _).mp h).2 (by decide))]
    simp only [Nat.add_zero, Nat.zero_add]
    rfl
  | ⟨3, _⟩ =>
    show gdims.start j idx 3 + gdims.batchCoord j 3 + gdims.offCoord j 3 = (j 3).val
    rw [GatherDims.start_batching _ _ _ _ (by decide),
      GatherDims.offCoord_eq_zero _ _ _ (fun h => ((GatherDims.mem_sKept _ _).mp h).2 (by decide))]
    simp only [Nat.add_zero, Nat.zero_add]
    rfl

section
variable (x : (⟨S8x21x256x256, .f32⟩ : BufTy).Contents (Elt Ideal)) (lbl : (⟨S8x256x256, .i32⟩ : BufTy).Contents (Elt Ideal))
  (xr : Cert.Spec.R4) (hx : ∀ i, x i = ((xr (i 0).val (i 1).val (i 2).val (i 3).val : ℝ) : EReal))
  (lab : ℕ → ℕ → ℕ → ℕ) (hlab : ∀ i, lbl i = BitVec.ofNat 32 (lab (i 0).val (i 1).val (i 2).val))
  (hlr : ∀ b h w, lab b h w < 21)
include hx hlab hlr

theorem c1v13r (j : S8x1x256x256.Idx) :
    val_main_call1_v13 (F := Ideal) x lbl j
      = ((Cert.Spec.logSoftmax (fun ch => xr (j 0).val ch (j 2).val (j 3).val) (lab (j 0).val (j 2).val (j 3).val) : ℝ) : EReal) := by
  unfold val_main_call1_v13
  rw [gather_apply, logSoftmax_apply x xr hx]
  show ((Cert.Spec.logSoftmax (fun ch => xr (j 0).val ch (j 2).val (j 3).val)
    (min (val_main_call1_v5 (F := Ideal) lbl (sIdx j)).toInt.toNat 20) : ℝ) : EReal) = _
  rw [c1v5r lbl lab hlab hlr, lab_toInt lbl lab hlab hlr, Int.toNat_natCast,
    Nat.min_eq_left (by have := hlr (sIdx j 0).val (sIdx j 2).val (sIdx j 3).val; omega)]

theorem m2r (j : S8x1x256x256.Idx) :
    val_main_v2 (F := Ideal) x lbl j
      = ((Cert.Spec.logSoftmax (fun ch => xr (j 0).val ch (j 2).val (j 3).val) (lab (j 0).val (j 2).val (j 3).val) : ℝ) : EReal) := by
  rw [val_main_v2_apply, c1v12r lbl lab hlab hlr, Idealize.ShloMosaic.ValueIdx.select_one, c1v13r x lbl xr hx lab hlab hlr]

end

theorem ceR (x : (⟨S8x21x256x256, .f32⟩ : BufTy).Contents (Elt Ideal)) (lbl : (⟨S8x256x256, .i32⟩ : BufTy).Contents (Elt Ideal))
    (xr : Cert.Spec.R4) (hx : ∀ i, x i = ((xr (i 0).val (i 1).val (i 2).val (i 3).val : ℝ) : EReal))
    (lab : ℕ → ℕ → ℕ → ℕ) (hlab : ∀ i, lbl i = BitVec.ofNat 32 (lab (i 0).val (i 1).val (i 2).val))
    (hlr : ∀ b h w, lab b h w < 21) :
    Cert.ReferenceIdeal.ReadP.val_main_v4 (F := Ideal) x lbl
      = fun j => ((Cert.Spec.ce (fun ch => xr (j 0).val ch (j 1).val (j 2).val) (lab (j 0).val (j 1).val (j 2).val) : ℝ) : EReal) := by
  funext j
  rw [val_main_v4_apply, val_main_v3_apply, m2r x lbl xr hx lab hlab hlr, Ideal.hostNegf_def, Ideal.negf_def, ← EReal.coe_neg]
  have h0 : (j 0).val < 8 := (j 0).isLt
  have h1 : (j 1).val < 256 := (j 1).isLt
  have h2 : (j 2).val < 256 := (j 2).isLt
  have e0 : (idx_main_v3 j 0).val = (j 0).val := by
    show (((j 0).val * 256 + (j 1).val) * 256 + (j 2).val) / 65536 = (j 0).val
    omega
  have e2 : (idx_main_v3 j 2).val = (j 1).val := by
    show (((j 0).val * 256 + (j 1).val) * 256 + (j 2).val) / 256 % 256 = (j 1).val
    omega
  have e3 : (idx_main_v3 j 3).val = (j 2).val := by
    show (((j 0).val * 256 + (j 1).val) * 256 + (j 2).val) % 256 = (j 2).val
    omega
  rw [e0, e2, e3]
  rfl

end Cert.ReferenceIdeal.Hand

end
-- ==== Proof.Frame1Block.lean ====
import proofs.«413255_j25812753449052_3_alg».proof.Proof.Gen.KernelIdeal.Skeleton
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]

abbrev rAll : Rect S7x264x384 := Rect.unit (s := S7x264x384) ![0, 0, 0] S7x264x384.size inb_S7x264x384_S7x264x384_0_0_0

abbrev rIn : Rect S7x264x384 := Rect.unit (s := S7x264x384) ![0, 2, 2] S7x256x256.size inb_S7x264x384_S7x256x256_0_2_2

def gmseBlock (x l : Vec F S1x7x256x256 .f32) : Vec F S1x8x128 .f32 :=
  let v18 : Vec F S7x264x384 .f32 := View.canon [⟨rIn, k1_pay5 x⟩, ⟨rAll, k1_pay3⟩]
  let v19 : Vec F S7x264x384 .f32 := View.canon [⟨rIn, k1_pay6 l⟩, ⟨rAll, k1_pay4⟩]
  let v20 := k1_pay7 v18
  let v21 := k1_pay8 v19
  let v22 := k1_pay9 (F := F)
  let v23 := k1_pay10 v18
  let v24 := k1_pay11 v19
  let v73 := k1_pay12 v18 v19 v20 v21 v22 v23 v24
  let v76 := k1_pay13 v19 v21
  let v124 := k1_pay14 v19 v21
  let v129 := k1_pay15 v18 v19 v20 v21 v73 v76
  let v176 := k1_pay16 v18 v19 v20 v21 v124 v129
  let v180 := k1_pay17 v19 v21
  let v181 := k1_pay18 v18 v20
  let cst_48 : F .f32 := Named.named κ "neg_half_over_d5" 0xBE64F92E#32
  let v232 := k1_pay19 v18 v19 v20 v21 v176 v180 v181 cst_48
  let v233 := k1_pay20 v18
  let v234 := k1_pay21 v19
  k1_pay1 v20 v21 v232 v233 v234

end Cert.KernelIdeal.Hand

end
-- ==== Proof.MseKernel.lean ====
import proofs.«413255_j25812753449052_3_alg».proof.Proof.Spec
import proofs.«413255_j25812753449052_3_alg».proof.Proof.Frame1Block
import proofs.«413255_j25812753449052_3_alg».proof.Proof.Gen.KernelIdeal.Points
import proofs.«413255_j25812753449052_3_alg».proof.Proof.Gen.KernelIdeal.Launch
import Idealize.ShloMosaic.Lib.Pipeline.Value
import Idealize.ShloMosaic.Lib.ValueIdx
import Idealize.ShloMosaic.PureOps.Ideal
import Idealize.ShloMosaic.PureOps.Ideal.Laws
import Idealize.ShloMosaic.Lib.IdealHost

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

section MseValue

variable (V : (c : Dev nD) → (b : Ref sig .tc) → Buf (Elt Ideal) ((c : Thread nD τ).loc b))
variable (c : Dev nD)

theorem mse_idx : ∀ t : Fin cfg1.N,
    win1_0.index t (0 : Fin 4) = t.val / 3 ∧ win1_0.index t (1 : Fin 4) = t.val % 3
    ∧ win1_0.index t (2 : Fin 4) = 0 ∧ win1_0.index t (3 : Fin 4) = 0
    ∧ win1_1.index t (0 : Fin 4) = t.val / 3 ∧ win1_1.index t (1 : Fin 4) = t.val % 3
    ∧ win1_1.index t (2 : Fin 4) = 0 ∧ win1_1.index t (3 : Fin 4) = 0
    ∧ win1_2.index t (0 : Fin 3) = t.val / 3 ∧ win1_2.index t (1 : Fin 3) = 0 ∧ win1_2.index t (2 : Fin 3) = 0 :=
  (by decide +kernel : ∀ t : Fin grid1.N, _)

theorem mse_iblk0 (xr : Cert.Spec.R4)
    (hx : ∀ i, V c main_arg0 i = ((xr (i 0).val (i 1).val (i 2).val (i 3).val : ℝ) : EReal))
    (t : Fin cfg1.N) (i : S1x7x256x256.Idx) :
    (((cfg1.win 0).blk t).view.read (Elt Ideal) (V c (Pipeline.arrRef spec1 0)) : Vec Ideal S1x7x256x256 .f32) i
      = ((xr (t.val / 3) (7 * (t.val % 3) + (i 1).val) (i 2).val (i 3).val : ℝ) : EReal) := by
  obtain ⟨e0, e1, e2, e3, -⟩ := mse_idx t
  show V c main_arg0 (((cfg1.win 0).blk t).view.emb i) = _
  rw [hx]
  have h0 : ((((cfg1.win 0).blk t).view.emb i) 0).val = t.val / 3 := by
    show win1_0.index t (0 : Fin 4) * 1 + 1 * (i 0).val = _
    have := (i 0).isLt
    have : (i 0).val < 1 := this
    omega
  have h1 : ((((cfg1.win 0).blk t).view.emb i) 1).val = 7 * (t.val % 3) + (i 1).val := by
    show win1_0.index t (1 : Fin 4) * 7 + 1 * (i 1).val = _
    omega
  have h2 : ((((cfg1.win 0).blk t).view.emb i) 2).val = (i 2).val := by
    show win1_0.index t (2 : Fin 4) * 256 + 1 * (i 2).val = _
    omega
  have h3 : ((((cfg1.win 0).blk t).view.emb i) 3).val = (i 3).val := by
    show win1_0.index t (3 : Fin 4) * 256 + 1 * (i 3).val = _
    omega
  rw [h0, h1, h2, h3]

theorem mse_iblk1 (lr : Cert.Spec.R4)
    (hl : ∀ i, V c main_arg2 i = ((lr (i 0).val (i 1).val (i 2).val (i 3).val : ℝ) : EReal))
    (t : Fin cfg1.N) (i : S1x7x256x256.Idx) :
    (((cfg1.win 1).blk t).view.read (Elt Ideal) (V c (Pipeline.arrRef spec1 1)) : Vec Ideal S1x7x256x256 .f32) i
      = ((lr (t.val / 3) (7 * (t.val % 3) + (i 1).val) (i 2).val (i 3).val : ℝ) : EReal) := by
  obtain ⟨-, -, -, -, e0, e1, e2, e3, -⟩ := mse_idx t
  show V c main_arg2 (((cfg1.win 1).blk t).view.emb i) = _
  rw [hl]
  have h0 : ((((cfg1.win 1).blk t).view.emb i) 0).val = t.val / 3 := by
    show win1_1.index t (0 : Fin 4) * 1 + 1 * (i 0).val = _
    have : (i 0).val < 1 := (i 0).isLt
    omega
  have h1 : ((((cfg1.win 1).blk t).view.emb i) 1).val = 7 * (t.val % 3) + (i 1).val := by
    show win1_1.index t (1 : Fin 4) * 7 + 1 * (i 1).val = _
    omega
  have h2 : ((((cfg1.win 1).blk t).view.emb i) 2).val = (i 2).val := by
    show win1_1.index t (2 : Fin 4) * 256 + 1 * (i 2).val = _
    omega
  have h3 : ((((cfg1.win 1).blk t).view.emb i) 3).val = (i 3).val := by
    show win1_1.index t (3 : Fin 4) * 256 + 1 * (i 3).val = _
    omega
  rw [h0, h1, h2, h3]

def msePoint (xr lr : Cert.Spec.R4) (b cb : ℕ) : Vec Ideal S1x8x128 .f32 :=
  fun j => if (j 1).val = 0 ∧ (j 2).val = 0
    then ((Cert.Spec.blockSum (fun ch => xr b (7 * cb + ch)) (fun ch => lr b (7 * cb + ch)) : ℝ) : EReal) else 0

theorem mse_point_eq (xr lr : Cert.Spec.R4)
    (hx : ∀ i, V c main_arg0 i = ((xr (i 0).val (i 1).val (i 2).val (i 3).val : ℝ) : EReal))
    (hl : ∀ i, V c main_arg2 i = ((lr (i 0).val (i 1).val (i 2).val (i 3).val : ℝ) : EReal))
    (hblk : ∀ (x l : Vec Ideal S1x7x256x256 .f32) (xr lr : ℕ → ℕ → ℕ → ℝ),
      (∀ i, x i = ((xr (i 1).val (i 2).val (i 3).val : ℝ) : EReal)) →
      (∀ i, l i = ((lr (i 1).val (i 2).val (i 3).val : ℝ) : EReal)) →
      gmseBlock (F := Ideal) x l = fun j => if (j 1).val = 0 ∧ (j 2).val = 0 then ((Cert.Spec.blockSum xr lr : ℝ) : EReal) else 0)
    (t : Fin cfg1.N) :
    gmseBlock (F := Ideal) (((cfg1.win 0).blk t).view.read (Elt Ideal) (V c (Pipeline.arrRef spec1 0)))
        (((cfg1.win 1).blk t).view.read (Elt Ideal) (V c (Pipeline.arrRef spec1 1)))
      = msePoint xr lr (t.val / 3) (t.val % 3) :=
  hblk _ _ (fun ch h w => xr (t.val / 3) (7 * (t.val % 3) + ch) h w) (fun ch h w => lr (t.val / 3) (7 * (t.val % 3) + ch) h w)
    (fun i => mse_iblk0 V c xr hx t i) (fun i => mse_iblk1 V c lr hl t i)

theorem mse_three (xr lr : Cert.Spec.R4) (b : ℕ) :
    addf (F := Ideal) (s := S1x8x128) (φ := .f32) (addf (F := Ideal) (s := S1x8x128) (φ := .f32) (msePoint xr lr b 0) (msePoint xr lr b 1)) (msePoint xr lr b 2)
      = fun j : S1x8x128.Idx => if (j 1).val = 0 ∧ (j 2).val = 0 then
          ((((Cert.Spec.blockSum (fun ch => xr b ch) (fun ch => lr b ch)
            + Cert.Spec.blockSum (fun ch => xr b (7 + ch)) (fun ch => lr b (7 + ch)))
            + Cert.Spec.blockSum (fun ch => xr b (14 + ch)) (fun ch => lr b (14 + ch)) : ℝ)) : EReal) else 0 := by
  funext j
  rw [ValueIdx.addf_apply, ValueIdx.addf_apply]
  unfold msePoint
  by_cases h : (j 1).val = 0 ∧ (j 2).val = 0
  · simp only [if_pos h, Nat.mul_zero, Nat.zero_add, Nat.mul_one]
    rw [EReal.coe_add, EReal.coe_add]
  · simp only [if_neg h, add_zero]

theorem outs_congr {α : Type} {N : ℕ} (outs : (n : ℕ) → n < N → α) {n n' : ℕ} (e : n = n') (h : n < N) (h' : n' < N) :
    outs n h = outs n' h' := by subst e; rfl

theorem mse_outs_last (xr lr : Cert.Spec.R4)
    (hx : ∀ i, V c main_arg0 i = ((xr (i 0).val (i 1).val (i 2).val (i 3).val : ℝ) : EReal))
    (hl : ∀ i, V c main_arg2 i = ((lr (i 0).val (i 1).val (i 2).val (i 3).val : ℝ) : EReal))
    (hblk : ∀ (x l : Vec Ideal S1x7x256x256 .f32) (xr lr : ℕ → ℕ → ℕ → ℝ),
      (∀ i, x i = ((xr (i 1).val (i 2).val (i 3).val : ℝ) : EReal)) →
      (∀ i, l i = ((lr (i 1).val (i 2).val (i 3).val : ℝ) : EReal)) →
      gmseBlock (F := Ideal) x l = fun j => if (j 1).val = 0 ∧ (j 2).val = 0 then ((Cert.Spec.blockSum xr lr : ℝ) : EReal) else 0)
    (outs : (n : ℕ) → n < cfg1.N → Vec Ideal S1x8x128 .f32)
    (hreset : ∀ t : Fin cfg1.N, t.val % 3 = 0 → outs t.val t.isLt
      = gmseBlock (((cfg1.win 0).blk t).view.read (Elt Ideal) (V c (Pipeline.arrRef spec1 0)))
          (((cfg1.win 1).blk t).view.read (Elt Ideal) (V c (Pipeline.arrRef spec1 1))))
    (hacc : ∀ t : Fin cfg1.N, ¬ t.val % 3 = 0 → outs t.val t.isLt
      = addf (F := Ideal) (s := S1x8x128) (φ := .f32) (outs (t.val - 1) (Nat.lt_of_le_of_lt (Nat.sub_le _ _) t.isLt))
          (gmseBlock (((cfg1.win 0).blk t).view.read (Elt Ideal) (V c (Pipeline.arrRef spec1 0)))
            (((cfg1.win 1).blk t).view.read (Elt Ideal) (V c (Pipeline.arrRef spec1 1)))))
    (t : Fin cfg1.N) (ht : t.val % 3 = 2) :
    outs t.val t.isLt = addf (F := Ideal) (s := S1x8x128) (φ := .f32) (addf (F := Ideal) (s := S1x8x128) (φ := .f32) (msePoint xr lr (t.val / 3) 0) (msePoint xr lr (t.val / 3) 1)) (msePoint xr lr (t.val / 3) 2) := by
  have hN := t.isLt
  have h1 : t.val - 1 < cfg1.N := by omega
  have h0 : t.val - 2 < cfg1.N := by omega
  have a2 := hacc t (by omega)
  have a1 := hacc ⟨t.val - 1, h1⟩ (by show ¬ (t.val - 1) % 3 = 0; omega)
  have a0 := hreset ⟨t.val - 2, h0⟩ (by show (t.val - 2) % 3 = 0; omega)
  rw [mse_point_eq V c xr lr hx hl hblk] at a2 a1 a0
  rw [a2, outs_congr outs rfl _ h1, a1]
  rw [outs_congr outs (show (⟨t.val - 1, h1⟩ : Fin cfg1.N).val - 1 = t.val - 2 from by show t.val - 1 - 1 = t.val - 2; omega) _ h0, a0]
  have e0 : (⟨t.val - 2, h0⟩ : Fin cfg1.N).val / 3 = t.val / 3 := by show (t.val - 2) / 3 = t.val / 3; omega
  have e0' : (⟨t.val - 2, h0⟩ : Fin cfg1.N).val % 3 = 0 := by show (t.val - 2) % 3 = 0; omega
  have e1 : (⟨t.val - 1, h1⟩ : Fin cfg1.N).val / 3 = t.val / 3 := by show (t.val - 1) / 3 = t.val / 3; omega
  have e1' : (⟨t.val - 1, h1⟩ : Fin cfg1.N).val % 3 = 1 := by show (t.val - 1) % 3 = 1; omega
  rw [e0, e0', e1, e1', ht]

abbrev mseArr (xr lr : Cert.Spec.R4) : S8x8x128.Idx → EReal :=
  fun j => if (j 1).val = 0 ∧ (j 2).val = 0 then
    ((((Cert.Spec.blockSum (fun ch => xr (j 0).val ch) (fun ch => lr (j 0).val ch)
      + Cert.Spec.blockSum (fun ch => xr (j 0).val (7 + ch)) (fun ch => lr (j 0).val (7 + ch)))
      + Cert.Spec.blockSum (fun ch => xr (j 0).val (14 + ch)) (fun ch => lr (j 0).val (14 + ch)) : ℝ)) : EReal) else 0

theorem mse_arr (xr lr : Cert.Spec.R4)
    (hx : ∀ i, V c main_arg0 i = ((xr (i 0).val (i 1).val (i 2).val (i 3).val : ℝ) : EReal))
    (hl : ∀ i, V c main_arg2 i = ((lr (i 0).val (i 1).val (i 2).val (i 3).val : ℝ) : EReal))
    (hblk : ∀ (x l : Vec Ideal S1x7x256x256 .f32) (xr lr : ℕ → ℕ → ℕ → ℝ),
      (∀ i, x i = ((xr (i 1).val (i 2).val (i 3).val : ℝ) : EReal)) →
      (∀ i, l i = ((lr (i 1).val (i 2).val (i 3).val : ℝ) : EReal)) →
      gmseBlock (F := Ideal) x l = fun j => if (j 1).val = 0 ∧ (j 2).val = 0 then ((Cert.Spec.blockSum xr lr : ℝ) : EReal) else 0)
    (dat : Dat τ (Elt Ideal) Unit ℕ (UR sig nD τ) ℕ cfg1 c)
    (outs : (n : ℕ) → n < cfg1.N → Vec Ideal S1x8x128 .f32)
    (hafter2 : ∀ t : Fin cfg1.N, dat.after 2 t = outs t.val t.isLt)
    (hreset : ∀ t : Fin cfg1.N, t.val % 3 = 0 → outs t.val t.isLt
      = gmseBlock (((cfg1.win 0).blk t).view.read (Elt Ideal) (V c (Pipeline.arrRef spec1 0)))
          (((cfg1.win 1).blk t).view.read (Elt Ideal) (V c (Pipeline.arrRef spec1 1))))
    (hacc : ∀ t : Fin cfg1.N, ¬ t.val % 3 = 0 → outs t.val t.isLt
      = addf (F := Ideal) (s := S1x8x128) (φ := .f32) (outs (t.val - 1) (Nat.lt_of_le_of_lt (Nat.sub_le _ _) t.isLt))
          (gmseBlock (((cfg1.win 0).blk t).view.read (Elt Ideal) (V c (Pipeline.arrRef spec1 0)))
            (((cfg1.win 1).blk t).view.read (Elt Ideal) (V c (Pipeline.arrRef spec1 1))))) :
    dat.arrAt 2 cfg1.N = mseArr xr lr := by
  refine dat.arrAt_eq_of_cover 2 (mseArr xr lr) (fun t hf => ?_) (fun i => ?_)
  · have ht : t.val % 3 = 2 := (flush1_2 t).mp hf
    obtain ⟨-, -, -, -, -, -, -, -, e0, e1, e2⟩ := mse_idx t
    show (cfg1.win 2).cut (grid1.coords t) (dat.after 2 t) = _
    rw [hafter2, mse_outs_last V c xr lr hx hl hblk outs hreset hacc t ht, mse_three]
    funext j
    have h0 : ((((cfg1.win 2).blk t).view.emb j) 0).val = t.val / 3 := by
      show win1_2.index t (0 : Fin 3) * 1 + 1 * (j 0).val = _
      have : (j 0).val < 1 := (j 0).isLt
      omega
    have h1 : ((((cfg1.win 2).blk t).view.emb j) 1).val = (j 1).val := by
      show win1_2.index t (1 : Fin 3) * 8 + 1 * (j 1).val = _
      omega
    have h2 : ((((cfg1.win 2).blk t).view.emb j) 2).val = (j 2).val := by
      show win1_2.index t (2 : Fin 3) * 128 + 1 * (j 2).val = _
      omega
    show (if (j 1).val = 0 ∧ (j 2).val = 0 then _ else (0 : EReal)) = mseArr xr lr (((cfg1.win 2).blk t).view.emb j)
    show _ = (if ((((cfg1.win 2).blk t).view.emb j) 1).val = 0 ∧ ((((cfg1.win 2).blk t).view.emb j) 2).val = 0 then _ else (0 : EReal))
    rw [h0, h1, h2]
  · have hi0 : (i 0).val < 8 := (i 0).isLt
    have hi1 : (i 1).val < 8 := (i 1).isLt
    have hi2 : (i 2).val < 128 := (i 2).isLt
    have hlt : 3 * (i 0).val + 2 < cfg1.N := by
      show _ < grid1.N
      rw [N_1]; omega
    obtain ⟨t, htv⟩ : ∃ t : Fin cfg1.N, t.val = 3 * (i 0).val + 2 := ⟨⟨_, hlt⟩, rfl⟩
    obtain ⟨-, -, -, -, -, -, -, -, e0, e1, e2⟩ := mse_idx t
    refine ⟨t, (flush1_2 t).mpr (by omega), ?_⟩
    show i ∈ ((View.whole main_v1).slice (win1_2.rect t)).set
    rw [View.set_slice_whole, Rect.mem_set_unit]
    intro a
    match a with
    | ⟨0, _⟩ =>
      show win1_2.index t (0 : Fin 3) * 1 ≤ (i 0).val ∧ (i 0).val < win1_2.index t (0 : Fin 3) * 1 + 1
      omega
    | ⟨1, _⟩ =>
      show win1_2.index t (1 : Fin 3) * 8 ≤ (i 1).val ∧ (i 1).val < win1_2.index t (1 : Fin 3) * 8 + 8
      omega
    | ⟨2, _⟩ =>
      show win1_2.index t (2 : Fin 3) * 128 ≤ (i 2).val ∧ (i 2).val < win1_2.index t (2 : Fin 3) * 128 + 128
      omega

theorem mse_coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem mse_count : Ideal.ofBits .f32 0x4B280000#32 = ((11010048 : ℝ) : EReal) := by
  simp [Ideal.ofBits, Ideal.ieee, -EReal.coe_mul]

theorem mse_total (xr lr : Cert.Spec.R4) :
    ∑ i : S8x8x128.Idx, mseArr xr lr i = ((Cert.Spec.sqSumK xr lr : ℝ) : EReal) := by
  classical
  have hinj : Function.Injective (fun b : Fin 8 => (ValueIdx.ix3 b (0 : Fin 8) (0 : Fin 128) : S8x8x128.Idx)) :=
    fun a b h => congrFun h 0
  rw [← Finset.sum_subset (Finset.subset_univ (Finset.univ.image fun b : Fin 8 => (ValueIdx.ix3 b (0 : Fin 8) (0 : Fin 128) : S8x8x128.Idx))) ?_]
  · rw [Finset.sum_image (fun a _ b _ h => hinj h)]
    unfold Cert.Spec.sqSumK
    rw [mse_coe_sum]
    refine Finset.sum_congr rfl fun b _ => ?_
    exact if_pos ⟨rfl, rfl⟩
  · intro i _ hi
    refine if_neg ?_
    rintro ⟨h1, h2⟩
    apply hi
    rw [Finset.mem_image]
    refine ⟨i 0, Finset.mem_univ _, ?_⟩
    funext a
    match a with
    | ⟨0, _⟩ => rfl
    | ⟨1, _⟩ => exact Fin.ext h1.symm
    | ⟨2, _⟩ => exact Fin.ext h2.symm

theorem mse_host (xr lr : Cert.Spec.R4) :
    Host.divf (F := Ideal)
        (Host.reduceAdd (F := Ideal) (φ := .f32) (mseArr xr lr) (constant (F := Ideal) S_ .f32 0x00000000#32) reducesTo_S8x8x128_S_d0_1_2 h_S_)
        (constant (F := Ideal) S_ .f32 0x4B280000#32)
      = fun _ => ((Cert.Spec.sqSumK xr lr / 11010048 : ℝ) : EReal) := by
  funext j
  rw [ValueIdx.hostDivf_apply, ValueIdx.hostReduceAdd_apply, Ideal.hostReduceAdd_total _ (fun b => b.elim0)]
  show Ideal.div (Ideal.ofBits .f32 0x00000000#32 + ∑ i : S8x8x128.Idx, mseArr xr lr i) (Ideal.ofBits .f32 0x4B280000#32) = _
  rw [Ideal.ofBits_zero_f32, zero_add, mse_total, mse_count, Ideal.div_coe (by norm_num), ← EReal.coe_mul]
  congr 1
  ring

theorem mseK (xr lr : Cert.Spec.R4)
    (hx : ∀ i, V c main_arg0 i = ((xr (i 0).val (i 1).val (i 2).val (i 3).val : ℝ) : EReal))
    (hl : ∀ i, V c main_arg2 i = ((lr (i 0).val (i 1).val (i 2).val (i 3).val : ℝ) : EReal))
    (hblk : ∀ (x l : Vec Ideal S1x7x256x256 .f32) (xr lr : ℕ → ℕ → ℕ → ℝ),
      (∀ i, x i = ((xr (i 1).val (i 2).val (i 3).val : ℝ) : EReal)) →
      (∀ i, l i = ((lr (i 1).val (i 2).val (i 3).val : ℝ) : EReal)) →
      gmseBlock (F := Ideal) x l = fun j => if (j 1).val = 0 ∧ (j 2).val = 0 then ((Cert.Spec.blockSum xr lr : ℝ) : EReal) else 0)
    (dat : Dat τ (Elt Ideal) Unit ℕ (UR sig nD τ) ℕ cfg1 c)
    (outs : (n : ℕ) → n < cfg1.N → Vec Ideal S1x8x128 .f32)
    (hafter2 : ∀ t : Fin cfg1.N, dat.after 2 t = outs t.val t.isLt)
    (hreset : ∀ t : Fin cfg1.N, t.val % 3 = 0 → outs t.val t.isLt
      = gmseBlock (((cfg1.win 0).blk t).view.read (Elt Ideal) (V c (Pipeline.arrRef spec1 0)))
          (((cfg1.win 1).blk t).view.read (Elt Ideal) (V c (Pipeline.arrRef spec1 1))))
    (hacc : ∀ t : Fin cfg1.N, ¬ t.val % 3 = 0 → outs t.val t.isLt
      = addf (F := Ideal) (s := S1x8x128) (φ := .f32) (outs (t.val - 1) (Nat.lt_of_le_of_lt (Nat.sub_le _ _) t.isLt))
          (gmseBlock (((cfg1.win 0).blk t).view.read (Elt Ideal) (V c (Pipeline.arrRef spec1 0)))
            (((cfg1.win 1).blk t).view.read (Elt Ideal) (V c (Pipeline.arrRef spec1 1))))) :
    Host.divf (F := Ideal)
        (Host.reduceAdd (F := Ideal) (s := S8x8x128) (φ := .f32) (dat.arrAt 2 cfg1.N)
          (constant (F := Ideal) S_ .f32 0x00000000#32) reducesTo_S8x8x128_S_d0_1_2 h_S_)
        (constant (F := Ideal) S_ .f32 0x4B280000#32)
      = fun _ => ((Cert.Spec.sqSumK xr lr / 11010048 : ℝ) : EReal) := by
  rw [mse_arr V c xr lr hx hl hblk dat outs hafter2 hreset hacc]
  exact mse_host xr lr

end MseValue

end Cert.KernelIdeal.Hand

end
-- ==== Proof.GmseBlock.lean ====
import proofs.«413255_j25812753449052_3_alg».proof.Proof.Frame1Block
import proofs.«413255_j25812753449052_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open Cert.Spec

namespace Gmse

theorem named_d8 : Named.named (F := Ideal) κ "neg_half_over_d8" (φ := .f32) 0xBE3504F3#32 = ((-2097152 / 11863283 : ℝ) : EReal) :=
  IdealRules.named_const.ideal_named_scalar _ _ _ _ rfl
theorem named_d5 : Named.named (F := Ideal) κ "neg_half_over_d5" (φ := .f32) 0xBE64F92E#32 = ((-2097152 / 9378749 : ℝ) : EReal) :=
  IdealRules.named_const.ideal_named_scalar _ _ _ _ rfl
theorem named_d2 : Named.named (F := Ideal) κ "neg_half_over_d2" (φ := .f32) 0xBEB504F3#32 = ((-4194304 / 11863283 : ℝ) : EReal) :=
  IdealRules.named_const.ideal_named_scalar _ _ _ _ rfl

theorem pay3_apply (y : S7x264x384.Idx) : (k1_pay3 (F := Ideal)) y = 0 := by
  show Ideal.ofBits .f32 0x00000000#32 = 0
  exact Ideal.ofBits_zero_f32

theorem pay4_apply (y : S7x264x384.Idx) : (k1_pay4 (F := Ideal)) y = 0 := by
  show Ideal.ofBits .f32 0x00000000#32 = 0
  exact Ideal.ofBits_zero_f32

theorem pay5_apply (x : Vec Ideal S1x7x256x256 .f32) (c : Fin 7) (h w : Fin 256) :
    k1_pay5 x (ix3 c h w) = x (ix4 0 c h w) := by
  unfold k1_pay5
  rw [shapeCast_self]
  refine (shapeCast_dropUnit_apply _ _ _ _).trans ?_
  congr 1
  funext a
  match a with
  | ⟨0, _⟩ => rfl
  | ⟨1, _⟩ => rfl
  | ⟨2, _⟩ => rfl
  | ⟨3, _⟩ => rfl

theorem pay6_apply (x : Vec Ideal S1x7x256x256 .f32) (c : Fin 7) (h w : Fin 256) :
    k1_pay6 x (ix3 c h w) = x (ix4 0 c h w) := pay5_apply x c h w

theorem pad_canon (P : Vec Ideal S7x256x256 .f32) (Z : Vec Ideal S7x264x384 .f32) (C : Fin 7) (H : Fin 264) (W : Fin 384) :
    (View.canon [⟨rIn, P⟩, ⟨rAll, Z⟩] : Vec Ideal S7x264x384 .f32) (ix3 C H W)
      = if hin : 2 ≤ H.val ∧ H.val < 258 ∧ 2 ≤ W.val ∧ W.val < 258
          then P (ix3 C ⟨H.val - 2, by omega⟩ ⟨W.val - 2, by omega⟩) else Z (ix3 C H W) := by
  by_cases hin : 2 ≤ H.val ∧ H.val < 258 ∧ 2 ≤ W.val ∧ W.val < 258
  · rw [dif_pos hin]
    have he : ix3 C H W = rIn.emb (ix3 C ⟨H.val - 2, by omega⟩ ⟨W.val - 2, by omega⟩) := by
      funext a
      refine Fin.ext ?_
      rw [Rect.emb_apply]
      match a with
      | ⟨0, _⟩ => show C.val = 0 + 1 * C.val; omega
      | ⟨1, _⟩ => show H.val = 2 + 1 * (H.val - 2); omega
      | ⟨2, _⟩ => show W.val = 2 + 1 * (W.val - 2); omega
    rw [he]
    exact View.canon_cons_emb rIn P _ _
  · rw [dif_neg hin]
    have hnm : ix3 C H W ∉ (⟨rIn, P⟩ : View.Piece (Elt Ideal) S7x264x384 .f32).1.set := by
      intro hm
      have hall := (Rect.mem_set_unit (s := S7x264x384) (off := ![0, 2, 2]) (size := S7x256x256.size)
        (inb := inb_S7x264x384_S7x256x256_0_2_2)).mp hm
      have h1 := hall 1
      have h2 := hall 2
      apply hin
      have h1' : 2 ≤ H.val ∧ H.val < 2 + 256 := h1
      have h2' : 2 ≤ W.val ∧ W.val < 2 + 256 := h2
      omega
    rw [View.canon_cons_of_not_mem _ _ hnm]
    rw [View.canon_unit_zero (by funext a; match a with | ⟨0, _⟩ => rfl | ⟨1, _⟩ => rfl | ⟨2, _⟩ => rfl)]

def IsPad (v : Vec Ideal S7x264x384 .f32) (a : ℕ → ℕ → ℕ → ℝ) : Prop :=
  ∀ (C : Fin 7) (H : Fin 264) (W : Fin 384), v (ix3 C H W) = ((pad2 (a C.val) H.val W.val : ℝ) : EReal)

def IsImg (v : FVec Ideal S7x256x256 .f32) (f : ℕ → ℕ → ℕ → ℝ) : Prop :=
  ∀ (c : Fin 7) (h w : Fin 256), v (ix3 c h w) = ((f c.val h.val w.val : ℝ) : EReal)

theorem isPad_canon5 (x : Vec Ideal S1x7x256x256 .f32) (xr : ℕ → ℕ → ℕ → ℝ)
    (hx : ∀ i, x i = ((xr (i 1).val (i 2).val (i 3).val : ℝ) : EReal)) :
    IsPad (View.canon [⟨rIn, k1_pay5 x⟩, ⟨rAll, (k1_pay3 (F := Ideal))⟩]) xr := by
  intro C H W
  rw [pad_canon]
  unfold pad2
  by_cases hin : 2 ≤ H.val ∧ H.val < 258 ∧ 2 ≤ W.val ∧ W.val < 258
  · rw [dif_pos hin, if_pos hin, pay5_apply, hx]
  · rw [dif_neg hin, if_neg hin, pay3_apply, EReal.coe_zero]

theorem isPad_canon6 (x : Vec Ideal S1x7x256x256 .f32) (xr : ℕ → ℕ → ℕ → ℝ)
    (hx : ∀ i, x i = ((xr (i 1).val (i 2).val (i 3).val : ℝ) : EReal)) :
    IsPad (View.canon [⟨rIn, k1_pay6 x⟩, ⟨rAll, (k1_pay4 (F := Ideal))⟩]) xr := by
  intro C H W
  rw [pad_canon]
  unfold pad2
  by_cases hin : 2 ≤ H.val ∧ H.val < 258 ∧ 2 ≤ W.val ∧ W.val < 258
  · rw [dif_pos hin, if_pos hin, pay6_apply, hx]
  · rw [dif_neg hin, if_neg hin, pay4_apply, EReal.coe_zero]

theorem IsPad.slice {v : Vec Ideal S7x264x384 .f32} {a : ℕ → ℕ → ℕ → ℝ} (hv : IsPad v a)
    (off : Fin 3 → ℕ) (hs : S7x264x384.Slices off S7x256x256) (dy dx : ℕ) (hoff : off = ![0, dy, dx])
    (hdy : dy ≤ 8) (hdx : dx ≤ 128) :
    IsImg (extractStridedSlice S7x256x256 off v hs) (fun c h w => pad2 (a c) (h + dy) (w + dx)) := by
  subst hoff
  intro c h w
  refine (extractStridedSlice_apply _ v hs (ix3 c h w) (ix3 c ⟨h.val + dy, by omega⟩ ⟨w.val + dx, by omega⟩) ?_).trans (hv _ _ _)
  intro b
  match b with
  | ⟨0, _⟩ => show c.val = 0 + c.val; omega
  | ⟨1, _⟩ => show h.val + dy = dy + h.val; omega
  | ⟨2, _⟩ => show w.val + dx = dx + w.val; omega

theorem IsPad.centre {v : Vec Ideal S7x264x384 .f32} {a : ℕ → ℕ → ℕ → ℝ} (hv : IsPad v a)
    (hs : S7x264x384.Slices ![0, 2, 2] S7x256x256) :
    IsImg (extractStridedSlice S7x256x256 ![0, 2, 2] v hs) a := by
  intro c h w
  rw [hv.slice _ hs 2 2 rfl (by omega) (by omega) c h w]
  show ((pad2 (a c.val) (h.val + 2) (w.val + 2) : ℝ) : EReal) = _
  unfold pad2
  rw [if_pos (by omega)]
  simp only [Nat.add_sub_cancel]

namespace IsImg
variable {u v : FVec Ideal S7x256x256 .f32} {f g : ℕ → ℕ → ℕ → ℝ}

theorem sub (hu : IsImg u f) (hv : IsImg v g) : IsImg (subf u v) (fun c h w => f c h w - g c h w) := by
  intro c h w
  show u _ - v _ = _
  rw [hu, hv, ← EReal.coe_sub]

theorem add (hu : IsImg u f) (hv : IsImg v g) : IsImg (addf u v) (fun c h w => f c h w + g c h w) := by
  intro c h w
  show u _ + v _ = _
  rw [hu, hv, ← EReal.coe_add]

theorem mul (hu : IsImg u f) (hv : IsImg v g) : IsImg (mulf u v) (fun c h w => f c h w * g c h w) := by
  intro c h w
  show u _ * v _ = _
  rw [hu, hv, ← EReal.coe_mul]

theorem exp (hu : IsImg u f) : IsImg (Idealize.ShloMosaic.exp u) (fun c h w => Real.exp (f c h w)) := by
  intro c h w
  show Ideal.exp (u _) = _
  rw [hu, Ideal.exp_coe]

theorem bc {s : Ideal .f32} {r : ℝ} (hs : s = ((r : ℝ) : EReal)) : IsImg (broadcast S7x256x256 s) (fun _ _ _ => r) := by
  intro c h w
  exact hs

theorem congr (hu : IsImg u f) (hfg : ∀ c h w, c < 7 → h < 256 → w < 256 → f c h w = g c h w) : IsImg u g := by
  intro c h w
  rw [hu, hfg _ _ _ c.isLt h.isLt w.isLt]

end IsImg

theorem isImg_pay9 : IsImg (k1_pay9 (F := Ideal)) (fun _ _ _ => 0) := by
  intro c h w
  show Ideal.ofBits .f32 0x00000000#32 = _
  rw [Ideal.ofBits_zero_f32, EReal.coe_zero]

abbrev k8 : ℝ := -2097152 / 11863283
abbrev k5 : ℝ := -2097152 / 9378749
abbrev k2 : ℝ := -4194304 / 11863283

def D (a : ℕ → ℕ → ℕ → ℝ) (dy dx : ℕ) : ℕ → ℕ → ℕ → ℝ :=
  fun c h w => a c h w - pad2 (a c) (h + dy) (w + dx)

def Q (a : ℕ → ℕ → ℕ → ℝ) (dy dx : ℕ) (κr : ℝ) : ℕ → ℕ → ℕ → ℝ :=
  fun c h w => D a dy dx c h w * D a dy dx c h w * κr

def T (a : ℕ → ℕ → ℕ → ℝ) (dy dx : ℕ) (κr : ℝ) : ℕ → ℕ → ℕ → ℝ :=
  fun c h w => Real.exp (Q a dy dx κr c h w)

namespace IsImg
variable {vC s : FVec Ideal S7x256x256 .f32} {a : ℕ → ℕ → ℕ → ℝ} {dy dx : ℕ}

theorem diff (hC : IsImg vC a) (hS : IsImg s (fun c h w => pad2 (a c) (h + dy) (w + dx))) :
    IsImg (subf vC s) (D a dy dx) := hC.sub hS

theorem quad (hC : IsImg vC a) (hS : IsImg s (fun c h w => pad2 (a c) (h + dy) (w + dx)))
    {cst : Ideal .f32} {κr : ℝ} (hc : cst = ((κr : ℝ) : EReal)) :
    IsImg (mulf (mulf (subf vC s) (subf vC s)) (broadcast S7x256x256 cst)) (Q a dy dx κr) :=
  ((hC.diff hS).mul (hC.diff hS)).mul (IsImg.bc hc)

theorem tap (hC : IsImg vC a) (hS : IsImg s (fun c h w => pad2 (a c) (h + dy) (w + dx)))
    {cst : Ideal .f32} {κr : ℝ} (hc : cst = ((κr : ℝ) : EReal)) :
    IsImg (Idealize.ShloMosaic.exp (mulf (mulf (subf vC s) (subf vC s)) (broadcast S7x256x256 cst))) (T a dy dx κr) :=
  (hC.quad hS hc).exp

end IsImg

section Stages
variable (a b : ℕ → ℕ → ℕ → ℝ)

def R73 : ℕ → ℕ → ℕ → ℝ := fun c h w =>
  ((((((0 + T a 0 0 k8 c h w) - T b 0 0 k8 c h w) + T a 0 1 k5 c h w) - T b 0 1 k5 c h w)
    + T a 0 3 k5 c h w) - T b 0 3 k5 c h w) + T a 0 4 k8 c h w

def R129 : ℕ → ℕ → ℕ → ℝ := fun c h w =>
  (((((((R73 a b c h w - Real.exp (Q b 0 4 k8 c h w)) + T a 1 0 k5 c h w) - T b 1 0 k5 c h w)
    + T a 1 1 k2 c h w) - T b 1 1 k2 c h w) + T a 1 3 k2 c h w) - T b 1 3 k2 c h w) + T a 1 4 k5 c h w

def R176 : ℕ → ℕ → ℕ → ℝ := fun c h w =>
  ((((((R129 a b c h w - Real.exp (D b 1 4 c h w * D b 1 4 c h w * k5)) + T a 3 0 k5 c h w) - T b 3 0 k5 c h w)
    + T a 3 1 k2 c h w) - T b 3 1 k2 c h w) + T a 3 3 k2 c h w) - T b 3 3 k2 c h w

def R232 : ℕ → ℕ → ℕ → ℝ := fun c h w =>
  (((((((R176 a b c h w + Real.exp (D a 3 4 c h w * D a 3 4 c h w * k5))
    - Real.exp (D b 3 4 c h w * D b 3 4 c h w * k5)) + T a 4 0 k8 c h w) - T b 4 0 k8 c h w)
    + T a 4 1 k5 c h w) - T b 4 1 k5 c h w) + T a 4 3 k5 c h w) - T b 4 3 k5 c h w

def R246 : ℕ → ℕ → ℕ → ℝ := fun c h w => (R232 a b c h w + T a 4 4 k8 c h w) - T b 4 4 k8 c h w

end Stages

section Payloads
variable {v18 v19 : Vec Ideal S7x264x384 .f32} {v20 v21 : FVec Ideal S7x256x256 .f32} {a b : ℕ → ℕ → ℕ → ℝ}

theorem isImg_pay12 {v22 v23 v24 : FVec Ideal S7x256x256 .f32}
    (h18 : IsPad v18 a) (h19 : IsPad v19 b) (h20 : IsImg v20 a) (h21 : IsImg v21 b)
    (h22 : IsImg v22 (fun _ _ _ => 0))
    (h23 : IsImg v23 (fun c h w => pad2 (a c) (h + 0) (w + 0)))
    (h24 : IsImg v24 (fun c h w => pad2 (b c) (h + 0) (w + 0))) :
    IsImg (k1_pay12 v18 v19 v20 v21 v22 v23 v24) (R73 a b) := by
  have t0x := h20.tap h23 named_d8
  have t0l := h21.tap h24 named_d8
  have t1x := h20.tap (h18.slice _ slices_S7x264x384_o0_0_1_S7x256x256 0 1 rfl (by omega) (by omega)) named_d5
  have t1l := h21.tap (h19.slice _ slices_S7x264x384_o0_0_1_S7x256x256 0 1 rfl (by omega) (by omega)) named_d5
  have t2x := h20.tap (h18.slice _ slices_S7x264x384_o0_0_3_S7x256x256 0 3 rfl (by omega) (by omega)) named_d5
  have t2l := h21.tap (h19.slice _ slices_S7x264x384_o0_0_3_S7x256x256 0 3 rfl (by omega) (by omega)) named_d5
  have t3x := h20.tap (h18.slice _ slices_S7x264x384_o0_0_4_S7x256x256 0 4 rfl (by omega) (by omega)) named_d8
  exact ((((((h22.add t0x).sub t0l).add t1x).sub t1l).add t2x).sub t2l).add t3x

theorem isImg_pay13 (h19 : IsPad v19 b) (h21 : IsImg v21 b) : IsImg (k1_pay13 v19 v21) (Q b 0 4 k8) :=
  h21.quad (h19.slice _ slices_S7x264x384_o0_0_4_S7x256x256 0 4 rfl (by omega) (by omega)) named_d8

theorem isImg_pay14 (h19 : IsPad v19 b) (h21 : IsImg v21 b) : IsImg (k1_pay14 v19 v21) (D b 1 4) :=
  h21.diff (h19.slice _ slices_S7x264x384_o0_1_4_S7x256x256 1 4 rfl (by omega) (by omega))

theorem isImg_pay15 {v73 v76 : FVec Ideal S7x256x256 .f32}
    (h18 : IsPad v18 a) (h19 : IsPad v19 b) (h20 : IsImg v20 a) (h21 : IsImg v21 b)
    (h73 : IsImg v73 (R73 a b)) (h76 : IsImg v76 (Q b 0 4 k8)) :
    IsImg (k1_pay15 v18 v19 v20 v21 v73 v76) (R129 a b) := by
  have t4x := h20.tap (h18.slice _ slices_S7x264x384_o0_1_0_S7x256x256 1 0 rfl (by omega) (by omega)) named_d5
  have t4l := h21.tap (h19.slice _ slices_S7x264x384_o0_1_0_S7x256x256 1 0 rfl (by omega) (by omega)) named_d5
  have t5x := h20.tap (h18.slice _ slices_S7x264x384_o0_1_1_S7x256x256 1 1 rfl (by omega) (by omega)) named_d2
  have t5l := h21.tap (h19.slice _ slices_S7x264x384_o0_1_1_S7x256x256 1 1 rfl (by omega) (by omega)) named_d2
  have t6x := h20.tap (h18.slice _ slices_S7x264x384_o0_1_3_S7x256x256 1 3 rfl (by omega) (by omega)) named_d2
  have t6l := h21.tap (h19.slice _ slices_S7x264x384_o0_1_3_S7x256x256 1 3 rfl (by omega) (by omega)) named_d2
  have t7x := h20.tap (h18.slice _ slices_S7x264x384_o0_1_4_S7x256x256 1 4 rfl (by omega) (by omega)) named_d5
  exact (((((((h73.sub h76.exp).add t4x).sub t4l).add t5x).sub t5l).add t6x).sub t6l).add t7x

theorem isImg_pay16 {v124 v129 : FVec Ideal S7x256x256 .f32}
    (h18 : IsPad v18 a) (h19 : IsPad v19 b) (h20 : IsImg v20 a) (h21 : IsImg v21 b)
    (h124 : IsImg v124 (D b 1 4)) (h129 : IsImg v129 (R129 a b)) :
    IsImg (k1_pay16 v18 v19 v20 v21 v124 v129) (R176 a b) := by
  have t7l := ((h124.mul h124).mul (IsImg.bc named_d5)).exp
  have t8x := h20.tap (h18.slice _ slices_S7x264x384_o0_3_0_S7x256x256 3 0 rfl (by omega) (by omega)) named_d5
  have t8l := h21.tap (h19.slice _ slices_S7x264x384_o0_3_0_S7x256x256 3 0 rfl (by omega) (by omega)) named_d5
  have t9x := h20.tap (h18.slice _ slices_S7x264x384_o0_3_1_S7x256x256 3 1 rfl (by omega) (by omega)) named_d2
  have t9l := h21.tap (h19.slice _ slices_S7x264x384_o0_3_1_S7x256x256 3 1 rfl (by omega) (by omega)) named_d2
  have tAx := h20.tap (h18.slice _ slices_S7x264x384_o0_3_3_S7x256x256 3 3 rfl (by omega) (by omega)) named_d2
  have tAl := h21.tap (h19.slice _ slices_S7x264x384_o0_3_3_S7x256x256 3 3 rfl (by omega) (by omega)) named_d2
  exact ((((((h129.sub t7l).add t8x).sub t8l).add t9x).sub t9l).add tAx).sub tAl

theorem isImg_pay17 (h19 : IsPad v19 b) (h21 : IsImg v21 b) : IsImg (k1_pay17 v19 v21) (D b 3 4) :=
  h21.diff (h19.slice _ slices_S7x264x384_o0_3_4_S7x256x256 3 4 rfl (by omega) (by omega))

theorem isImg_pay18 (h18 : IsPad v18 a) (h20 : IsImg v20 a) :
    IsImg (k1_pay18 v18 v20) (fun c h w => D a 3 4 c h w * D a 3 4 c h w) :=
  (h20.diff (h18.slice _ slices_S7x264x384_o0_3_4_S7x256x256 3 4 rfl (by omega) (by omega))).mul
    (h20.diff (h18.slice _ slices_S7x264x384_o0_3_4_S7x256x256 3 4 rfl (by omega) (by omega)))

theorem isImg_pay19 {v176 v180 v181 : FVec Ideal S7x256x256 .f32} {cst_48 : Ideal .f32}
    (h18 : IsPad v18 a) (h19 : IsPad v19 b) (h20 : IsImg v20 a) (h21 : IsImg v21 b)
    (h176 : IsImg v176 (R176 a b)) (h180 : IsImg v180 (D b 3 4))
    (h181 : IsImg v181 (fun c h w => D a 3 4 c h w * D a 3 4 c h w)) (hc : cst_48 = ((k5 : ℝ) : EReal)) :
    IsImg (k1_pay19 v18 v19 v20 v21 v176 v180 v181 cst_48) (R232 a b) := by
  have tBx := (h181.mul (IsImg.bc hc)).exp
  have tBl := ((h180.mul h180).mul (IsImg.bc named_d5)).exp
  have tCx := h20.tap (h18.slice _ slices_S7x264x384_o0_4_0_S7x256x256 4 0 rfl (by omega) (by omega)) named_d8
  have tCl := h21.tap (h19.slice _ slices_S7x264x384_o0_4_0_S7x256x256 4 0 rfl (by omega) (by omega)) named_d8
  have tDx := h20.tap (h18.slice _ slices_S7x264x384_o0_4_1_S7x256x256 4 1 rfl (by omega) (by omega)) named_d5
  have tDl := h21.tap (h19.slice _ slices_S7x264x384_o0_4_1_S7x256x256 4 1 rfl (by omega) (by omega)) named_d5
  have tEx := h20.tap (h18.slice _ slices_S7x264x384_o0_4_3_S7x256x256 4 3 rfl (by omega) (by omega)) named_d5
  have tEl := h21.tap (h19.slice _ slices_S7x264x384_o0_4_3_S7x256x256 4 3 rfl (by omega) (by omega)) named_d5
  exact (((((((h176.add tBx).sub tBl).add tCx).sub tCl).add tDx).sub tDl).add tEx).sub tEl

end Payloads

theorem finRange16 : List.finRange 16 = [0, 1, 2, 3, 4, 5, 6, 7, 8, 9, 10, 11, 12, 13, 14, 15] := by decide

theorem R246_eq (a b : ℕ → ℕ → ℕ → ℝ) (c h w : ℕ) : R246 a b c h w = accK (a c) (b c) h w := by
  unfold accK
  rw [finRange16]
  rfl

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem red2_apply (v : FVec Ideal S7x256x256 .f32) (c : Fin 7) (h : Fin 256) :
    multiReduction .add [2] S7x256 v 0x00000000#32 reduces_S7x256x256_S7x256 (.inl rfl) rfl (ix2 c h)
      = ∑ w : Fin 256, v (ix3 c h w) := by
  refine (Ideal.multiReduction_add_single v 0x00000000#32 reduces_S7x256x256_S7x256 (.inl rfl) rfl (ix2 c h)).trans ?_
  show ∑ w : Fin 256, v (reduces_S7x256x256_S7x256.lift (ix2 c h) w) = _
  refine Finset.sum_congr rfl fun w _ => congrArg v (funext fun a => Fin.ext ?_)
  match a with
  | ⟨0, _⟩ => rfl
  | ⟨1, _⟩ => rfl
  | ⟨2, _⟩ => rfl

theorem red1_apply (v : FVec Ideal S7x256x1 .f32) (c : Fin 7) :
    multiReduction .add [1] S7x1 v 0x00000000#32 reduces_S7x256x1_S7x1 (.inl rfl) rfl (ix2 c 0)
      = ∑ h : Fin 256, v (ix3 c h 0) := by
  refine (Ideal.multiReduction_add_single v 0x00000000#32 reduces_S7x256x1_S7x1 (.inl rfl) rfl (ix2 c 0)).trans ?_
  show ∑ h : Fin 256, v (reduces_S7x256x1_S7x1.lift (ix2 c 0) h) = _
  refine Finset.sum_congr rfl fun h _ => congrArg v (funext fun a => Fin.ext ?_)
  match a with
  | ⟨0, _⟩ => rfl
  | ⟨1, _⟩ => rfl
  | ⟨2, _⟩ => rfl

theorem red0_apply (v : FVec Ideal S7x1x1 .f32) :
    multiReduction .add [0] S1x1 v 0x00000000#32 reduces_S7x1x1_S1x1 (.inl rfl) rfl (ix2 0 0)
      = ∑ c : Fin 7, v (ix3 c 0 0) := by
  refine (Ideal.multiReduction_add_single v 0x00000000#32 reduces_S7x1x1_S1x1 (.inl rfl) rfl (ix2 0 0)).trans ?_
  show ∑ c : Fin 7, v (reduces_S7x1x1_S1x1.lift (ix2 0 0) c) = _
  refine Finset.sum_congr rfl fun c _ => congrArg v (funext fun a => Fin.ext ?_)
  match a with
  | ⟨0, _⟩ => rfl
  | ⟨1, _⟩ => rfl
  | ⟨2, _⟩ => rfl

theorem red_all (v : FVec Ideal S7x256x256 .f32) (f : ℕ → ℕ → ℕ → ℝ) (hv : IsImg v f) :
    extractAt ![0, 0, 0]
      (shapeCast S1x1x1
        (multiReduction .add [0] S1x1
          (shapeCast S7x1x1
            (multiReduction .add [1] S7x1
              (shapeCast S7x256x1
                (multiReduction .add [2] S7x256 v 0x00000000#32 reduces_S7x256x256_S7x256 (.inl rfl) rfl)
                shapeCasts_S7x256_S7x256x1)
              0x00000000#32 reduces_S7x256x1_S7x1 (.inl rfl) rfl)
            shapeCasts_S7x1_S7x1x1)
          0x00000000#32 reduces_S7x1x1_S1x1 (.inl rfl) rfl)
        shapeCasts_S1x1_S1x1x1) inpos_S1x1x1_p0_0_0
      = ((∑ c : Fin 7, ∑ h : Fin 256, ∑ w : Fin 256, f c.val h.val w.val : ℝ) : EReal) := by
  unfold extractAt
  refine (shapeCast_apply _ _ _ (ix2 0 0) ?_).trans ?_
  · rw [Shape.rowMajor_val_two, Shape.rowMajor_val_three]; rfl
  rw [red0_apply, coe_sum]
  refine Finset.sum_congr rfl fun c _ => ?_
  refine (shapeCast_apply _ _ (ix3 c 0 0) (ix2 c 0) ?_).trans ?_
  · rw [Shape.rowMajor_val_two, Shape.rowMajor_val_three]
    show c.val * 1 + 0 = (c.val * 1 + 0) * 1 + 0
    omega
  rw [red1_apply, coe_sum]
  refine Finset.sum_congr rfl fun h _ => ?_
  refine (shapeCast_apply _ _ (ix3 c h 0) (ix2 c h) ?_).trans ?_
  · rw [Shape.rowMajor_val_two, Shape.rowMajor_val_three]
    show c.val * 256 + h.val = (c.val * 256 + h.val) * 1 + 0
    omega
  rw [red2_apply, coe_sum]
  exact Finset.sum_congr rfl fun w _ => hv c h w

theorem cmpi_eq_zero (k : ℕ) (hk : k < 128) :
    IntOp.cmpi .eq (BitVec.ofNat 32 k) 0#32 = if k = 0 then 1#1 else 0#1 := by
  by_cases h0 : k = 0
  · subst h0; rfl
  · rw [if_neg h0]
    have hne : BitVec.ofNat 32 k ≠ 0#32 := by
      intro h
      have := congrArg BitVec.toNat h
      simp only [BitVec.toNat_ofNat, BitVec.toNat_zero] at this
      omega
    show BitVec.ofBool (BitVec.ofNat 32 k == 0#32) = 0#1
    rw [beq_eq_false_iff_ne.mpr hne]
    rfl

theorem corner_select (s : Ideal .f32) (j : S1x8x128.Idx) :
    select (andi (cmpi .eq (iota .tc S1x8x128 32 [1] iota_S1x8x128_d1_w32) (broadcast S1x8x128 0#32))
        (cmpi .eq (iota .tc S1x8x128 32 [2] iota_S1x8x128_d2_w32) (broadcast S1x8x128 0#32)))
      (broadcast S1x8x128 s) (broadcast S1x8x128 (Scalar.ofBits (F := Ideal) .f32 0x00000000#32)) j
      = if (j 1).val = 0 ∧ (j 2).val = 0 then s else 0 := by
  show Scalar.select (IntOp.andi (IntOp.cmpi .eq (iota .tc S1x8x128 32 [1] iota_S1x8x128_d1_w32 j) 0#32)
      (IntOp.cmpi .eq (iota .tc S1x8x128 32 [2] iota_S1x8x128_d2_w32 j) 0#32)) s (Ideal.ofBits .f32 0x00000000#32) = _
  rw [iota_single_apply, iota_single_apply, Ideal.ofBits_zero_f32]
  have h1 : (j 1).val < 8 := (j 1).isLt
  have h2 : (j 2).val < 128 := (j 2).isLt
  rw [cmpi_eq_zero _ (by omega), cmpi_eq_zero _ h2]
  by_cases e1 : (j 1).val = 0 <;> by_cases e2 : (j 2).val = 0 <;> simp [e1, e2, Scalar.select, IntOp.andi]

theorem pay1_real {v20 v21 v232 v233 v234 : FVec Ideal S7x256x256 .f32} {a b : ℕ → ℕ → ℕ → ℝ}
    (h20 : IsImg v20 a) (h21 : IsImg v21 b) (h232 : IsImg v232 (R232 a b))
    (h233 : IsImg v233 (fun c h w => pad2 (a c) (h + 4) (w + 4)))
    (h234 : IsImg v234 (fun c h w => pad2 (b c) (h + 4) (w + 4))) (j : S1x8x128.Idx) :
    k1_pay1 v20 v21 v232 v233 v234 j
      = if (j 1).val = 0 ∧ (j 2).val = 0 then ((blockSum a b : ℝ) : EReal) else 0 := by
  have h246 : IsImg _ (R246 a b) := (h232.add (h20.tap h233 named_d8)).sub (h21.tap h234 named_d8)
  have h247 := h246.mul h246
  unfold k1_pay1
  refine (corner_select _ j).trans ?_
  rw [red_all _ _ h247]
  unfold blockSum
  simp only [R246_eq]

end Gmse

open Gmse in
theorem gmseBlock_real (x l : Vec Ideal S1x7x256x256 .f32) (xr lr : ℕ → ℕ → ℕ → ℝ)
    (hx : ∀ i, x i = ((xr (i 1).val (i 2).val (i 3).val : ℝ) : EReal))
    (hl : ∀ i, l i = ((lr (i 1).val (i 2).val (i 3).val : ℝ) : EReal)) :
    gmseBlock (F := Ideal) x l
      = fun j => if (j 1).val = 0 ∧ (j 2).val = 0 then ((Cert.Spec.blockSum xr lr : ℝ) : EReal) else 0 := by
  have h18 := isPad_canon5 x xr hx
  have h19 := isPad_canon6 l lr hl
  have h20 := h18.centre slices_S7x264x384_o0_2_2_S7x256x256
  have h21 := h19.centre slices_S7x264x384_o0_2_2_S7x256x256
  have h23 := h18.slice _ slices_S7x264x384_o0_0_0_S7x256x256 0 0 rfl (by omega) (by omega)
  have h24 := h19.slice _ slices_S7x264x384_o0_0_0_S7x256x256 0 0 rfl (by omega) (by omega)
  have h73 := isImg_pay12 h18 h19 h20 h21 isImg_pay9 h23 h24
  have h76 := isImg_pay13 h19 h21
  have h124 := isImg_pay14 h19 h21
  have h129 := isImg_pay15 h18 h19 h20 h21 h73 h76
  have h176 := isImg_pay16 h18 h19 h20 h21 h124 h129
  have h180 := isImg_pay17 h19 h21
  have h181 := isImg_pay18 h18 h20
  have h232 := isImg_pay19 h18 h19 h20 h21 h176 h180 h181 named_d5
  have h233 := h18.slice _ slices_S7x264x384_o0_4_4_S7x256x256 4 4 rfl (by omega) (by omega)
  have h234 := h19.slice _ slices_S7x264x384_o0_4_4_S7x256x256 4 4 rfl (by omega) (by omega)
  funext j
  exact pay1_real h20 h21 h232 h233 h234 j

end Cert.KernelIdeal.Hand
end
-- ==== Proof.Frame1Value.lean ====
import proofs.«413255_j25812753449052_3_alg».proof.Proof.Frame1
import proofs.«413255_j25812753449052_3_alg».proof.Proof.Frame1Block
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

namespace F1V

theorem hz3 : (![0, 0, 0] : Fin 3 → Nat) = fun _ => 0 :=
  funext fun a => match a with | ⟨0, _⟩ => rfl | ⟨1, _⟩ => rfl | ⟨2, _⟩ => rfl
theorem hz4 : (![0, 0, 0, 0] : Fin 4 → Nat) = fun _ => 0 :=
  funext fun a => match a with | ⟨0, _⟩ => rfl | ⟨1, _⟩ => rfl | ⟨2, _⟩ => rfl | ⟨3, _⟩ => rfl

theorem readCov_whole3 {sg : RefSig} {κ' : Kind} {sp : Space} (v : View sg κ' sp S7x264x384 .f32)
    (L : List (View.Piece (Elt F) S7x264x384 .f32)) (inb : ∀ a, (![0, 0, 0] : Fin 3 → Nat) a + S7x264x384.size a ≤ S7x264x384.size a) :
    v.readCov L (Rect.unit ![0, 0, 0] S7x264x384.size inb).toLoadRect = View.canon L := by
  rw [View.readCov_eq_canon']
  exact View.ld_unit_zero hz3 inb (View.canon L)

theorem out_A (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : k1_cond1 i = 1#1) (hc2 : ¬k1_cond2 i = 1#1)
    (x0 : Vec F S1x7x256x256 .f32) (x1 : Vec F S1x7x256x256 .f32) : out1_A_2 c i arg2 harg2 arg3 harg3 arg4 harg4 arg5 harg5 arg6 harg6 hc1 hc2 x0 x1 = gmseBlock x0 x1 := by
  unfold out1_A_2
  rw [View.read_writes_eq_canon _ _ _ (cover1_A_2 c i arg2 harg2 arg3 harg3 arg4 harg4 arg5 harg5 arg6 harg6 hc1 hc2 x0 x1)]
  unfold kernelRun1_A
  dsimp only
  rw [View.canon_unit_zero hz3]
  sl_unfold_words
  simp only [View.readAt_eq_ld, harg2.read_unread, harg3.read_unread, View.ld_unit_zero (S := S1x7x256x256) hz4]
  rw [readCov_whole3, readCov_whole3]
  rfl

theorem out_B (c : Dev nD) (i : grid1.Coords) (arg2 : Memref sig .tc .vmem S1x7x256x256 .f32) (harg2 : arg2.IsWhole) (arg3 : Memref sig .tc .vmem S1x7x256x256 .f32) (harg3 : arg3.IsWhole) (arg4 : Memref sig .tc .vmem S1x8x128 .f32) (harg4 : arg4.IsWhole) (arg5 : Memref sig .tc .vmem S7x264x384 .f32) (harg5 : arg5.IsWhole) (arg6 : Memref sig .tc .vmem S7x264x384 .f32) (harg6 : arg6.IsWhole) (hc1 : ¬k1_cond1 i = 1#1) (hc2 : k1_cond2 i = 1#1)
    (x0 : Vec F S1x7x256x256 .f32) (x1 : Vec F S1x7x256x256 .f32) (xo2 : Vec F S1x8x128 .f32) : out1_B_2 c i arg2 harg2 arg3 harg3 arg4 harg4 arg5 harg5 arg6 harg6 hc1 hc2 x0 x1 xo2 = addf xo2 (gmseBlock x0 x1) := by
  unfold out1_B_2
  rw [View.read_writes_eq_canon _ _ _ (cover1_B_2 c i arg2 harg2 arg3 harg3 arg4 harg4 arg5 harg5 arg6 harg6 hc1 hc2 x0 x1 xo2)]
  unfold kernelRun1_B
  dsimp only
  rw [View.canon_unit_zero hz3]
  sl_unfold_words
  simp only [View.readAt_eq_ld, harg2.read_unread, harg3.read_unread, harg4.read_unread,
    View.ld_unit_zero (S := S1x7x256x256) hz4, View.ld_unit_zero (S := S1x8x128) hz3]
  rw [readCov_whole3, readCov_whole3]
  unfold k1_pay2
  simp only [shapeCast_self]
  rfl

end F1V

section Region1
variable (V : (c : Dev nD) → (b : Ref sig .tc) → Buf (Elt F) ((c : Thread nD τ).loc b))

theorem outsAt1_reset (c : Dev nD) (t : Fin cfg1.N) (h : t.val % 3 = 0) :
    outsAt1 V c t.val t.isLt = gmseBlock (iblk1 V c 0 t) (iblk1 V c 1 t) :=
  (outsAt1_A V c t h).trans
    (F1V.out_A c (grid1.coords t) (ms1_0 t) (hs1_0 t) (ms1_1 t) (hs1_1 t) (ms1_2 t) (hs1_2 t) scM1_0 (Memref.isWhole_whole _)
      scM1_1 (Memref.isWhole_whole _) ((hcond1_1 t).mpr h) (fun h' => (hcond1_2 t).mp h' h) (iblk1 V c 0 t) (iblk1 V c 1 t))

theorem outsAt1_acc (c : Dev nD) (t : Fin cfg1.N) (h : ¬ t.val % 3 = 0) :
    outsAt1 V c t.val t.isLt
      = addf (outsAt1 V c (t.val - 1) (Nat.lt_of_le_of_lt (Nat.sub_le _ _) t.isLt)) (gmseBlock (iblk1 V c 0 t) (iblk1 V c 1 t)) :=
  (outsAt1_B V c t h).trans
    (F1V.out_B c (grid1.coords t) (ms1_0 t) (hs1_0 t) (ms1_1 t) (hs1_1 t) (ms1_2 t) (hs1_2 t) scM1_0 (Memref.isWhole_whole _)
      scM1_1 (Memref.isWhole_whole _) (fun h' => h ((hcond1_1 t).mp h')) ((hcond1_2 t).mpr h) (iblk1 V c 0 t) (iblk1 V c 1 t)
      (outsAt1 V c (t.val - 1) (Nat.lt_of_le_of_lt (Nat.sub_le _ _) t.isLt)))

end Region1

end Cert.KernelIdeal.Hand

end
-- ==== Proof.MseRefA.lean ====
import proofs.«413255_j25812753449052_3_alg».proof.Proof.RefRead
import proofs.«413255_j25812753449052_3_alg».proof.Proof.Spec
import Idealize.ShloMosaic.Lib.ValueIdx
import Mathlib.Data.EReal.Operations

noncomputable section

namespace Cert.ReferenceIdeal.Hand

open Cert.ReferenceIdeal Cert.ReferenceIdeal.Gen Idealize.ShloMosaic Idealize.ShloMosaic.ValueIdx
open Cert.Spec

theorem bits_neg_half : Ideal.ofBits .f32 0xBF000000#32 = ((-(1 / 2) : ℝ) : EReal) := by
  simp [Ideal.ofBits, Ideal.ieee, -EReal.coe_mul]; norm_num

theorem bits_d8 : Ideal.ofBits .f32 0x403504F3#32 = ((d8 : ℝ) : EReal) := by
  simp [Ideal.ofBits, Ideal.ieee, d8, -EReal.coe_mul]; norm_num

theorem bits_d5 : Ideal.ofBits .f32 0x400F1BBD#32 = ((d5 : ℝ) : EReal) := by
  simp [Ideal.ofBits, Ideal.ieee, d5, -EReal.coe_mul]; norm_num

theorem bits_d2 : Ideal.ofBits .f32 0x3FB504F3#32 = ((d2 : ℝ) : EReal) := by
  simp [Ideal.ofBits, Ideal.ieee, d2, -EReal.coe_mul]; norm_num

theorem bits_count : Ideal.ofBits .f32 0x4B280000#32 = ((11010048 : ℝ) : EReal) := by
  simp [Ideal.ofBits, Ideal.ieee, -EReal.coe_mul]

abbrev unpad (j : S8x21x260x260.Idx) (h : 2 ≤ (j 2).val ∧ (j 2).val < 258 ∧ 2 ≤ (j 3).val ∧ (j 3).val < 258) :
    S8x21x256x256.Idx := fun a => match a with
  | ⟨0, _⟩ => ⟨(j 0).val, (j 0).isLt⟩
  | ⟨1, _⟩ => ⟨(j 1).val, (j 1).isLt⟩
  | ⟨2, _⟩ => ⟨(j 2).val - 2, by show (j 2).val - 2 < 256; omega⟩
  | ⟨3, _⟩ => ⟨(j 3).val - 2, by show (j 3).val - 2 < 256; omega⟩

theorem pad_at {α : Type} (x : S8x21x256x256.Idx → α) (v : S_.Idx → α) (j : S8x21x260x260.Idx) :
    pad S8x21x260x260 ![0, 0, 2, 2] ![0, 0, 2, 2] ![0, 0, 0, 0] x v
        pads_S8x21x256x256_S8x21x260x260_000_000_220_220 h_S_ j
      = if h : 2 ≤ (j 2).val ∧ (j 2).val < 258 ∧ 2 ≤ (j 3).val ∧ (j 3).val < 258 then x (unpad j h)
        else v (Shape.Idx.first h_S_) := by
  unfold pad
  by_cases h : 2 ≤ (j 2).val ∧ (j 2).val < 258 ∧ 2 ≤ (j 3).val ∧ (j 3).val < 258
  · rw [dif_pos h, dif_pos]
    · refine congrArg x (funext fun a => Fin.ext ?_)
      match a with
      | ⟨0, _⟩ => show ((j 0).val - 0) / (0 + 1) = (j 0).val; omega
      | ⟨1, _⟩ => show ((j 1).val - 0) / (0 + 1) = (j 1).val; omega
      | ⟨2, _⟩ => show ((j 2).val - 2) / (0 + 1) = (j 2).val - 2; omega
      | ⟨3, _⟩ => show ((j 3).val - 2) / (0 + 1) = (j 3).val - 2; omega
    · intro a
      match a with
      | ⟨0, _⟩ =>
        have h0 : (j 0).val < 8 := (j 0).isLt
        show 0 ≤ (j 0).val ∧ ((j 0).val - 0) % (0 + 1) = 0 ∧ ((j 0).val - 0) / (0 + 1) < 8; omega
      | ⟨1, _⟩ =>
        have h1 : (j 1).val < 21 := (j 1).isLt
        show 0 ≤ (j 1).val ∧ ((j 1).val - 0) % (0 + 1) = 0 ∧ ((j 1).val - 0) / (0 + 1) < 21; omega
      | ⟨2, _⟩ => show 2 ≤ (j 2).val ∧ ((j 2).val - 2) % (0 + 1) = 0 ∧ ((j 2).val - 2) / (0 + 1) < 256; omega
      | ⟨3, _⟩ => show 2 ≤ (j 3).val ∧ ((j 3).val - 2) % (0 + 1) = 0 ∧ ((j 3).val - 2) / (0 + 1) < 256; omega
  · rw [dif_neg h, dif_neg]
    intro hin
    have g2 := hin ⟨2, by decide⟩
    have g3 := hin ⟨3, by decide⟩
    have h2 : 2 ≤ (j 2).val ∧ ((j 2).val - 2) % (0 + 1) = 0 ∧ ((j 2).val - 2) / (0 + 1) < 256 := g2
    have h3 : 2 ≤ (j 3).val ∧ ((j 3).val - 2) % (0 + 1) = 0 ∧ ((j 3).val - 2) / (0 + 1) < 256 := g3
    exact h (by omega)

theorem pad_real (x : S8x21x256x256.Idx → EReal) (v : S_.Idx → EReal) (xr : R4)
    (hx : ∀ i, x i = ((xr (i 0).val (i 1).val (i 2).val (i 3).val : ℝ) : EReal)) (hv : ∀ i, v i = 0)
    (j : S8x21x260x260.Idx) :
    pad S8x21x260x260 ![0, 0, 2, 2] ![0, 0, 2, 2] ![0, 0, 0, 0] x v
        pads_S8x21x256x256_S8x21x260x260_000_000_220_220 h_S_ j
      = ((pad2 (xr (j 0).val (j 1).val) (j 2).val (j 3).val : ℝ) : EReal) := by
  rw [pad_at]
  unfold pad2
  by_cases h : 2 ≤ (j 2).val ∧ (j 2).val < 258 ∧ 2 ≤ (j 3).val ∧ (j 3).val < 258
  · rw [dif_pos h, if_pos h, hx]
  · rw [dif_neg h, if_neg h, hv, EReal.coe_zero]

theorem tap_val (a : ℕ → ℕ → ℝ) (k : Fin 16) (h w : ℕ) (xv pv cv : EReal)
    (hxv : xv = ((a h w : ℝ) : EReal)) (hpv : pv = ((pad2 a (h + offY k) (w + offX k) : ℝ) : EReal))
    (hc : cv = ((dist k : ℝ) : EReal)) :
    Ideal.exp (Ideal.div (Ideal.ofBits .f32 0xBF000000#32 * ((xv - pv) * (xv - pv))) cv)
      = ((tapR a k h w : ℝ) : EReal) := by
  subst hxv hpv hc
  rw [bits_neg_half, Ideal.div_coe (dist_pos k).ne', ← EReal.coe_sub, ← EReal.coe_mul, ← EReal.coe_mul,
    ← EReal.coe_mul, Ideal.exp_coe]
  simp only [tapR, dsq, mul_one_div]

theorem gaussL_coe (a : ℕ → ℕ → ℝ) (h w : ℕ) :
    ((gaussL a h w : ℝ) : EReal) =
      0 + ((tapR a 0 h w : ℝ) : EReal) + ((tapR a 1 h w : ℝ) : EReal) + ((tapR a 2 h w : ℝ) : EReal)
        + ((tapR a 3 h w : ℝ) : EReal) + ((tapR a 4 h w : ℝ) : EReal) + ((tapR a 5 h w : ℝ) : EReal)
        + ((tapR a 6 h w : ℝ) : EReal) + ((tapR a 7 h w : ℝ) : EReal) + ((tapR a 8 h w : ℝ) : EReal)
        + ((tapR a 9 h w : ℝ) : EReal) + ((tapR a 10 h w : ℝ) : EReal) + ((tapR a 11 h w : ℝ) : EReal)
        + ((tapR a 12 h w : ℝ) : EReal) + ((tapR a 13 h w : ℝ) : EReal) + ((tapR a 14 h w : ℝ) : EReal)
        + ((tapR a 15 h w : ℝ) : EReal) := by
  unfold gaussL
  rw [show List.finRange 16 = [0, 1, 2, 3, 4, 5, 6, 7, 8, 9, 10, 11, 12, 13, 14, 15] from by decide]
  simp only [List.foldl, EReal.coe_add, EReal.coe_zero]

theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert _ _ hn ih => rw [Finset.sum_insert hn, Finset.sum_insert hn, EReal.coe_add, ih]

def idxProd4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_ix4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxProd4 (n0 := n0) (n1 := n1) (n2 := n2) (n3 := n3)).symm f]
  simp only [Fintype.sum_prod_type]
  rfl

theorem tap_stage (x : S8x21x256x256.Idx → EReal) (xr : R4)
    (hx : ∀ i, x i = ((xr (i 0).val (i 1).val (i 2).val (i 3).val : ℝ) : EReal))
    (P : S8x21x260x260.Idx → EReal)
    (hP : ∀ j, P j = ((pad2 (xr (j 0).val (j 1).val) (j 2).val (j 3).val : ℝ) : EReal))
    (k : Fin 16) (i : S8x21x256x256.Idx) (j : S8x21x260x260.Idx) (cb : BitVec 32) (d : ℝ)
    (h0 : (j 0).val = (i 0).val) (h1 : (j 1).val = (i 1).val)
    (h2 : (j 2).val = (i 2).val + offY k) (h3 : (j 3).val = (i 3).val + offX k)
    (hc : Ideal.ofBits .f32 cb = ((d : ℝ) : EReal)) (hd : d = dist k) :
    Ideal.exp (Ideal.div (Ideal.ofBits .f32 0xBF000000#32 * ((x i - P j) * (x i - P j))) (Ideal.ofBits .f32 cb))
      = ((tapR (xr (i 0).val (i 1).val) k (i 2).val (i 3).val : ℝ) : EReal) := by
  subst hd
  refine tap_val _ k _ _ _ _ _ (hx i) ?_ hc
  rw [hP, h0, h1, h2, h3]

theorem pad_value (b : BitVec 32) (hb : b = 0#32) : FloatOps.sitofp (F := Ideal) .f32 b = 0 := by
  subst hb
  show (((0#32 : BitVec 32).toInt : ℝ) : EReal) = 0
  simp

end Cert.ReferenceIdeal.Hand

end
-- ==== Proof.MseRefB.lean ====
import proofs.«413255_j25812753449052_3_alg».proof.Proof.MseRefA

noncomputable section

namespace Cert.ReferenceIdeal.Hand

open Cert.ReferenceIdeal Cert.ReferenceIdeal.Gen Cert.ReferenceIdeal.ReadP Idealize.ShloMosaic
open Cert.Spec

section
variable (x : (⟨S8x21x256x256, .f32⟩ : BufTy).Contents (Elt Ideal)) (xr : R4)
  (hx : ∀ i, x i = ((xr (i 0).val (i 1).val (i 2).val (i 3).val : ℝ) : EReal))
include hx

theorem padX (j : S8x21x260x260.Idx) :
    val_main_v5 (F := Ideal) x j = ((pad2 (xr (j 0).val (j 1).val) (j 2).val (j 3).val : ℝ) : EReal) := by
  unfold val_main_v5
  exact pad_real x _ xr hx (fun i => pad_value _ rfl) j

theorem tx0 (i : S8x21x256x256.Idx) :
    val_main_v14 (F := Ideal) x i = ((tapR (xr (i 0).val (i 1).val) 0 (i 2).val (i 3).val : ℝ) : EReal) := by
  simp only [val_main_v14_apply, val_main_v13_apply, val_main_v12_apply, val_main_cst_1_apply, val_main_v11_apply,
    val_main_v10_apply, val_main_cst_0_apply, val_main_v9_apply, val_main_v8_apply, val_main_v7_apply,
    Ideal.hostUnary_exp_def, Ideal.hostDivf_def, Ideal.mulf_def, Ideal.subf_def, Ideal.ofBits_def]
  exact tap_stage x xr hx _ (padX x xr hx) 0 i (idx_main_v7 i) _ _ rfl rfl rfl rfl bits_d8 rfl

theorem tx1 (i : S8x21x256x256.Idx) :
    val_main_v23 (F := Ideal) x i = ((tapR (xr (i 0).val (i 1).val) 1 (i 2).val (i 3).val : ℝ) : EReal) := by
  simp only [val_main_v23_apply, val_main_v22_apply, val_main_v21_apply, val_main_cst_3_apply, val_main_v20_apply,
    val_main_v19_apply, val_main_cst_2_apply, val_main_v18_apply, val_main_v17_apply, val_main_v16_apply,
    Ideal.hostUnary_exp_def, Ideal.hostDivf_def, Ideal.mulf_def, Ideal.subf_def, Ideal.ofBits_def]
  exact tap_stage x xr hx _ (padX x xr hx) 1 i (idx_main_v16 i) _ _ rfl rfl rfl (Nat.add_comm _ _) bits_d5 rfl

theorem tx2 (i : S8x21x256x256.Idx) :
    val_main_v32 (F := Ideal) x i = ((tapR (xr (i 0).val (i 1).val) 2 (i 2).val (i 3).val : ℝ) : EReal) := by
  simp only [val_main_v32_apply, val_main_v31_apply, val_main_v30_apply, val_main_cst_5_apply, val_main_v29_apply,
    val_main_v28_apply, val_main_cst_4_apply, val_main_v27_apply, val_main_v26_apply, val_main_v25_apply,
    Ideal.hostUnary_exp_def, Ideal.hostDivf_def, Ideal.mulf_def, Ideal.subf_def, Ideal.ofBits_def]
  exact tap_stage x xr hx _ (padX x xr hx) 2 i (idx_main_v25 i) _ _ rfl rfl rfl (Nat.add_comm _ _) bits_d5 rfl

theorem tx3 (i : S8x21x256x256.Idx) :
    val_main_v41 (F := Ideal) x i = ((tapR (xr (i 0).val (i 1).val) 3 (i 2).val (i 3).val : ℝ) : EReal) := by
  simp only [val_main_v41_apply, val_main_v40_apply, val_main_v39_apply, val_main_cst_7_apply, val_main_v38_apply,
    val_main_v37_apply, val_main_cst_6_apply, val_main_v36_apply, val_main_v35_apply, val_main_v34_apply,
    Ideal.hostUnary_exp_def, Ideal.hostDivf_def, Ideal.mulf_def, Ideal.subf_def, Ideal.ofBits_def]
  exact tap_stage x xr hx _ (padX x xr hx) 3 i (idx_main_v34 i) _ _ rfl rfl rfl (Nat.add_comm _ _) bits_d8 rfl

theorem tx4 (i : S8x21x256x256.Idx) :
    val_main_v50 (F := Ideal) x i = ((tapR (xr (i 0).val (i 1).val) 4 (i 2).val (i 3).val : ℝ) : EReal) := by
  simp only [val_main_v50_apply, val_main_v49_apply, val_main_v48_apply, val_main_cst_9_apply, val_main_v47_apply,
    val_main_v46_apply, val_main_cst_8_apply, val_main_v45_apply, val_main_v44_apply, val_main_v43_apply,
    Ideal.hostUnary_exp_def, Ideal.hostDivf_def, Ideal.mulf_def, Ideal.subf_def, Ideal.ofBits_def]
  exact tap_stage x xr hx _ (padX x xr hx) 4 i (idx_main_v43 i) _ _ rfl rfl (Nat.add_comm _ _) rfl bits_d5 rfl

theorem tx5 (i : S8x21x256x256.Idx) :
    val_main_v59 (F := Ideal) x i = ((tapR (xr (i 0).val (i 1).val) 5 (i 2).val (i 3).val : ℝ) : EReal) := by
  simp only [val_main_v59_apply, val_main_v58_apply, val_main_v57_apply, val_main_cst_11_apply, val_main_v56_apply,
    val_main_v55_apply, val_main_cst_10_apply, val_main_v54_apply, val_main_v53_apply, val_main_v52_apply,
    Ideal.hostUnary_exp_def, Ideal.hostDivf_def, Ideal.mulf_def, Ideal.subf_def, Ideal.ofBits_def]
  exact tap_stage x xr hx _ (padX x xr hx) 5 i (idx_main_v52 i) _ _ rfl rfl (Nat.add_comm _ _) (Nat.add_comm _ _)
    bits_d2 rfl

theorem tx6 (i : S8x21x256x256.Idx) :
    val_main_v68 (F := Ideal) x i = ((tapR (xr (i 0).val (i 1).val) 6 (i 2).val (i 3).val : ℝ) : EReal) := by
  simp only [val_main_v68_apply, val_main_v67_apply, val_main_v66_apply, val_main_cst_13_apply, val_main_v65_apply,
    val_main_v64_apply, val_main_cst_12_apply, val_main_v63_apply, val_main_v62_apply, val_main_v61_apply,
    Ideal.hostUnary_exp_def, Ideal.hostDivf_def, Ideal.mulf_def, Ideal.subf_def, Ideal.ofBits_def]
  exact tap_stage x xr hx _ (padX x xr hx) 6 i (idx_main_v61 i) _ _ rfl rfl (Nat.add_comm _ _) (Nat.add_comm _ _)
    bits_d2 rfl

theorem tx7 (i : S8x21x256x256.Idx) :
    val_main_v77 (F := Ideal) x i = ((tapR (xr (i 0).val (i 1).val) 7 (i 2).val (i 3).val : ℝ) : EReal) := by
  simp only [val_main_v77_apply, val_main_v76_apply, val_main_v75_apply, val_main_cst_15_apply, val_main_v74_apply,
    val_main_v73_apply, val_main_cst_14_apply, val_main_v72_apply, val_main_v71_apply, val_main_v70_apply,
    Ideal.hostUnary_exp_def, Ideal.hostDivf_def, Ideal.mulf_def, Ideal.subf_def, Ideal.ofBits_def]
  exact tap_stage x xr hx _ (padX x xr hx) 7 i (idx_main_v70 i) _ _ rfl rfl (Nat.add_comm _ _) (Nat.add_comm _ _)
    bits_d5 rfl

theorem tx8 (i : S8x21x256x256.Idx) :
    val_main_v86 (F := Ideal) x i = ((tapR (xr (i 0).val (i 1).val) 8 (i 2).val (i 3).val : ℝ) : EReal) := by
  simp only [val_main_v86_apply, val_main_v85_apply, val_main_v84_apply, val_main_cst_17_apply, val_main_v83_apply,
    val_main_v82_apply, val_main_cst_16_apply, val_main_v81_apply, val_main_v80_apply, val_main_v79_apply,
    Ideal.hostUnary_exp_def, Ideal.hostDivf_def, Ideal.mulf_def, Ideal.subf_def, Ideal.ofBits_def]
  exact tap_stage x xr hx _ (padX x xr hx) 8 i (idx_main_v79 i) _ _ rfl rfl (Nat.add_comm _ _) rfl bits_d5 rfl

theorem tx9 (i : S8x21x256x256.Idx) :
    val_main_v95 (F := Ideal) x i = ((tapR (xr (i 0).val (i 1).val) 9 (i 2).val (i 3).val : ℝ) : EReal) := by
  simp only [val_main_v95_apply, val_main_v94_apply, val_main_v93_apply, val_main_cst_19_apply, val_main_v92_apply,
    val_main_v91_apply, val_main_cst_18_apply, val_main_v90_apply, val_main_v89_apply, val_main_v88_apply,
    Ideal.hostUnary_exp_def, Ideal.hostDivf_def, Ideal.mulf_def, Ideal.subf_def, Ideal.ofBits_def]
  exact tap_stage x xr hx _ (padX x xr hx) 9 i (idx_main_v88 i) _ _ rfl rfl (Nat.add_comm _ _) (Nat.add_comm _ _)
    bits_d2 rfl

theorem tx10 (i : S8x21x256x256.Idx) :
    val_main_v104 (F := Ideal) x i = ((tapR (xr (i 0).val (i 1).val) 10 (i 2).val (i 3).val : ℝ) : EReal) := by
  simp only [val_main_v104_apply, val_main_v103_apply, val_main_v102_apply, val_main_cst_21_apply,
    val_main_v101_apply, val_main_v100_apply, val_main_cst_20_apply, val_main_v99_apply, val_main_v98_apply,
    val_main_v97_apply, Ideal.hostUnary_exp_def, Ideal.hostDivf_def, Ideal.mulf_def, Ideal.subf_def, Ideal.ofBits_def]
  exact tap_stage x xr hx _ (padX x xr hx) 10 i (idx_main_v97 i) _ _ rfl rfl (Nat.add_comm _ _) (Nat.add_comm _ _)
    bits_d2 rfl

theorem tx11 (i : S8x21x256x256.Idx) :
    val_main_v113 (F := Ideal) x i = ((tapR (xr (i 0).val (i 1).val) 11 (i 2).val (i 3).val : ℝ) : EReal) := by
  simp only [val_main_v113_apply, val_main_v112_apply, val_main_v111_apply, val_main_cst_23_apply,
    val_main_v110_apply, val_main_v109_apply, val_main_cst_22_apply, val_main_v108_apply, val_main_v107_apply,
    val_main_v106_apply, Ideal.hostUnary_exp_def, Ideal.hostDivf_def, Ideal.mulf_def, Ideal.subf_def, Ideal.ofBits_def]
  exact tap_stage x xr hx _ (padX x xr hx) 11 i (idx_main_v106 i) _ _ rfl rfl (Nat.add_comm _ _) (Nat.add_comm _ _)
    bits_d5 rfl

theorem tx12 (i : S8x21x256x256.Idx) :
    val_main_v122 (F := Ideal) x i = ((tapR (xr (i 0).val (i 1).val) 12 (i 2).val (i 3).val : ℝ) : EReal) := by
  simp only [val_main_v122_apply, val_main_v121_apply, val_main_v120_apply, val_main_cst_25_apply,
    val_main_v119_apply, val_main_v118_apply, val_main_cst_24_apply, val_main_v117_apply, val_main_v116_apply,
    val_main_v115_apply, Ideal.hostUnary_exp_def, Ideal.hostDivf_def, Ideal.mulf_def, Ideal.subf_def, Ideal.ofBits_def]
  exact tap_stage x xr hx _ (padX x xr hx) 12 i (idx_main_v115 i) _ _ rfl rfl (Nat.add_comm _ _) rfl bits_d8 rfl

theorem tx13 (i : S8x21x256x256.Idx) :
    val_main_v131 (F := Ideal) x i = ((tapR (xr (i 0).val (i 1).val) 13 (i 2).val (i 3).val : ℝ) : EReal) := by
  simp only [val_main_v131_apply, val_main_v130_apply, val_main_v129_apply, val_main_cst_27_apply,
    val_main_v128_apply, val_main_v127_apply, val_main_cst_26_apply, val_main_v126_apply, val_main_v125_apply,
    val_main_v124_apply, Ideal.hostUnary_exp_def, Ideal.hostDivf_def, Ideal.mulf_def, Ideal.subf_def, Ideal.ofBits_def]
  exact tap_stage x xr hx _ (padX x xr hx) 13 i (idx_main_v124 i) _ _ rfl rfl (Nat.add_comm _ _) (Nat.add_comm _ _)
    bits_d5 rfl

theorem tx14 (i : S8x21x256x256.Idx) :
    val_main_v140 (F := Ideal) x i = ((tapR (xr (i 0).val (i 1).val) 14 (i 2).val (i 3).val : ℝ) : EReal) := by
  simp only [val_main_v140_apply, val_main_v139_apply, val_main_v138_apply, val_main_cst_29_apply,
    val_main_v137_apply, val_main_v136_apply, val_main_cst_28_apply, val_main_v135_apply, val_main_v134_apply,
    val_main_v133_apply, Ideal.hostUnary_exp_def, Ideal.hostDivf_def, Ideal.mulf_def, Ideal.subf_def, Ideal.ofBits_def]
  exact tap_stage x xr hx _ (padX x xr hx) 14 i (idx_main_v133 i) _ _ rfl rfl (Nat.add_comm _ _) (Nat.add_comm _ _)
    bits_d5 rfl

theorem tx15 (i : S8x21x256x256.Idx) :
    val_main_v149 (F := Ideal) x i = ((tapR (xr (i 0).val (i 1).val) 15 (i 2).val (i 3).val : ℝ) : EReal) := by
  simp only [val_main_v149_apply, val_main_v148_apply, val_main_v147_apply, val_main_cst_31_apply,
    val_main_v146_apply, val_main_v145_apply, val_main_cst_30_apply, val_main_v144_apply, val_main_v143_apply,
    val_main_v142_apply, Ideal.hostUnary_exp_def, Ideal.hostDivf_def, Ideal.mulf_def, Ideal.subf_def, Ideal.ofBits_def]
  exact tap_stage x xr hx _ (padX x xr hx) 15 i (idx_main_v142 i) _ _ rfl rfl (Nat.add_comm _ _) (Nat.add_comm _ _)
    bits_d8 rfl

theorem gaussX (i : S8x21x256x256.Idx) :
    val_main_v150 (F := Ideal) x i = ((gaussL (xr (i 0).val (i 1).val) (i 2).val (i 3).val : ℝ) : EReal) := by
  rw [val_main_v150_apply, val_main_v141_apply, val_main_v132_apply, val_main_v123_apply, val_main_v114_apply,
    val_main_v105_apply, val_main_v96_apply, val_main_v87_apply, val_main_v78_apply, val_main_v69_apply,
    val_main_v60_apply, val_main_v51_apply, val_main_v42_apply, val_main_v33_apply, val_main_v24_apply,
    val_main_v15_apply, val_main_v6_apply, val_main_cst_apply,
    tx0 x xr hx, tx1 x xr hx, tx2 x xr hx, tx3 x xr hx, tx4 x xr hx, tx5 x xr hx, tx6 x xr hx, tx7 x xr hx,
    tx8 x xr hx, tx9 x xr hx, tx10 x xr hx, tx11 x xr hx, tx12 x xr hx, tx13 x xr hx, tx14 x xr hx, tx15 x xr hx,
    gaussL_coe]
  simp only [Ideal.addf_def, Ideal.ofBits_def, Ideal.ofBits_zero_f32]

end

end Cert.ReferenceIdeal.Hand

end
-- ==== Proof.MseRefC.lean ====
import proofs.«413255_j25812753449052_3_alg».proof.Proof.MseRefA

noncomputable section

namespace Cert.ReferenceIdeal.Hand

open Cert.ReferenceIdeal Cert.ReferenceIdeal.Gen Cert.ReferenceIdeal.ReadP Idealize.ShloMosaic
open Cert.Spec

section
variable (l : (⟨S8x21x256x256, .f32⟩ : BufTy).Contents (Elt Ideal)) (lr : R4)
  (hl : ∀ i, l i = ((lr (i 0).val (i 1).val (i 2).val (i 3).val : ℝ) : EReal))
include hl

theorem padL (j : S8x21x260x260.Idx) :
    val_main_v151 (F := Ideal) l j = ((pad2 (lr (j 0).val (j 1).val) (j 2).val (j 3).val : ℝ) : EReal) := by
  unfold val_main_v151
  exact pad_real l _ lr hl (fun i => pad_value _ rfl) j

theorem tl0 (i : S8x21x256x256.Idx) :
    val_main_v160 (F := Ideal) l i = ((tapR (lr (i 0).val (i 1).val) 0 (i 2).val (i 3).val : ℝ) : EReal) := by
  simp only [val_main_v160_apply, val_main_v159_apply, val_main_v158_apply, val_main_cst_35_apply,
    val_main_v157_apply, val_main_v156_apply, val_main_cst_34_apply, val_main_v155_apply, val_main_v154_apply,
    val_main_v153_apply, Ideal.hostUnary_exp_def, Ideal.hostDivf_def, Ideal.mulf_def, Ideal.subf_def, Ideal.ofBits_def]
  exact tap_stage l lr hl _ (padL l lr hl) 0 i (idx_main_v153 i) _ _ rfl rfl rfl rfl bits_d8 rfl

theorem tl1 (i : S8x21x256x256.Idx) :
    val_main_v169 (F := Ideal) l i = ((tapR (lr (i 0).val (i 1).val) 1 (i 2).val (i 3).val : ℝ) : EReal) := by
  simp only [val_main_v169_apply, val_main_v168_apply, val_main_v167_apply, val_main_cst_37_apply,
    val_main_v166_apply, val_main_v165_apply, val_main_cst_36_apply, val_main_v164_apply, val_main_v163_apply,
    val_main_v162_apply, Ideal.hostUnary_exp_def, Ideal.hostDivf_def, Ideal.mulf_def, Ideal.subf_def, Ideal.ofBits_def]
  exact tap_stage l lr hl _ (padL l lr hl) 1 i (idx_main_v162 i) _ _ rfl rfl rfl (Nat.add_comm _ _) bits_d5 rfl

theorem tl2 (i : S8x21x256x256.Idx) :
    val_main_v178 (F := Ideal) l i = ((tapR (lr (i 0).val (i 1).val) 2 (i 2).val (i 3).val : ℝ) : EReal) := by
  simp only [val_main_v178_apply, val_main_v177_apply, val_main_v176_apply, val_main_cst_39_apply,
    val_main_v175_apply, val_main_v174_apply, val_main_cst_38_apply, val_main_v173_apply, val_main_v172_apply,
    val_main_v171_apply, Ideal.hostUnary_exp_def, Ideal.hostDivf_def, Ideal.mulf_def, Ideal.subf_def, Ideal.ofBits_def]
  exact tap_stage l lr hl _ (padL l lr hl) 2 i (idx_main_v171 i) _ _ rfl rfl rfl (Nat.add_comm _ _) bits_d5 rfl

theorem tl3 (i : S8x21x256x256.Idx) :
    val_main_v187 (F := Ideal) l i = ((tapR (lr (i 0).val (i 1).val) 3 (i 2).val (i 3).val : ℝ) : EReal) := by
  simp only [val_main_v187_apply, val_main_v186_apply, val_main_v185_apply, val_main_cst_41_apply,
    val_main_v184_apply, val_main_v183_apply, val_main_cst_40_apply, val_main_v182_apply, val_main_v181_apply,
    val_main_v180_apply, Ideal.hostUnary_exp_def, Ideal.hostDivf_def, Ideal.mulf_def, Ideal.subf_def, Ideal.ofBits_def]
  exact tap_stage l lr hl _ (padL l lr hl) 3 i (idx_main_v180 i) _ _ rfl rfl rfl (Nat.add_comm _ _) bits_d8 rfl

theorem tl4 (i : S8x21x256x256.Idx) :
    val_main_v196 (F := Ideal) l i = ((tapR (lr (i 0).val (i 1).val) 4 (i 2).val (i 3).val : ℝ) : EReal) := by
  simp only [val_main_v196_apply, val_main_v195_apply, val_main_v194_apply, val_main_cst_43_apply,
    val_main_v193_apply, val_main_v192_apply, val_main_cst_42_apply, val_main_v191_apply, val_main_v190_apply,
    val_main_v189_apply, Ideal.hostUnary_exp_def, Ideal.hostDivf_def, Ideal.mulf_def, Ideal.subf_def, Ideal.ofBits_def]
  exact tap_stage l lr hl _ (padL l lr hl) 4 i (idx_main_v189 i) _ _ rfl rfl (Nat.add_comm _ _) rfl bits_d5 rfl

theorem tl5 (i : S8x21x256x256.Idx) :
    val_main_v205 (F := Ideal) l i = ((tapR (lr (i 0).val (i 1).val) 5 (i 2).val (i 3).val : ℝ) : EReal) := by
  simp only [val_main_v205_apply, val_main_v204_apply, val_main_v203_apply, val_main_cst_45_apply,
    val_main_v202_apply, val_main_v201_apply, val_main_cst_44_apply, val_main_v200_apply, val_main_v199_apply,
    val_main_v198_apply, Ideal.hostUnary_exp_def, Ideal.hostDivf_def, Ideal.mulf_def, Ideal.subf_def, Ideal.ofBits_def]
  exact tap_stage l lr hl _ (padL l lr hl) 5 i (idx_main_v198 i) _ _ rfl rfl (Nat.add_comm _ _) (Nat.add_comm _ _)
    bits_d2 rfl

theorem tl6 (i : S8x21x256x256.Idx) :
    val_main_v214 (F := Ideal) l i = ((tapR (lr (i 0).val (i 1).val) 6 (i 2).val (i 3).val : ℝ) : EReal) := by
  simp only [val_main_v214_apply, val_main_v213_apply, val_main_v212_apply, val_main_cst_47_apply,
    val_main_v211_apply, val_main_v210_apply, val_main_cst_46_apply, val_main_v209_apply, val_main_v208_apply,
    val_main_v207_apply, Ideal.hostUnary_exp_def, Ideal.hostDivf_def, Ideal.mulf_def, Ideal.subf_def, Ideal.ofBits_def]
  exact tap_stage l lr hl _ (padL l lr hl) 6 i (idx_main_v207 i) _ _ rfl rfl (Nat.add_comm _ _) (Nat.add_comm _ _)
    bits_d2 rfl

theorem tl7 (i : S8x21x256x256.Idx) :
    val_main_v223 (F := Ideal) l i = ((tapR (lr (i 0).val (i 1).val) 7 (i 2).val (i 3).val : ℝ) : EReal) := by
  simp only [val_main_v223_apply, val_main_v222_apply, val_main_v221_apply, val_main_cst_49_apply,
    val_main_v220_apply, val_main_v219_apply, val_main_cst_48_apply, val_main_v218_apply, val_main_v217_apply,
    val_main_v216_apply, Ideal.hostUnary_exp_def, Ideal.hostDivf_def, Ideal.mulf_def, Ideal.subf_def, Ideal.ofBits_def]
  exact tap_stage l lr hl _ (padL l lr hl) 7 i (idx_main_v216 i) _ _ rfl rfl (Nat.add_comm _ _) (Nat.add_comm _ _)
    bits_d5 rfl

theorem tl8 (i : S8x21x256x256.Idx) :
    val_main_v232 (F := Ideal) l i = ((tapR (lr (i 0).val (i 1).val) 8 (i 2).val (i 3).val : ℝ) : EReal) := by
  simp only [val_main_v232_apply, val_main_v231_apply, val_main_v230_apply, val_main_cst_51_apply,
    val_main_v229_apply, val_main_v228_apply, val_main_cst_50_apply, val_main_v227_apply, val_main_v226_apply,
    val_main_v225_apply, Ideal.hostUnary_exp_def, Ideal.hostDivf_def, Ideal.mulf_def, Ideal.subf_def, Ideal.ofBits_def]
  exact tap_stage l lr hl _ (padL l lr hl) 8 i (idx_main_v225 i) _ _ rfl rfl (Nat.add_comm _ _) rfl bits_d5 rfl

theorem tl9 (i : S8x21x256x256.Idx) :
    val_main_v241 (F := Ideal) l i = ((tapR (lr (i 0).val (i 1).val) 9 (i 2).val (i 3).val : ℝ) : EReal) := by
  simp only [val_main_v241_apply, val_main_v240_apply, val_main_v239_apply, val_main_cst_53_apply,
    val_main_v238_apply, val_main_v237_apply, val_main_cst_52_apply, val_main_v236_apply, val_main_v235_apply,
    val_main_v234_apply, Ideal.hostUnary_exp_def, Ideal.hostDivf_def, Ideal.mulf_def, Ideal.subf_def, Ideal.ofBits_def]
  exact tap_stage l lr hl _ (padL l lr hl) 9 i (idx_main_v234 i) _ _ rfl rfl (Nat.add_comm _ _) (Nat.add_comm _ _)
    bits_d2 rfl

theorem tl10 (i : S8x21x256x256.Idx) :
    val_main_v250 (F := Ideal) l i = ((tapR (lr (i 0).val (i 1).val) 10 (i 2).val (i 3).val : ℝ) : EReal) := by
  simp only [val_main_v250_apply, val_main_v249_apply, val_main_v248_apply, val_main_cst_55_apply,
    val_main_v247_apply, val_main_v246_apply, val_main_cst_54_apply, val_main_v245_apply, val_main_v244_apply,
    val_main_v243_apply, Ideal.hostUnary_exp_def, Ideal.hostDivf_def, Ideal.mulf_def, Ideal.subf_def, Ideal.ofBits_def]
  exact tap_stage l lr hl _ (padL l lr hl) 10 i (idx_main_v243 i) _ _ rfl rfl (Nat.add_comm _ _) (Nat.add_comm _ _)
    bits_d2 rfl

theorem tl11 (i : S8x21x256x256.Idx) :
    val_main_v259 (F := Ideal) l i = ((tapR (lr (i 0).val (i 1).val) 11 (i 2).val (i 3).val : ℝ) : EReal) := by
  simp only [val_main_v259_apply, val_main_v258_apply, val_main_v257_apply, val_main_cst_57_apply,
    val_main_v256_apply, val_main_v255_apply, val_main_cst_56_apply, val_main_v254_apply, val_main_v253_apply,
    val_main_v252_apply, Ideal.hostUnary_exp_def, Ideal.hostDivf_def, Ideal.mulf_def, Ideal.subf_def, Ideal.ofBits_def]
  exact tap_stage l lr hl _ (padL l lr hl) 11 i (idx_main_v252 i) _ _ rfl rfl (Nat.add_comm _ _) (Nat.add_comm _ _)
    bits_d5 rfl

theorem tl12 (i : S8x21x256x256.Idx) :
    val_main_v268 (F := Ideal) l i = ((tapR (lr (i 0).val (i 1).val) 12 (i 2).val (i 3).val : ℝ) : EReal) := by
  simp only [val_main_v268_apply, val_main_v267_apply, val_main_v266_apply, val_main_cst_59_apply,
    val_main_v265_apply, val_main_v264_apply, val_main_cst_58_apply, val_main_v263_apply, val_main_v262_apply,
    val_main_v261_apply, Ideal.hostUnary_exp_def, Ideal.hostDivf_def, Ideal.mulf_def, Ideal.subf_def, Ideal.ofBits_def]
  exact tap_stage l lr hl _ (padL l lr hl) 12 i (idx_main_v261 i) _ _ rfl rfl (Nat.add_comm _ _) rfl bits_d8 rfl

theorem tl13 (i : S8x21x256x256.Idx) :
    val_main_v277 (F := Ideal) l i = ((tapR (lr (i 0).val (i 1).val) 13 (i 2).val (i 3).val : ℝ) : EReal) := by
  simp only [val_main_v277_apply, val_main_v276_apply, val_main_v275_apply, val_main_cst_61_apply,
    val_main_v274_apply, val_main_v273_apply, val_main_cst_60_apply, val_main_v272_apply, val_main_v271_apply,
    val_main_v270_apply, Ideal.hostUnary_exp_def, Ideal.hostDivf_def, Ideal.mulf_def, Ideal.subf_def, Ideal.ofBits_def]
  exact tap_stage l lr hl _ (padL l lr hl) 13 i (idx_main_v270 i) _ _ rfl rfl (Nat.add_comm _ _) (Nat.add_comm _ _)
    bits_d5 rfl

theorem tl14 (i : S8x21x256x256.Idx) :
    val_main_v286 (F := Ideal) l i = ((tapR (lr (i 0).val (i 1).val) 14 (i 2).val (i 3).val : ℝ) : EReal) := by
  simp only [val_main_v286_apply, val_main_v285_apply, val_main_v284_apply, val_main_cst_63_apply,
    val_main_v283_apply, val_main_v282_apply, val_main_cst_62_apply, val_main_v281_apply, val_main_v280_apply,
    val_main_v279_apply, Ideal.hostUnary_exp_def, Ideal.hostDivf_def, Ideal.mulf_def, Ideal.subf_def, Ideal.ofBits_def]
  exact tap_stage l lr hl _ (padL l lr hl) 14 i (idx_main_v279 i) _ _ rfl rfl (Nat.add_comm _ _) (Nat.add_comm _ _)
    bits_d5 rfl

theorem tl15 (i : S8x21x256x256.Idx) :
    val_main_v295 (F := Ideal) l i = ((tapR (lr (i 0).val (i 1).val) 15 (i 2).val (i 3).val : ℝ) : EReal) := by
  simp only [val_main_v295_apply, val_main_v294_apply, val_main_v293_apply, val_main_cst_65_apply,
    val_main_v292_apply, val_main_v291_apply, val_main_cst_64_apply, val_main_v290_apply, val_main_v289_apply,
    val_main_v288_apply, Ideal.hostUnary_exp_def, Ideal.hostDivf_def, Ideal.mulf_def, Ideal.subf_def, Ideal.ofBits_def]
  exact tap_stage l lr hl _ (padL l lr hl) 15 i (idx_main_v288 i) _ _ rfl rfl (Nat.add_comm _ _) (Nat.add_comm _ _)
    bits_d8 rfl

theorem gaussLbl (i : S8x21x256x256.Idx) :
    val_main_v296 (F := Ideal) l i = ((gaussL (lr (i 0).val (i 1).val) (i 2).val (i 3).val : ℝ) : EReal) := by
  rw [val_main_v296_apply, val_main_v287_apply, val_main_v278_apply, val_main_v269_apply, val_main_v260_apply,
    val_main_v251_apply, val_main_v242_apply, val_main_v233_apply, val_main_v224_apply, val_main_v215_apply,
    val_main_v206_apply, val_main_v197_apply, val_main_v188_apply, val_main_v179_apply, val_main_v170_apply,
    val_main_v161_apply, val_main_v152_apply, val_main_cst_33_apply,
    tl0 l lr hl, tl1 l lr hl, tl2 l lr hl, tl3 l lr hl, tl4 l lr hl, tl5 l lr hl, tl6 l lr hl, tl7 l lr hl,
    tl8 l lr hl, tl9 l lr hl, tl10 l lr hl, tl11 l lr hl, tl12 l lr hl, tl13 l lr hl, tl14 l lr hl, tl15 l lr hl,
    gaussL_coe]
  simp only [Ideal.addf_def, Ideal.ofBits_def, Ideal.ofBits_zero_f32]

end

end Cert.ReferenceIdeal.Hand

end
-- ==== Proof.MseRefD.lean ====
import proofs.«413255_j25812753449052_3_alg».proof.Proof.MseRefB
import proofs.«413255_j25812753449052_3_alg».proof.Proof.MseRefC

noncomputable section

namespace Cert.ReferenceIdeal.Hand

open Cert.ReferenceIdeal Cert.ReferenceIdeal.Gen Cert.ReferenceIdeal.ReadP Idealize.ShloMosaic
open Idealize.ShloMosaic.ValueIdx Cert.Spec

theorem sqDiff_at (x l : (⟨S8x21x256x256, .f32⟩ : BufTy).Contents (Elt Ideal)) (xr lr : R4)
    (hx : ∀ i, x i = ((xr (i 0).val (i 1).val (i 2).val (i 3).val : ℝ) : EReal))
    (hl : ∀ i, l i = ((lr (i 0).val (i 1).val (i 2).val (i 3).val : ℝ) : EReal)) (j : S8x21x256x256.Idx) :
    val_main_v298 (F := Ideal) x l j
      = (((gauss (xr (j 0).val (j 1).val) (j 2).val (j 3).val - gauss (lr (j 0).val (j 1).val) (j 2).val (j 3).val)
          * (gauss (xr (j 0).val (j 1).val) (j 2).val (j 3).val
            - gauss (lr (j 0).val (j 1).val) (j 2).val (j 3).val) : ℝ) : EReal) := by
  rw [val_main_v298_apply, val_main_v297_apply, gaussX x xr hx, gaussLbl l lr hl, gaussL_eq, gaussL_eq]
  simp only [Ideal.mulf_def, Ideal.subf_def]
  rw [← EReal.coe_sub, ← EReal.coe_mul]

theorem sqSum_total (x l : (⟨S8x21x256x256, .f32⟩ : BufTy).Contents (Elt Ideal)) (xr lr : R4)
    (hx : ∀ i, x i = ((xr (i 0).val (i 1).val (i 2).val (i 3).val : ℝ) : EReal))
    (hl : ∀ i, l i = ((lr (i 0).val (i 1).val (i 2).val (i 3).val : ℝ) : EReal)) :
    ∑ j : S8x21x256x256.Idx, val_main_v298 (F := Ideal) x l j = ((sqSum xr lr : ℝ) : EReal) := by
  rw [Finset.sum_congr rfl (fun j _ => sqDiff_at x l xr lr hx hl j), sum_ix4]
  unfold sqSum
  simp only [coe_sum]

theorem mseR (x l : (⟨S8x21x256x256, .f32⟩ : BufTy).Contents (Elt Ideal)) (xr lr : Cert.Spec.R4)
    (hx : ∀ i, x i = ((xr (i 0).val (i 1).val (i 2).val (i 3).val : ℝ) : EReal))
    (hl : ∀ i, l i = ((lr (i 0).val (i 1).val (i 2).val (i 3).val : ℝ) : EReal)) :
    Cert.ReferenceIdeal.ReadP.val_main_v300 (F := Ideal) x l = fun _ => ((Cert.Spec.mse xr lr : ℝ) : EReal) := by
  funext i0
  rw [val_main_v300_apply, val_main_v299_apply, val_main_cst_67_apply, val_main_cst_66_apply,
    sqSum_total x l xr lr hx hl]
  simp only [Ideal.hostDivf_def, Ideal.ofBits_def, Ideal.ofBits_zero_f32, zero_add]
  rw [bits_count, Ideal.div_coe (by norm_num), ← EReal.coe_mul]
  unfold mse
  rw [mul_one_div]

end Cert.ReferenceIdeal.Hand

end
-- ==== Proof.RefRunOps.lean ====
import proofs.«413255_j25812753449052_3_alg».proof.Proof.Gen.ReferenceIdeal
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable (F : FTy → Type) in
abbrev T4 := (⟨S8x21x256x256, .f32⟩ : BufTy).Contents (Elt F)
variable (F : FTy → Type) in
abbrev Tp := (⟨S8x21x260x260, .f32⟩ : BufTy).Contents (Elt F)
variable (F : FTy → Type) in
abbrev T0 := (⟨S_, .f32⟩ : BufTy).Contents (Elt F)

variable {F : FTy → Type} [FloatOps F]

abbrev ops_part0 : List (HloOp τ sig (Elt F)) :=
  [ TRef.nullary (TRef.of (T := ⟨S_, .f32⟩) main_call0_cst) (constant S_ .f32 0xFF800000#32),
    TRef.binary (TRef.of (T := ⟨S8x21x256x256, .f32⟩) main_arg0) (TRef.of (T := ⟨S_, .f32⟩) main_call0_cst) (TRef.of (T := ⟨S8x256x256, .f32⟩) main_call0_v0) (fun x v => Host.reduce FloatOps.maximumf x v reducesTo_S8x21x256x256_S8x256x256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x256x256, .f32⟩) main_call0_v1) (broadcastInDim S8x256x256 ![] bcast_S_S8x256x256),
    TRef.binary (TRef.of (T := ⟨S8x256x256, .f32⟩) main_call0_v1) (TRef.of (T := ⟨S8x256x256, .f32⟩) main_call0_v0) (TRef.of (T := ⟨S8x256x256, .f32⟩) main_call0_v2) maximumf,
    TRef.unary (TRef.of (T := ⟨S8x256x256, .f32⟩) main_call0_v2) (TRef.of (T := ⟨S8x1x256x256, .f32⟩) main_call0_v3) (broadcastInDim S8x1x256x256 ![0, 2, 3] bcast_S8x256x256_S8x1x256x256_0_2_3),
    TRef.unary (TRef.of (T := ⟨S8x1x256x256, .f32⟩) main_call0_v3) (TRef.of (T := ⟨S8x21x256x256, .f32⟩) main_call0_v4) (broadcastInDim S8x21x256x256 ![0, 1, 2, 3] bcast_S8x1x256x256_S8x21x256x256_0_1_2_3),
    TRef.binary (TRef.of (T := ⟨S8x21x256x256, .f32⟩) main_arg0) (TRef.of (T := ⟨S8x21x256x256, .f32⟩) main_call0_v4) (TRef.of (T := ⟨S8x21x256x256, .f32⟩) main_call0_v5) subf,
    TRef.unary (TRef.of (T := ⟨S8x21x256x256, .f32⟩) main_call0_v5) (TRef.of (T := ⟨S8x21x256x256, .f32⟩) main_call0_v6) Host.exp,
    TRef.nullary (TRef.of (T := ⟨S_, .f32⟩) main_call0_cst_1) (constant S_ .f32 0x00000000#32),
    TRef.binary (TRef.of (T := ⟨S8x21x256x256, .f32⟩) main_call0_v6) (TRef.of (T := ⟨S_, .f32⟩) main_call0_cst_1) (TRef.of (T := ⟨S8x256x256, .f32⟩) main_call0_v7) (fun x v => Host.reduceAdd x v reducesTo_S8x21x256x256_S8x256x256_d1 h_S_),
    TRef.unary (TRef.of (T := ⟨S8x256x256, .f32⟩) main_call0_v7) (TRef.of (T := ⟨S8x1x256x256, .f32⟩) main_call0_v8) (broadcastInDim S8x1x256x256 ![0, 2, 3] bcast_S8x256x256_S8x1x256x256_0_2_3),
    TRef.unary (TRef.of (T := ⟨S8x1x256x256, .f32⟩) main_call0_v8) (TRef.of (T := ⟨S8x1x256x256, .f32⟩) main_call0_v9) Host.log,
    TRef.unary (TRef.of (T := ⟨S8x1x256x256, .f32⟩) main_call0_v9) (TRef.of (T := ⟨S8x21x256x256, .f32⟩) main_call0_v10) (broadcastInDim S8x21x256x256 ![0, 1, 2, 3] bcast_S8x1x256x256_S8x21x256x256_0_1_2_3),
    TRef.binary (TRef.of (T := ⟨S8x21x256x256, .f32⟩) main_call0_v5) (TRef.of (T := ⟨S8x21x256x256, .f32⟩) main_call0_v10) (TRef.of (T := ⟨S8x21x256x256, .f32⟩) main_v0) subf,
    unary main_arg1 main_v1 (broadcastInDim S8x1x256x256 ![0, 2, 3] bcast_S8x256x256_S8x1x256x256_0_2_3 : (⟨S8x256x256, .i32⟩ : BufTy).Contents (Elt F) → (⟨S8x1x256x256, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1x256x256, .i32⟩) main_call1_v0) (broadcastInDim S8x1x256x256 ![] bcast_S_S8x1x256x256),
    TRef.binary (TRef.of (T := ⟨S8x1x256x256, .i32⟩) main_v1) (TRef.of (T := ⟨S8x1x256x256, .i32⟩) main_call1_v0) (TRef.of (T := ⟨S8x1x256x256, .i1⟩) main_call1_v1) (cmpi .slt),
    TRef.nullary (TRef.of (T := ⟨S_, .i32⟩) main_call1_c_0) (constantI S_ 32 21#32),
    TRef.unary (TRef.of (T := ⟨S_, .i32⟩) main_call1_c_0) (TRef.of (T := ⟨S8x1x256x256, .i32⟩) main_call1_v2) (broadcastInDim S8x1x256x256 ![] bcast_S_S8x1x256x256),
    TRef.binary (TRef.of (T := ⟨S8x1x256x256, .i32⟩) main_v1) (TRef.of (T := ⟨S8x1x256x256, .i32⟩) main_call1_v2) (TRef.of (T := ⟨S8x1x256x256, .i32⟩) main_call1_v3) addi,
    TRef.ternary (TRef.of (T := ⟨S8x1x256x256, .i1⟩) main_call1_v1) (TRef.of (T := ⟨S8x1x256x256, .i32⟩) main_call1_v3) (TRef.of (T := ⟨S8x1x256x256, .i32⟩) main_v1) (TRef.of (T := ⟨S8x1x256x256, .i32⟩) main_call1_v4) select,
    TRef.reshape (TRef.of (T := ⟨S8x1x256x256, .i32⟩) main_call1_v4) (TRef.of (T := ⟨S8x1x256x256x1, .i32⟩) main_call1_v5) rfl shapeCasts_S8x1x256x256_S8x1x256x256x1,
    TRef.nullary (TRef.of (T := ⟨S1, .i32⟩) main_call1_c_1) (constantI S1 32 20#32),
    TRef.nullary (TRef.of (T := ⟨S_, .i32⟩) main_call1_c_2) (constantI S_ 32 0#32),
    TRef.unary (TRef.of (T := ⟨S_, .i32⟩) main_call1_c_2) (TRef.of (T := ⟨S8x1x256x256x1, .i32⟩) main_call1_v6) (broadcastInDim S8x1x256x256x1 ![] bcast_S_S8x1x256x256x1),
    TRef.binary (TRef.of (T := ⟨S8x1x256x256x1, .i32⟩) main_call1_v5) (TRef.of (T := ⟨S8x1x256x256x1, .i32⟩) main_call1_v6) (TRef.of (T := ⟨S8x1x256x256x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S8x1x256x256x1, .i32⟩) main_call1_v9) (broadcastInDim S8x1x256x256x1 ![0, 1, 2, 3, 4] bcast_S1x1x1x1x1_S8x1x256x256x1_0_1_2_3_4),
    TRef.binary (TRef.of (T := ⟨S8x1x256x256x1, .i32⟩) main_call1_v5) (TRef.of (T := ⟨S8x1x256x256x1, .i32⟩) main_call1_v9) (TRef.of (T := ⟨S8x1x256x256x1, .i1⟩) main_call1_v10) (cmpi .sle),
    TRef.binary (TRef.of (T := ⟨S8x1x256x256x1, .i1⟩) main_call1_v7) (TRef.of (T := ⟨S8x1x256x256x1, .i1⟩) main_call1_v10) (TRef.of (T := ⟨S8x1x256x256x1, .i1⟩) main_call1_v11) andi,
    TRef.nullary (TRef.of (T := ⟨S_, .i1⟩) main_call1_c_3) (constantI S_ 1 1#1),
    TRef.binary (TRef.of (T := ⟨S8x1x256x256x1, .i1⟩) main_call1_v11) (TRef.of (T := ⟨S_, .i1⟩) main_call1_c_3) (TRef.of (T := ⟨S8x1x256x256, .i1⟩) main_call1_v12) (fun x v => Host.reduce IntOp.andi x v reducesTo_S8x1x256x256x1_S8x1x256x256_d4 h_S_),
    TRef.binary (TRef.of (T := ⟨S8x21x256x256, .f32⟩) main_v0) (TRef.of (T := ⟨S8x1x256x256x1, .i32⟩) main_call1_v5) (TRef.of (T := ⟨S8x1x256x256, .f32⟩) main_call1_v13) (fun x i => Host.gather gather_S8x21x256x256_S8x1x256x256x1_S8x1x256x256_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S8x1x256x256, .f32⟩) main_call1_v14) (broadcastInDim S8x1x256x256 ![] bcast_S_S8x1x256x256),
    TRef.ternary (TRef.of (T := ⟨S8x1x256x256, .i1⟩) main_call1_v12) (TRef.of (T := ⟨S8x1x256x256, .f32⟩) main_call1_v13) (TRef.of (T := ⟨S8x1x256x256, .f32⟩) main_call1_v14) (TRef.of (T := ⟨S8x1x256x256, .f32⟩) main_v2) select,
    reshape main_v2 main_v3 rfl shapeCasts_S8x1x256x256_S8x256x256,
    unary main_v3 main_v4 (Host.negf : (⟨S8x256x256, .f32⟩ : BufTy).Contents (Elt F) → (⟨S8x256x256, .f32⟩ : BufTy).Contents (Elt F)),
    nullary main_c (constantI S_ 32 0#32),
    TRef.unary (TRef.of (T := ⟨S_, .i32⟩) main_c) (TRef.of (T := ⟨S_, .f32⟩) main_call2_v0) (sitofp .f32),
    TRef.binary (TRef.of (T := ⟨S8x21x256x256, .f32⟩) main_arg0) (TRef.of (T := ⟨S_, .f32⟩) main_call2_v0) (TRef.of (T := ⟨S8x21x260x260, .f32⟩) main_v5) (fun x v => pad S8x21x260x260 ![0, 0, 2, 2] ![0, 0, 2, 2] ![0, 0, 0, 0] x v pads_S8x21x256x256_S8x21x260x260_000_000_220_220 h_S_),
    nullary main_cst (constant S_ .f32 0x00000000#32),
    unary main_cst main_v6 (broadcastInDim S8x21x256x256 ![] bcast_S_S8x21x256x256 : T0 F → T4 F),
    unary main_v5 main_v7 ((extractStridedSlice S8x21x256x256 ![0, 0, 0, 0] · slices_S8x21x260x260_S8x21x256x256_0_0_0_0) : Tp F → T4 F),
    binary main_arg0 main_v7 main_v8 (subf : T4 F → T4 F → T4 F),
    binary main_v8 main_v8 main_v9 (mulf : T4 F → T4 F → T4 F),
    nullary main_cst_0 (constant S_ .f32 0xBF000000#32),
    unary main_cst_0 main_v10 (broadcastInDim S8x21x256x256 ![] bcast_S_S8x21x256x256 : T0 F → T4 F),
    binary main_v10 main_v9 main_v11 (mulf : T4 F → T4 F → T4 F),
    nullary main_cst_1 (constant S_ .f32 0x403504F3#32),
    unary main_cst_1 main_v12 (broadcastInDim S8x21x256x256 ![] bcast_S_S8x21x256x256 : T0 F → T4 F),
    binary main_v11 main_v12 main_v13 (Host.divf : T4 F → T4 F → T4 F),
    unary main_v13 main_v14 (Host.exp : T4 F → T4 F),
    binary main_v6 main_v14 main_v15 (addf : T4 F → T4 F → T4 F),
    unary main_v5 main_v16 ((extractStridedSlice S8x21x256x256 ![0, 0, 0, 1] · slices_S8x21x260x260_S8x21x256x256_0_0_0_1) : Tp F → T4 F),
    binary main_arg0 main_v16 main_v17 (subf : T4 F → T4 F → T4 F),
    binary main_v17 main_v17 main_v18 (mulf : T4 F → T4 F → T4 F),
    nullary main_cst_2 (constant S_ .f32 0xBF000000#32),
    unary main_cst_2 main_v19 (broadcastInDim S8x21x256x256 ![] bcast_S_S8x21x256x256 : T0 F → T4 F),
    binary main_v19 main_v18 main_v20 (mulf : T4 F → T4 F → T4 F),
    nullary main_cst_3 (constant S_ .f32 0x400F1BBD#32),
    unary main_cst_3 main_v21 (broadcastInDim S8x21x256x256 ![] bcast_S_S8x21x256x256 : T0 F → T4 F),
    binary main_v20 main_v21 main_v22 (Host.divf : T4 F → T4 F → T4 F),
    unary main_v22 main_v23 (Host.exp : T4 F → T4 F),
    binary main_v15 main_v23 main_v24 (addf : T4 F → T4 F → T4 F),
    unary main_v5 main_v25 ((extractStridedSlice S8x21x256x256 ![0, 0, 0, 3] · slices_S8x21x260x260_S8x21x256x256_0_0_0_3) : Tp F → T4 F),
    binary main_arg0 main_v25 main_v26 (subf : T4 F → T4 F → T4 F),
    binary main_v26 main_v26 main_v27 (mulf : T4 F → T4 F → T4 F),
    nullary main_cst_4 (constant S_ .f32 0xBF000000#32),
    unary main_cst_4 main_v28 (broadcastInDim S8x21x256x256 ![] bcast_S_S8x21x256x256 : T0 F → T4 F),
    binary main_v28 main_v27 main_v29 (mulf : T4 F → T4 F → T4 F),
    nullary main_cst_5 (constant S_ .f32 0x400F1BBD#32),
    unary main_cst_5 main_v30 (broadcastInDim S8x21x256x256 ![] bcast_S_S8x21x256x256 : T0 F → T4 F),
    binary main_v29 main_v30 main_v31 (Host.divf : T4 F → T4 F → T4 F),
    unary main_v31 main_v32 (Host.exp : T4 F → T4 F),
    binary main_v24 main_v32 main_v33 (addf : T4 F → T4 F → T4 F),
    unary main_v5 main_v34 ((extractStridedSlice S8x21x256x256 ![0, 0, 0, 4] · slices_S8x21x260x260_S8x21x256x256_0_0_0_4) : Tp F → T4 F),
    binary main_arg0 main_v34 main_v35 (subf : T4 F → T4 F → T4 F),
    binary main_v35 main_v35 main_v36 (mulf : T4 F → T4 F → T4 F),
    nullary main_cst_6 (constant S_ .f32 0xBF000000#32),
    unary main_cst_6 main_v37 (broadcastInDim S8x21x256x256 ![] bcast_S_S8x21x256x256 : T0 F → T4 F),
    binary main_v37 main_v36 main_v38 (mulf : T4 F → T4 F → T4 F),
    nullary main_cst_7 (constant S_ .f32 0x403504F3#32),
    unary main_cst_7 main_v39 (broadcastInDim S8x21x256x256 ![] bcast_S_S8x21x256x256 : T0 F → T4 F),
    binary main_v38 main_v39 main_v40 (Host.divf : T4 F → T4 F → T4 F),
    unary main_v40 main_v41 (Host.exp : T4 F → T4 F),
    binary main_v33 main_v41 main_v42 (addf : T4 F → T4 F → T4 F),
    unary main_v5 main_v43 ((extractStridedSlice S8x21x256x256 ![0, 0, 1, 0] · slices_S8x21x260x260_S8x21x256x256_0_0_1_0) : Tp F → T4 F),
    binary main_arg0 main_v43 main_v44 (subf : T4 F → T4 F → T4 F),
    binary main_v44 main_v44 main_v45 (mulf : T4 F → T4 F → T4 F),
    nullary main_cst_8 (constant S_ .f32 0xBF000000#32),
    unary main_cst_8 main_v46 (broadcastInDim S8x21x256x256 ![] bcast_S_S8x21x256x256 : T0 F → T4 F),
    binary main_v46 main_v45 main_v47 (mulf : T4 F → T4 F → T4 F),
    nullary main_cst_9 (constant S_ .f32 0x400F1BBD#32) ]

abbrev ops_part1 : List (HloOp τ sig (Elt F)) :=
  [ unary main_cst_9 main_v48 (broadcastInDim S8x21x256x256 ![] bcast_S_S8x21x256x256 : T0 F → T4 F),
    binary main_v47 main_v48 main_v49 (Host.divf : T4 F → T4 F → T4 F),
    unary main_v49 main_v50 (Host.exp : T4 F → T4 F),
    binary main_v42 main_v50 main_v51 (addf : T4 F → T4 F → T4 F),
    unary main_v5 main_v52 ((extractStridedSlice S8x21x256x256 ![0, 0, 1, 1] · slices_S8x21x260x260_S8x21x256x256_0_0_1_1) : Tp F → T4 F),
    binary main_arg0 main_v52 main_v53 (subf : T4 F → T4 F → T4 F),
    binary main_v53 main_v53 main_v54 (mulf : T4 F → T4 F → T4 F),
    nullary main_cst_10 (constant S_ .f32 0xBF000000#32),
    unary main_cst_10 main_v55 (broadcastInDim S8x21x256x256 ![] bcast_S_S8x21x256x256 : T0 F → T4 F),
    binary main_v55 main_v54 main_v56 (mulf : T4 F → T4 F → T4 F),
    nullary main_cst_11 (constant S_ .f32 0x3FB504F3#32),
    unary main_cst_11 main_v57 (broadcastInDim S8x21x256x256 ![] bcast_S_S8x21x256x256 : T0 F → T4 F),
    binary main_v56 main_v57 main_v58 (Host.divf : T4 F → T4 F → T4 F),
    unary main_v58 main_v59 (Host.exp : T4 F → T4 F),
    binary main_v51 main_v59 main_v60 (addf : T4 F → T4 F → T4 F),
    unary main_v5 main_v61 ((extractStridedSlice S8x21x256x256 ![0, 0, 1, 3] · slices_S8x21x260x260_S8x21x256x256_0_0_1_3) : Tp F → T4 F),
    binary main_arg0 main_v61 main_v62 (subf : T4 F → T4 F → T4 F),
    binary main_v62 main_v62 main_v63 (mulf : T4 F → T4 F → T4 F),
    nullary main_cst_12 (constant S_ .f32 0xBF000000#32),
    unary main_cst_12 main_v64 (broadcastInDim S8x21x256x256 ![] bcast_S_S8x21x256x256 : T0 F → T4 F),
    binary main_v64 main_v63 main_v65 (mulf : T4 F → T4 F → T4 F),
    nullary main_cst_13 (constant S_ .f32 0x3FB504F3#32),
    unary main_cst_13 main_v66 (broadcastInDim S8x21x256x256 ![] bcast_S_S8x21x256x256 : T0 F → T4 F),
    binary main_v65 main_v66 main_v67 (Host.divf : T4 F → T4 F → T4 F),
    unary main_v67 main_v68 (Host.exp : T4 F → T4 F),
    binary main_v60 main_v68 main_v69 (addf : T4 F → T4 F → T4 F),
    unary main_v5 main_v70 ((extractStridedSlice S8x21x256x256 ![0, 0, 1, 4] · slices_S8x21x260x260_S8x21x256x256_0_0_1_4) : Tp F → T4 F),
    binary main_arg0 main_v70 main_v71 (subf : T4 F → T4 F → T4 F),
    binary main_v71 main_v71 main_v72 (mulf : T4 F → T4 F → T4 F),
    nullary main_cst_14 (constant S_ .f32 0xBF000000#32),
    unary main_cst_14 main_v73 (broadcastInDim S8x21x256x256 ![] bcast_S_S8x21x256x256 : T0 F → T4 F),
    binary main_v73 main_v72 main_v74 (mulf : T4 F → T4 F → T4 F),
    nullary main_cst_15 (constant S_ .f32 0x400F1BBD#32),
    unary main_cst_15 main_v75 (broadcastInDim S8x21x256x256 ![] bcast_S_S8x21x256x256 : T0 F → T4 F),
    binary main_v74 main_v75 main_v76 (Host.divf : T4 F → T4 F → T4 F),
    unary main_v76 main_v77 (Host.exp : T4 F → T4 F),
    binary main_v69 main_v77 main_v78 (addf : T4 F → T4 F → T4 F),
    unary main_v5 main_v79 ((extractStridedSlice S8x21x256x256 ![0, 0, 3, 0] · slices_S8x21x260x260_S8x21x256x256_0_0_3_0) : Tp F → T4 F),
    binary main_arg0 main_v79 main_v80 (subf : T4 F → T4 F → T4 F),
    binary main_v80 main_v80 main_v81 (mulf : T4 F → T4 F → T4 F),
    nullary main_cst_16 (constant S_ .f32 0xBF000000#32),
    unary main_cst_16 main_v82 (broadcastInDim S8x21x256x256 ![] bcast_S_S8x21x256x256 : T0 F → T4 F),
    binary main_v82 main_v81 main_v83 (mulf : T4 F → T4 F → T4 F),
    nullary main_cst_17 (constant S_ .f32 0x400F1BBD#32),
    unary main_cst_17 main_v84 (broadcastInDim S8x21x256x256 ![] bcast_S_S8x21x256x256 : T0 F → T4 F),
    binary main_v83 main_v84 main_v85 (Host.divf : T4 F → T4 F → T4 F),
    unary main_v85 main_v86 (Host.exp : T4 F → T4 F),
    binary main_v78 main_v86 main_v87 (addf : T4 F → T4 F → T4 F),
    unary main_v5 main_v88 ((extractStridedSlice S8x21x256x256 ![0, 0, 3, 1] · slices_S8x21x260x260_S8x21x256x256_0_0_3_1) : Tp F → T4 F),
    binary main_arg0 main_v88 main_v89 (subf : T4 F → T4 F → T4 F),
    binary main_v89 main_v89 main_v90 (mulf : T4 F → T4 F → T4 F),
    nullary main_cst_18 (constant S_ .f32 0xBF000000#32),
    unary main_cst_18 main_v91 (broadcastInDim S8x21x256x256 ![] bcast_S_S8x21x256x256 : T0 F → T4 F),
    binary main_v91 main_v90 main_v92 (mulf : T4 F → T4 F → T4 F),
    nullary main_cst_19 (constant S_ .f32 0x3FB504F3#32),
    unary main_cst_19 main_v93 (broadcastInDim S8x21x256x256 ![] bcast_S_S8x21x256x256 : T0 F → T4 F),
    binary main_v92 main_v93 main_v94 (Host.divf : T4 F → T4 F → T4 F),
    unary main_v94 main_v95 (Host.exp : T4 F → T4 F),
    binary main_v87 main_v95 main_v96 (addf : T4 F → T4 F → T4 F),
    unary main_v5 main_v97 ((extractStridedSlice S8x21x256x256 ![0, 0, 3, 3] · slices_S8x21x260x260_S8x21x256x256_0_0_3_3) : Tp F → T4 F) ]

abbrev ops_part2 : List (HloOp τ sig (Elt F)) :=
  [ binary main_arg0 main_v97 main_v98 (subf : T4 F → T4 F → T4 F),
    binary main_v98 main_v98 main_v99 (mulf : T4 F → T4 F → T4 F),
    nullary main_cst_20 (constant S_ .f32 0xBF000000#32),
    unary main_cst_20 main_v100 (broadcastInDim S8x21x256x256 ![] bcast_S_S8x21x256x256 : T0 F → T4 F),
    binary main_v100 main_v99 main_v101 (mulf : T4 F → T4 F → T4 F),
    nullary main_cst_21 (constant S_ .f32 0x3FB504F3#32),
    unary main_cst_21 main_v102 (broadcastInDim S8x21x256x256 ![] bcast_S_S8x21x256x256 : T0 F → T4 F),
    binary main_v101 main_v102 main_v103 (Host.divf : T4 F → T4 F → T4 F),
    unary main_v103 main_v104 (Host.exp : T4 F → T4 F),
    binary main_v96 main_v104 main_v105 (addf : T4 F → T4 F → T4 F),
    unary main_v5 main_v106 ((extractStridedSlice S8x21x256x256 ![0, 0, 3, 4] · slices_S8x21x260x260_S8x21x256x256_0_0_3_4) : Tp F → T4 F),
    binary main_arg0 main_v106 main_v107 (subf : T4 F → T4 F → T4 F),
    binary main_v107 main_v107 main_v108 (mulf : T4 F → T4 F → T4 F),
    nullary main_cst_22 (constant S_ .f32 0xBF000000#32),
    unary main_cst_22 main_v109 (broadcastInDim S8x21x256x256 ![] bcast_S_S8x21x256x256 : T0 F → T4 F),
    binary main_v109 main_v108 main_v110 (mulf : T4 F → T4 F → T4 F),
    nullary main_cst_23 (constant S_ .f32 0x400F1BBD#32),
    unary main_cst_23 main_v111 (broadcastInDim S8x21x256x256 ![] bcast_S_S8x21x256x256 : T0 F → T4 F),
    binary main_v110 main_v111 main_v112 (Host.divf : T4 F → T4 F → T4 F),
    unary main_v112 main_v113 (Host.exp : T4 F → T4 F),
    binary main_v105 main_v113 main_v114 (addf : T4 F → T4 F → T4 F),
    unary main_v5 main_v115 ((extractStridedSlice S8x21x256x256 ![0, 0, 4, 0] · slices_S8x21x260x260_S8x21x256x256_0_0_4_0) : Tp F → T4 F),
    binary main_arg0 main_v115 main_v116 (subf : T4 F → T4 F → T4 F),
    binary main_v116 main_v116 main_v117 (mulf : T4 F → T4 F → T4 F),
    nullary main_cst_24 (constant S_ .f32 0xBF000000#32),
    unary main_cst_24 main_v118 (broadcastInDim S8x21x256x256 ![] bcast_S_S8x21x256x256 : T0 F → T4 F),
    binary main_v118 main_v117 main_v119 (mulf : T4 F → T4 F → T4 F),
    nullary main_cst_25 (constant S_ .f32 0x403504F3#32),
    unary main_cst_25 main_v120 (broadcastInDim S8x21x256x256 ![] bcast_S_S8x21x256x256 : T0 F → T4 F),
    binary main_v119 main_v120 main_v121 (Host.divf : T4 F → T4 F → T4 F),
    unary main_v121 main_v122 (Host.exp : T4 F → T4 F),
    binary main_v114 main_v122 main_v123 (addf : T4 F → T4 F → T4 F),
    unary main_v5 main_v124 ((extractStridedSlice S8x21x256x256 ![0, 0, 4, 1] · slices_S8x21x260x260_S8x21x256x256_0_0_4_1) : Tp F → T4 F),
    binary main_arg0 main_v124 main_v125 (subf : T4 F → T4 F → T4 F),
    binary main_v125 main_v125 main_v126 (mulf : T4 F → T4 F → T4 F),
    nullary main_cst_26 (constant S_ .f32 0xBF000000#32),
    unary main_cst_26 main_v127 (broadcastInDim S8x21x256x256 ![] bcast_S_S8x21x256x256 : T0 F → T4 F),
    binary main_v127 main_v126 main_v128 (mulf : T4 F → T4 F → T4 F),
    nullary main_cst_27 (constant S_ .f32 0x400F1BBD#32),
    unary main_cst_27 main_v129 (broadcastInDim S8x21x256x256 ![] bcast_S_S8x21x256x256 : T0 F → T4 F),
    binary main_v128 main_v129 main_v130 (Host.divf : T4 F → T4 F → T4 F),
    unary main_v130 main_v131 (Host.exp : T4 F → T4 F),
    binary main_v123 main_v131 main_v132 (addf : T4 F → T4 F → T4 F),
    unary main_v5 main_v133 ((extractStridedSlice S8x21x256x256 ![0, 0, 4, 3] · slices_S8x21x260x260_S8x21x256x256_0_0_4_3) : Tp F → T4 F),
    binary main_arg0 main_v133 main_v134 (subf : T4 F → T4 F → T4 F),
    binary main_v134 main_v134 main_v135 (mulf : T4 F → T4 F → T4 F),
    nullary main_cst_28 (constant S_ .f32 0xBF000000#32),
    unary main_cst_28 main_v136 (broadcastInDim S8x21x256x256 ![] bcast_S_S8x21x256x256 : T0 F → T4 F),
    binary main_v136 main_v135 main_v137 (mulf : T4 F → T4 F → T4 F),
    nullary main_cst_29 (constant S_ .f32 0x400F1BBD#32),
    unary main_cst_29 main_v138 (broadcastInDim S8x21x256x256 ![] bcast_S_S8x21x256x256 : T0 F → T4 F),
    binary main_v137 main_v138 main_v139 (Host.divf : T4 F → T4 F → T4 F),
    unary main_v139 main_v140 (Host.exp : T4 F → T4 F),
    binary main_v132 main_v140 main_v141 (addf : T4 F → T4 F → T4 F),
    unary main_v5 main_v142 ((extractStridedSlice S8x21x256x256 ![0, 0, 4, 4] · slices_S8x21x260x260_S8x21x256x256_0_0_4_4) : Tp F → T4 F),
    binary main_arg0 main_v142 main_v143 (subf : T4 F → T4 F → T4 F),
    binary main_v143 main_v143 main_v144 (mulf : T4 F → T4 F → T4 F),
    nullary main_cst_30 (constant S_ .f32 0xBF000000#32),
    unary main_cst_30 main_v145 (broadcastInDim S8x21x256x256 ![] bcast_S_S8x21x256x256 : T0 F → T4 F),
    binary main_v145 main_v144 main_v146 (mulf : T4 F → T4 F → T4 F) ]

abbrev ops_part3 : List (HloOp τ sig (Elt F)) :=
  [ nullary main_cst_31 (constant S_ .f32 0x403504F3#32),
    unary main_cst_31 main_v147 (broadcastInDim S8x21x256x256 ![] bcast_S_S8x21x256x256 : T0 F → T4 F),
    binary main_v146 main_v147 main_v148 (Host.divf : T4 F → T4 F → T4 F),
    unary main_v148 main_v149 (Host.exp : T4 F → T4 F),
    binary main_v141 main_v149 main_v150 (addf : T4 F → T4 F → T4 F),
    nullary main_c_32 (constantI S_ 32 0#32),
    TRef.unary (TRef.of (T := ⟨S_, .i32⟩) main_c_32) (TRef.of (T := ⟨S_, .f32⟩) main_call3_v0) (sitofp .f32),
    TRef.binary (TRef.of (T := ⟨S8x21x256x256, .f32⟩) main_arg2) (TRef.of (T := ⟨S_, .f32⟩) main_call3_v0) (TRef.of (T := ⟨S8x21x260x260, .f32⟩) main_v151) (fun x v => pad S8x21x260x260 ![0, 0, 2, 2] ![0, 0, 2, 2] ![0, 0, 0, 0] x v pads_S8x21x256x256_S8x21x260x260_000_000_220_220 h_S_),
    nullary main_cst_33 (constant S_ .f32 0x00000000#32),
    unary main_cst_33 main_v152 (broadcastInDim S8x21x256x256 ![] bcast_S_S8x21x256x256 : T0 F → T4 F),
    unary main_v151 main_v153 ((extractStridedSlice S8x21x256x256 ![0, 0, 0, 0] · slices_S8x21x260x260_S8x21x256x256_0_0_0_0) : Tp F → T4 F),
    binary main_arg2 main_v153 main_v154 (subf : T4 F → T4 F → T4 F),
    binary main_v154 main_v154 main_v155 (mulf : T4 F → T4 F → T4 F),
    nullary main_cst_34 (constant S_ .f32 0xBF000000#32),
    unary main_cst_34 main_v156 (broadcastInDim S8x21x256x256 ![] bcast_S_S8x21x256x256 : T0 F → T4 F),
    binary main_v156 main_v155 main_v157 (mulf : T4 F → T4 F → T4 F),
    nullary main_cst_35 (constant S_ .f32 0x403504F3#32),
    unary main_cst_35 main_v158 (broadcastInDim S8x21x256x256 ![] bcast_S_S8x21x256x256 : T0 F → T4 F),
    binary main_v157 main_v158 main_v159 (Host.divf : T4 F → T4 F → T4 F),
    unary main_v159 main_v160 (Host.exp : T4 F → T4 F),
    binary main_v152 main_v160 main_v161 (addf : T4 F → T4 F → T4 F),
    unary main_v151 main_v162 ((extractStridedSlice S8x21x256x256 ![0, 0, 0, 1] · slices_S8x21x260x260_S8x21x256x256_0_0_0_1) : Tp F → T4 F),
    binary main_arg2 main_v162 main_v163 (subf : T4 F → T4 F → T4 F),
    binary main_v163 main_v163 main_v164 (mulf : T4 F → T4 F → T4 F),
    nullary main_cst_36 (constant S_ .f32 0xBF000000#32),
    unary main_cst_36 main_v165 (broadcastInDim S8x21x256x256 ![] bcast_S_S8x21x256x256 : T0 F → T4 F),
    binary main_v165 main_v164 main_v166 (mulf : T4 F → T4 F → T4 F),
    nullary main_cst_37 (constant S_ .f32 0x400F1BBD#32),
    unary main_cst_37 main_v167 (broadcastInDim S8x21x256x256 ![] bcast_S_S8x21x256x256 : T0 F → T4 F),
    binary main_v166 main_v167 main_v168 (Host.divf : T4 F → T4 F → T4 F),
    unary main_v168 main_v169 (Host.exp : T4 F → T4 F),
    binary main_v161 main_v169 main_v170 (addf : T4 F → T4 F → T4 F),
    unary main_v151 main_v171 ((extractStridedSlice S8x21x256x256 ![0, 0, 0, 3] · slices_S8x21x260x260_S8x21x256x256_0_0_0_3) : Tp F → T4 F),
    binary main_arg2 main_v171 main_v172 (subf : T4 F → T4 F → T4 F),
    binary main_v172 main_v172 main_v173 (mulf : T4 F → T4 F → T4 F),
    nullary main_cst_38 (constant S_ .f32 0xBF000000#32),
    unary main_cst_38 main_v174 (broadcastInDim S8x21x256x256 ![] bcast_S_S8x21x256x256 : T0 F → T4 F),
    binary main_v174 main_v173 main_v175 (mulf : T4 F → T4 F → T4 F),
    nullary main_cst_39 (constant S_ .f32 0x400F1BBD#32),
    unary main_cst_39 main_v176 (broadcastInDim S8x21x256x256 ![] bcast_S_S8x21x256x256 : T0 F → T4 F),
    binary main_v175 main_v176 main_v177 (Host.divf : T4 F → T4 F → T4 F),
    unary main_v177 main_v178 (Host.exp : T4 F → T4 F),
    binary main_v170 main_v178 main_v179 (addf : T4 F → T4 F → T4 F),
    unary main_v151 main_v180 ((extractStridedSlice S8x21x256x256 ![0, 0, 0, 4] · slices_S8x21x260x260_S8x21x256x256_0_0_0_4) : Tp F → T4 F),
    binary main_arg2 main_v180 main_v181 (subf : T4 F → T4 F → T4 F),
    binary main_v181 main_v181 main_v182 (mulf : T4 F → T4 F → T4 F),
    nullary main_cst_40 (constant S_ .f32 0xBF000000#32),
    unary main_cst_40 main_v183 (broadcastInDim S8x21x256x256 ![] bcast_S_S8x21x256x256 : T0 F → T4 F),
    binary main_v183 main_v182 main_v184 (mulf : T4 F → T4 F → T4 F),
    nullary main_cst_41 (constant S_ .f32 0x403504F3#32),
    unary main_cst_41 main_v185 (broadcastInDim S8x21x256x256 ![] bcast_S_S8x21x256x256 : T0 F → T4 F),
    binary main_v184 main_v185 main_v186 (Host.divf : T4 F → T4 F → T4 F),
    unary main_v186 main_v187 (Host.exp : T4 F → T4 F),
    binary main_v179 main_v187 main_v188 (addf : T4 F → T4 F → T4 F),
    unary main_v151 main_v189 ((extractStridedSlice S8x21x256x256 ![0, 0, 1, 0] · slices_S8x21x260x260_S8x21x256x256_0_0_1_0) : Tp F → T4 F),
    binary main_arg2 main_v189 main_v190 (subf : T4 F → T4 F → T4 F),
    binary main_v190 main_v190 main_v191 (mulf : T4 F → T4 F → T4 F),
    nullary main_cst_42 (constant S_ .f32 0xBF000000#32),
    unary main_cst_42 main_v192 (broadcastInDim S8x21x256x256 ![] bcast_S_S8x21x256x256 : T0 F → T4 F),
    binary main_v192 main_v191 main_v193 (mulf : T4 F → T4 F → T4 F),
    nullary main_cst_43 (constant S_ .f32 0x400F1BBD#32) ]

abbrev ops_part4 : List (HloOp τ sig (Elt F)) :=
  [ unary main_cst_43 main_v194 (broadcastInDim S8x21x256x256 ![] bcast_S_S8x21x256x256 : T0 F → T4 F),
    binary main_v193 main_v194 main_v195 (Host.divf : T4 F → T4 F → T4 F),
    unary main_v195 main_v196 (Host.exp : T4 F → T4 F),
    binary main_v188 main_v196 main_v197 (addf : T4 F → T4 F → T4 F),
    unary main_v151 main_v198 ((extractStridedSlice S8x21x256x256 ![0, 0, 1, 1] · slices_S8x21x260x260_S8x21x256x256_0_0_1_1) : Tp F → T4 F),
    binary main_arg2 main_v198 main_v199 (subf : T4 F → T4 F → T4 F),
    binary main_v199 main_v199 main_v200 (mulf : T4 F → T4 F → T4 F),
    nullary main_cst_44 (constant S_ .f32 0xBF000000#32),
    unary main_cst_44 main_v201 (broadcastInDim S8x21x256x256 ![] bcast_S_S8x21x256x256 : T0 F → T4 F),
    binary main_v201 main_v200 main_v202 (mulf : T4 F → T4 F → T4 F),
    nullary main_cst_45 (constant S_ .f32 0x3FB504F3#32),
    unary main_cst_45 main_v203 (broadcastInDim S8x21x256x256 ![] bcast_S_S8x21x256x256 : T0 F → T4 F),
    binary main_v202 main_v203 main_v204 (Host.divf : T4 F → T4 F → T4 F),
    unary main_v204 main_v205 (Host.exp : T4 F → T4 F),
    binary main_v197 main_v205 main_v206 (addf : T4 F → T4 F → T4 F),
    unary main_v151 main_v207 ((extractStridedSlice S8x21x256x256 ![0, 0, 1, 3] · slices_S8x21x260x260_S8x21x256x256_0_0_1_3) : Tp F → T4 F),
    binary main_arg2 main_v207 main_v208 (subf : T4 F → T4 F → T4 F),
    binary main_v208 main_v208 main_v209 (mulf : T4 F → T4 F → T4 F),
    nullary main_cst_46 (constant S_ .f32 0xBF000000#32),
    unary main_cst_46 main_v210 (broadcastInDim S8x21x256x256 ![] bcast_S_S8x21x256x256 : T0 F → T4 F),
    binary main_v210 main_v209 main_v211 (mulf : T4 F → T4 F → T4 F),
    nullary main_cst_47 (constant S_ .f32 0x3FB504F3#32),
    unary main_cst_47 main_v212 (broadcastInDim S8x21x256x256 ![] bcast_S_S8x21x256x256 : T0 F → T4 F),
    binary main_v211 main_v212 main_v213 (Host.divf : T4 F → T4 F → T4 F),
    unary main_v213 main_v214 (Host.exp : T4 F → T4 F),
    binary main_v206 main_v214 main_v215 (addf : T4 F → T4 F → T4 F),
    unary main_v151 main_v216 ((extractStridedSlice S8x21x256x256 ![0, 0, 1, 4] · slices_S8x21x260x260_S8x21x256x256_0_0_1_4) : Tp F → T4 F),
    binary main_arg2 main_v216 main_v217 (subf : T4 F → T4 F → T4 F),
    binary main_v217 main_v217 main_v218 (mulf : T4 F → T4 F → T4 F),
    nullary main_cst_48 (constant S_ .f32 0xBF000000#32),
    unary main_cst_48 main_v219 (broadcastInDim S8x21x256x256 ![] bcast_S_S8x21x256x256 : T0 F → T4 F),
    binary main_v219 main_v218 main_v220 (mulf : T4 F → T4 F → T4 F),
    nullary main_cst_49 (constant S_ .f32 0x400F1BBD#32),
    unary main_cst_49 main_v221 (broadcastInDim S8x21x256x256 ![] bcast_S_S8x21x256x256 : T0 F → T4 F),
    binary main_v220 main_v221 main_v222 (Host.divf : T4 F → T4 F → T4 F),
    unary main_v222 main_v223 (Host.exp : T4 F → T4 F),
    binary main_v215 main_v223 main_v224 (addf : T4 F → T4 F → T4 F),
    unary main_v151 main_v225 ((extractStridedSlice S8x21x256x256 ![0, 0, 3, 0] · slices_S8x21x260x260_S8x21x256x256_0_0_3_0) : Tp F → T4 F),
    binary main_arg2 main_v225 main_v226 (subf : T4 F → T4 F → T4 F),
    binary main_v226 main_v226 main_v227 (mulf : T4 F → T4 F → T4 F),
    nullary main_cst_50 (constant S_ .f32 0xBF000000#32),
    unary main_cst_50 main_v228 (broadcastInDim S8x21x256x256 ![] bcast_S_S8x21x256x256 : T0 F → T4 F),
    binary main_v228 main_v227 main_v229 (mulf : T4 F → T4 F → T4 F),
    nullary main_cst_51 (constant S_ .f32 0x400F1BBD#32),
    unary main_cst_51 main_v230 (broadcastInDim S8x21x256x256 ![] bcast_S_S8x21x256x256 : T0 F → T4 F),
    binary main_v229 main_v230 main_v231 (Host.divf : T4 F → T4 F → T4 F),
    unary main_v231 main_v232 (Host.exp : T4 F → T4 F),
    binary main_v224 main_v232 main_v233 (addf : T4 F → T4 F → T4 F),
    unary main_v151 main_v234 ((extractStridedSlice S8x21x256x256 ![0, 0, 3, 1] · slices_S8x21x260x260_S8x21x256x256_0_0_3_1) : Tp F → T4 F),
    binary main_arg2 main_v234 main_v235 (subf : T4 F → T4 F → T4 F),
    binary main_v235 main_v235 main_v236 (mulf : T4 F → T4 F → T4 F),
    nullary main_cst_52 (constant S_ .f32 0xBF000000#32),
    unary main_cst_52 main_v237 (broadcastInDim S8x21x256x256 ![] bcast_S_S8x21x256x256 : T0 F → T4 F),
    binary main_v237 main_v236 main_v238 (mulf : T4 F → T4 F → T4 F),
    nullary main_cst_53 (constant S_ .f32 0x3FB504F3#32),
    unary main_cst_53 main_v239 (broadcastInDim S8x21x256x256 ![] bcast_S_S8x21x256x256 : T0 F → T4 F),
    binary main_v238 main_v239 main_v240 (Host.divf : T4 F → T4 F → T4 F),
    unary main_v240 main_v241 (Host.exp : T4 F → T4 F),
    binary main_v233 main_v241 main_v242 (addf : T4 F → T4 F → T4 F),
    unary main_v151 main_v243 ((extractStridedSlice S8x21x256x256 ![0, 0, 3, 3] · slices_S8x21x260x260_S8x21x256x256_0_0_3_3) : Tp F → T4 F) ]

abbrev ops_part5 : List (HloOp τ sig (Elt F)) :=
  [ binary main_arg2 main_v243 main_v244 (subf : T4 F → T4 F → T4 F),
    binary main_v244 main_v244 main_v245 (mulf : T4 F → T4 F → T4 F),
    nullary main_cst_54 (constant S_ .f32 0xBF000000#32),
    unary main_cst_54 main_v246 (broadcastInDim S8x21x256x256 ![] bcast_S_S8x21x256x256 : T0 F → T4 F),
    binary main_v246 main_v245 main_v247 (mulf : T4 F → T4 F → T4 F),
    nullary main_cst_55 (constant S_ .f32 0x3FB504F3#32),
    unary main_cst_55 main_v248 (broadcastInDim S8x21x256x256 ![] bcast_S_S8x21x256x256 : T0 F → T4 F),
    binary main_v247 main_v248 main_v249 (Host.divf : T4 F → T4 F → T4 F),
    unary main_v249 main_v250 (Host.exp : T4 F → T4 F),
    binary main_v242 main_v250 main_v251 (addf : T4 F → T4 F → T4 F),
    unary main_v151 main_v252 ((extractStridedSlice S8x21x256x256 ![0, 0, 3, 4] · slices_S8x21x260x260_S8x21x256x256_0_0_3_4) : Tp F → T4 F),
    binary main_arg2 main_v252 main_v253 (subf : T4 F → T4 F → T4 F),
    binary main_v253 main_v253 main_v254 (mulf : T4 F → T4 F → T4 F),
    nullary main_cst_56 (constant S_ .f32 0xBF000000#32),
    unary main_cst_56 main_v255 (broadcastInDim S8x21x256x256 ![] bcast_S_S8x21x256x256 : T0 F → T4 F),
    binary main_v255 main_v254 main_v256 (mulf : T4 F → T4 F → T4 F),
    nullary main_cst_57 (constant S_ .f32 0x400F1BBD#32),
    unary main_cst_57 main_v257 (broadcastInDim S8x21x256x256 ![] bcast_S_S8x21x256x256 : T0 F → T4 F),
    binary main_v256 main_v257 main_v258 (Host.divf : T4 F → T4 F → T4 F),
    unary main_v258 main_v259 (Host.exp : T4 F → T4 F),
    binary main_v251 main_v259 main_v260 (addf : T4 F → T4 F → T4 F),
    unary main_v151 main_v261 ((extractStridedSlice S8x21x256x256 ![0, 0, 4, 0] · slices_S8x21x260x260_S8x21x256x256_0_0_4_0) : Tp F → T4 F),
    binary main_arg2 main_v261 main_v262 (subf : T4 F → T4 F → T4 F),
    binary main_v262 main_v262 main_v263 (mulf : T4 F → T4 F → T4 F),
    nullary main_cst_58 (constant S_ .f32 0xBF000000#32),
    unary main_cst_58 main_v264 (broadcastInDim S8x21x256x256 ![] bcast_S_S8x21x256x256 : T0 F → T4 F),
    binary main_v264 main_v263 main_v265 (mulf : T4 F → T4 F → T4 F),
    nullary main_cst_59 (constant S_ .f32 0x403504F3#32),
    unary main_cst_59 main_v266 (broadcastInDim S8x21x256x256 ![] bcast_S_S8x21x256x256 : T0 F → T4 F),
    binary main_v265 main_v266 main_v267 (Host.divf : T4 F → T4 F → T4 F),
    unary main_v267 main_v268 (Host.exp : T4 F → T4 F),
    binary main_v260 main_v268 main_v269 (addf : T4 F → T4 F → T4 F),
    unary main_v151 main_v270 ((extractStridedSlice S8x21x256x256 ![0, 0, 4, 1] · slices_S8x21x260x260_S8x21x256x256_0_0_4_1) : Tp F → T4 F),
    binary main_arg2 main_v270 main_v271 (subf : T4 F → T4 F → T4 F),
    binary main_v271 main_v271 main_v272 (mulf : T4 F → T4 F → T4 F),
    nullary main_cst_60 (constant S_ .f32 0xBF000000#32),
    unary main_cst_60 main_v273 (broadcastInDim S8x21x256x256 ![] bcast_S_S8x21x256x256 : T0 F → T4 F),
    binary main_v273 main_v272 main_v274 (mulf : T4 F → T4 F → T4 F),
    nullary main_cst_61 (constant S_ .f32 0x400F1BBD#32),
    unary main_cst_61 main_v275 (broadcastInDim S8x21x256x256 ![] bcast_S_S8x21x256x256 : T0 F → T4 F),
    binary main_v274 main_v275 main_v276 (Host.divf : T4 F → T4 F → T4 F),
    unary main_v276 main_v277 (Host.exp : T4 F → T4 F),
    binary main_v269 main_v277 main_v278 (addf : T4 F → T4 F → T4 F),
    unary main_v151 main_v279 ((extractStridedSlice S8x21x256x256 ![0, 0, 4, 3] · slices_S8x21x260x260_S8x21x256x256_0_0_4_3) : Tp F → T4 F),
    binary main_arg2 main_v279 main_v280 (subf : T4 F → T4 F → T4 F),
    binary main_v280 main_v280 main_v281 (mulf : T4 F → T4 F → T4 F),
    nullary main_cst_62 (constant S_ .f32 0xBF000000#32),
    unary main_cst_62 main_v282 (broadcastInDim S8x21x256x256 ![] bcast_S_S8x21x256x256 : T0 F → T4 F),
    binary main_v282 main_v281 main_v283 (mulf : T4 F → T4 F → T4 F),
    nullary main_cst_63 (constant S_ .f32 0x400F1BBD#32),
    unary main_cst_63 main_v284 (broadcastInDim S8x21x256x256 ![] bcast_S_S8x21x256x256 : T0 F → T4 F),
    binary main_v283 main_v284 main_v285 (Host.divf : T4 F → T4 F → T4 F),
    unary main_v285 main_v286 (Host.exp : T4 F → T4 F),
    binary main_v278 main_v286 main_v287 (addf : T4 F → T4 F → T4 F),
    unary main_v151 main_v288 ((extractStridedSlice S8x21x256x256 ![0, 0, 4, 4] · slices_S8x21x260x260_S8x21x256x256_0_0_4_4) : Tp F → T4 F),
    binary main_arg2 main_v288 main_v289 (subf : T4 F → T4 F → T4 F),
    binary main_v289 main_v289 main_v290 (mulf : T4 F → T4 F → T4 F),
    nullary main_cst_64 (constant S_ .f32 0xBF000000#32),
    unary main_cst_64 main_v291 (broadcastInDim S8x21x256x256 ![] bcast_S_S8x21x256x256 : T0 F → T4 F),
    binary main_v291 main_v290 main_v292 (mulf : T4 F → T4 F → T4 F) ]

abbrev ops_part6 : List (HloOp τ sig (Elt F)) :=
  [ nullary main_cst_65 (constant S_ .f32 0x403504F3#32),
    unary main_cst_65 main_v293 (broadcastInDim S8x21x256x256 ![] bcast_S_S8x21x256x256 : T0 F → T4 F),
    binary main_v292 main_v293 main_v294 (Host.divf : T4 F → T4 F → T4 F),
    unary main_v294 main_v295 (Host.exp : T4 F → T4 F),
    binary main_v287 main_v295 main_v296 (addf : T4 F → T4 F → T4 F),
    binary main_v150 main_v296 main_v297 (subf : T4 F → T4 F → T4 F),
    binary main_v297 main_v297 main_v298 (mulf : T4 F → T4 F → T4 F),
    nullary main_cst_66 (constant S_ .f32 0x00000000#32),
    binary main_v298 main_cst_66 main_v299 ((fun x v => Host.reduceAdd x v reducesTo_S8x21x256x256_S_d0_1_2_3 h_S_) : T4 F → T0 F → T0 F),
    nullary main_cst_67 (constant S_ .f32 0x4B280000#32),
    binary main_v299 main_cst_67 main_v300 (Host.divf : T0 F → T0 F → T0 F) ]

abbrev ops : List (HloOp τ sig (Elt F)) :=
  ops_part0 ++ (ops_part1 ++ (ops_part2 ++ (ops_part3 ++ (ops_part4 ++ (ops_part5 ++ (ops_part6))))))

end Cert.ReferenceIdeal.Hand

end
-- ==== Proof.LibSsa.lean ====
import Idealize.ShloMosaic.Lib.StableHlo.Run
import Mathlib.Data.List.Forall2

namespace Idealize.ShloMosaic.StableHlo

open Idealize.ShloMosaic

variable {τ : Topo} {sig : RefSig} {Val : EltTy → Type}

/-- A straight line in which operation k writes exactly the k-th reference of outs. -/
abbrev WritesOnce (ops : List (HloOp τ sig Val)) (outs : List (Ref sig .tc)) : Prop :=
  List.Forall₂ (fun op r => op.writes = {Proc.devRef (τ := τ) .tc r}) ops outs

/-- The fold splits at any position. -/
theorem after_take_drop : ∀ (ops : List (HloOp τ sig Val)) (k : ℕ) (V : Valuation τ sig Val),
    after ops V = after (ops.drop k) (after (ops.take k) V)
  | _, 0, _ => rfl
  | [], _ + 1, _ => rfl
  | op :: ops, k + 1, V => after_take_drop ops k (op.result V)

variable {ops : List (HloOp τ sig Val)} {outs : List (Ref sig .tc)}

/-- A reference outside outs is written by no operation. -/
theorem WritesOnce.not_mem_writes (h : WritesOnce ops outs) {r : Ref sig .tc} (hr : r ∉ outs) :
    ∀ op ∈ ops, Proc.devRef (τ := τ) .tc r ∉ op.writes := by
  induction h with
  | nil => intro op hop; cases hop
  | cons hw _ ih =>
    intro op hop
    rcases List.mem_cons.mp hop with rfl | hop
    · rw [hw, Finset.mem_singleton]
      exact fun e => hr (Proc.devRef_injective _ e ▸ List.mem_cons_self)
    · exact ih (fun h' => hr (List.mem_cons_of_mem _ h')) op hop

/-- A reference that no operation from position k on writes already holds its final contents after the first k. -/
theorem WritesOnce.after_take (h : WritesOnce ops outs) (V : Valuation τ sig Val) (k : ℕ) {r : Ref sig .tc}
    (hr : r ∉ outs.drop k) : after (ops.take k) V (Proc.devRef .tc r) = after ops V (Proc.devRef .tc r) := by
  rw [after_take_drop ops k V]
  exact (after_of_forall_not_mem _ _ (WritesOnce.not_mem_writes (List.forall₂_drop k h) hr)).symm

/-- One more operation of the line: its result over the contents before it. -/
theorem after_take_succ : ∀ (ops : List (HloOp τ sig Val)) (k : ℕ) (V : Valuation τ sig Val) {op : HloOp τ sig Val},
    ops[k]? = some op → after (ops.take (k + 1)) V = op.result (after (ops.take k) V)
  | [], _, _, _, h => by simp at h
  | o :: ops, 0, V, op, h => by simp at h; subst h; rfl
  | o :: ops, k + 1, V, op, h => after_take_succ ops k (o.result V) (by simpa using h)

/-- The buffer that operation k writes and no later one does ends at that operation's result. -/
theorem WritesOnce.after_at (h : WritesOnce ops outs) (V : Valuation τ sig Val) (k : ℕ) {op : HloOp τ sig Val}
    (hk : ops[k]? = some op) {y : Ref sig .tc} (hy : y ∉ outs.drop (k + 1)) :
    after ops V (Proc.devRef .tc y) = op.result (after (ops.take k) V) (Proc.devRef .tc y) := by
  rw [← h.after_take V (k + 1) hy, after_take_succ ops k V hk]

section Stages

variable (h : WritesOnce ops outs) (V : Valuation τ sig Val) (k : ℕ)
include h

/-- An argument of the line (a reference no operation writes) keeps its contents. -/
theorem WritesOnce.after_arg (r : Ref sig .tc) (hr : r ∉ outs := by decide) :
    after ops V (Proc.devRef .tc r) = V (Proc.devRef .tc r) :=
  after_of_forall_not_mem ops V (h.not_mem_writes hr)

/-- Operation k's result from the FINAL contents of its operands: each is written once, and before position k. -/
theorem WritesOnce.stage0 {y : Ref sig .tc} {v : y.ty.Contents Val} {hy}
    (hk : ops[k]? = some (nullary y v hy)) (hn : y ∉ outs.drop (k + 1) := by decide) :
    after ops V (Proc.devRef .tc y) = v := by
  rw [h.after_at V k hk hn, nullary_result]

theorem WritesOnce.stage1 {x y : Ref sig .tc} {f : x.ty.Contents Val → y.ty.Contents Val} {hx hy}
    (hk : ops[k]? = some (unary x y f hx hy)) {vx} (sx : after ops V (Proc.devRef .tc x) = vx)
    (hn : x ∉ outs.drop k ∧ y ∉ outs.drop (k + 1) := by decide) :
    after ops V (Proc.devRef .tc y) = f vx := by
  rw [h.after_at V k hk hn.2, unary_result, h.after_take V k hn.1, sx]

theorem WritesOnce.stageR {x y : Ref sig .tc} {he : x.ty.elt = y.ty.elt} {hc : x.ty.shape.ShapeCasts y.ty.shape} {hx hy}
    (hk : ops[k]? = some (reshape x y he hc hx hy)) {vx} (sx : after ops V (Proc.devRef .tc x) = vx)
    (hn : x ∉ outs.drop k ∧ y ∉ outs.drop (k + 1) := by decide) :
    after ops V (Proc.devRef .tc y) = fun i => he ▸ shapeCast y.ty.shape vx hc i := by
  rw [h.after_at V k hk hn.2, reshape_result, h.after_take V k hn.1, sx]

theorem WritesOnce.stage2 {a b y : Ref sig .tc} {f : a.ty.Contents Val → b.ty.Contents Val → y.ty.Contents Val} {ha hb hy}
    (hk : ops[k]? = some (binary a b y f ha hb hy)) {va vb} (sa : after ops V (Proc.devRef .tc a) = va)
    (sb : after ops V (Proc.devRef .tc b) = vb)
    (hn : a ∉ outs.drop k ∧ b ∉ outs.drop k ∧ y ∉ outs.drop (k + 1) := by decide) :
    after ops V (Proc.devRef .tc y) = f va vb := by
  rw [h.after_at V k hk hn.2.2, binary_result, h.after_take V k hn.1, h.after_take V k hn.2.1, sa, sb]

theorem WritesOnce.stage3 {c a b y : Ref sig .tc}
    {f : c.ty.Contents Val → a.ty.Contents Val → b.ty.Contents Val → y.ty.Contents Val} {hc ha hb hy}
    (hk : ops[k]? = some (ternary c a b y f hc ha hb hy)) {vc va vb} (sc : after ops V (Proc.devRef .tc c) = vc)
    (sa : after ops V (Proc.devRef .tc a) = va) (sb : after ops V (Proc.devRef .tc b) = vb)
    (hn : c ∉ outs.drop k ∧ a ∉ outs.drop k ∧ b ∉ outs.drop k ∧ y ∉ outs.drop (k + 1) := by decide) :
    after ops V (Proc.devRef .tc y) = f vc va vb := by
  rw [h.after_at V k hk hn.2.2.2, ternary_result, h.after_take V k hn.1, h.after_take V k hn.2.1,
    h.after_take V k hn.2.2.1, sc, sa, sb]

end Stages

/-- Moving contents to a typed reference's buffer type and back changes nothing. -/
theorem TRef.ofBuf_toBuf {T : BufTy} (x : TRef sig T) (v : T.Contents Val) : x.ofBuf (x.toBuf (Val := Val) v) = v := by
  simp only [TRef.ofBuf, TRef.toBuf, cast_cast, cast_eq]

section TypedStages

variable (h : WritesOnce ops outs) (V : Valuation τ sig Val) (k : ℕ) {Tc Ta Tb Ty : BufTy}
include h

/-- The same stages for operations whose functions are stated at a carried buffer type: operands and result are read
    through the transport along the type equation, which then stands outermost only. -/
theorem WritesOnce.tstage0 {y : TRef sig Ty} {v : Ty.Contents Val}
    (hk : ops[k]? = some (TRef.nullary y v)) (hn : y.ref ∉ outs.drop (k + 1) := by decide) :
    after ops V (Proc.devRef .tc y.ref) = y.toBuf v :=
  h.stage0 V k hk hn

theorem WritesOnce.tstage1 {a : TRef sig Ta} {y : TRef sig Ty} {f : Ta.Contents Val → Ty.Contents Val}
    (hk : ops[k]? = some (TRef.unary a y f)) {va} (sa : after ops V (Proc.devRef .tc a.ref) = a.toBuf va)
    (hn : a.ref ∉ outs.drop k ∧ y.ref ∉ outs.drop (k + 1) := by decide) :
    after ops V (Proc.devRef .tc y.ref) = y.toBuf (f va) :=
  (h.stage1 V k hk sa hn).trans (by simp only [TRef.ofBuf_toBuf])

theorem WritesOnce.tstage2 {a : TRef sig Ta} {b : TRef sig Tb} {y : TRef sig Ty}
    {f : Ta.Contents Val → Tb.Contents Val → Ty.Contents Val}
    (hk : ops[k]? = some (TRef.binary a b y f)) {va vb} (sa : after ops V (Proc.devRef .tc a.ref) = a.toBuf va)
    (sb : after ops V (Proc.devRef .tc b.ref) = b.toBuf vb)
    (hn : a.ref ∉ outs.drop k ∧ b.ref ∉ outs.drop k ∧ y.ref ∉ outs.drop (k + 1) := by decide) :
    after ops V (Proc.devRef .tc y.ref) = y.toBuf (f va vb) :=
  (h.stage2 V k hk sa sb hn).trans (by simp only [TRef.ofBuf_toBuf])

theorem WritesOnce.tstage3 {c : TRef sig Tc} {a : TRef sig Ta} {b : TRef sig Tb} {y : TRef sig Ty}
    {f : Tc.Contents Val → Ta.Contents Val → Tb.Contents Val → Ty.Contents Val}
    (hk : ops[k]? = some (TRef.ternary c a b y f)) {vc va vb} (sc : after ops V (Proc.devRef .tc c.ref) = c.toBuf vc)
    (sa : after ops V (Proc.devRef .tc a.ref) = a.toBuf va) (sb : after ops V (Proc.devRef .tc b.ref) = b.toBuf vb)
    (hn : c.ref ∉ outs.drop k ∧ a.ref ∉ outs.drop k ∧ b.ref ∉ outs.drop k ∧ y.ref ∉ outs.drop (k + 1) := by decide) :
    after ops V (Proc.devRef .tc y.ref) = y.toBuf (f vc va vb) :=
  (h.stage3 V k hk sc sa sb hn).trans (by simp only [TRef.ofBuf_toBuf])

theorem WritesOnce.tstageR {a : TRef sig Ta} {y : TRef sig Ty} {he : Ta.elt = Ty.elt} {hc : Ta.shape.ShapeCasts Ty.shape}
    (hk : ops[k]? = some (TRef.reshape a y he hc)) {va} (sa : after ops V (Proc.devRef .tc a.ref) = a.toBuf va)
    (hn : a.ref ∉ outs.drop k ∧ y.ref ∉ outs.drop (k + 1) := by decide) :
    after ops V (Proc.devRef .tc y.ref) = y.toBuf fun i => he ▸ shapeCast Ty.shape va hc i := by
  obtain ⟨_, rfl, _, _⟩ := a
  obtain ⟨_, rfl, _, _⟩ := y
  exact h.stageR V k hk sa hn

end TypedStages

end Idealize.ShloMosaic.StableHlo
-- ==== Proof.RefRun.lean ====
import proofs.«413255_j25812753449052_3_alg».proof.Proof.RefRunSeq
import proofs.«413255_j25812753449052_3_alg».proof.Proof.RefRead
import proofs.«413255_j25812753449052_3_alg».proof.Proof.LibSsa

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

attribute [local irreducible] Host.reduce

abbrev outs : List (Ref sig .tc) :=
  [main_call0_cst, main_call0_v0, main_call0_cst_0, main_call0_v1, main_call0_v2, main_call0_v3, main_call0_v4, main_call0_v5, main_call0_v6, main_call0_cst_1, main_call0_v7, main_call0_v8, main_call0_v9, main_call0_v10, main_v0, main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2, main_v3, main_v4, main_c, main_call2_v0, main_v5, main_cst, main_v6, main_v7, main_v8, main_v9, main_cst_0, main_v10, main_v11, main_cst_1, main_v12, main_v13, main_v14, main_v15, main_v16, main_v17, main_v18, main_cst_2, main_v19, main_v20, main_cst_3, main_v21, main_v22, main_v23, main_v24, main_v25, main_v26, main_v27, main_cst_4, main_v28, main_v29, main_cst_5, main_v30, main_v31, main_v32, main_v33, main_v34, main_v35, main_v36, main_cst_6, main_v37, main_v38, main_cst_7, main_v39, main_v40, main_v41, main_v42, main_v43, main_v44, main_v45, main_cst_8, main_v46, main_v47, main_cst_9, main_v48, main_v49, main_v50, main_v51, main_v52, main_v53, main_v54, main_cst_10, main_v55, main_v56, main_cst_11, main_v57, main_v58, main_v59, main_v60, main_v61, main_v62, main_v63, main_cst_12, main_v64, main_v65, main_cst_13, main_v66, main_v67, main_v68, main_v69, main_v70, main_v71, main_v72, main_cst_14, main_v73, main_v74, main_cst_15, main_v75, main_v76, main_v77, main_v78, main_v79, main_v80, main_v81, main_cst_16, main_v82, main_v83, main_cst_17, main_v84, main_v85, main_v86, main_v87, main_v88, main_v89, main_v90, main_cst_18, main_v91, main_v92, main_cst_19, main_v93, main_v94, main_v95, main_v96, main_v97, main_v98, main_v99, main_cst_20, main_v100, main_v101, main_cst_21, main_v102, main_v103, main_v104, main_v105, main_v106, main_v107, main_v108, main_cst_22, main_v109, main_v110, main_cst_23, main_v111, main_v112, main_v113, main_v114, main_v115, main_v116, main_v117, main_cst_24, main_v118, main_v119, main_cst_25, main_v120, main_v121, main_v122, main_v123, main_v124, main_v125, main_v126, main_cst_26, main_v127, main_v128, main_cst_27, main_v129, main_v130, main_v131, main_v132, main_v133, main_v134, main_v135, main_cst_28, main_v136, main_v137, main_cst_29, main_v138, main_v139, main_v140, main_v141, main_v142, main_v143, main_v144, main_cst_30, main_v145, main_v146, main_cst_31, main_v147, main_v148, main_v149, main_v150, main_c_32, main_call3_v0, main_v151, main_cst_33, main_v152, main_v153, main_v154, main_v155, main_cst_34, main_v156, main_v157, main_cst_35, main_v158, main_v159, main_v160, main_v161, main_v162, main_v163, main_v164, main_cst_36, main_v165, main_v166, main_cst_37, main_v167, main_v168, main_v169, main_v170, main_v171, main_v172, main_v173, main_cst_38, main_v174, main_v175, main_cst_39, main_v176, main_v177, main_v178, main_v179, main_v180, main_v181, main_v182, main_cst_40, main_v183, main_v184, main_cst_41, main_v185, main_v186, main_v187, main_v188, main_v189, main_v190, main_v191, main_cst_42, main_v192, main_v193, main_cst_43, main_v194, main_v195, main_v196, main_v197, main_v198, main_v199, main_v200, main_cst_44, main_v201, main_v202, main_cst_45, main_v203, main_v204, main_v205, main_v206, main_v207, main_v208, main_v209, main_cst_46, main_v210, main_v211, main_cst_47, main_v212, main_v213, main_v214, main_v215, main_v216, main_v217, main_v218, main_cst_48, main_v219, main_v220, main_cst_49, main_v221, main_v222, main_v223, main_v224, main_v225, main_v226, main_v227, main_cst_50, main_v228, main_v229, main_cst_51, main_v230, main_v231, main_v232, main_v233, main_v234, main_v235, main_v236, main_cst_52, main_v237, main_v238, main_cst_53, main_v239, main_v240, main_v241, main_v242, main_v243, main_v244, main_v245, main_cst_54, main_v246, main_v247, main_cst_55, main_v248, main_v249, main_v250, main_v251, main_v252, main_v253, main_v254, main_cst_56, main_v255, main_v256, main_cst_57, main_v257, main_v258, main_v259, main_v260, main_v261, main_v262, main_v263, main_cst_58, main_v264, main_v265, main_cst_59, main_v266, main_v267, main_v268, main_v269, main_v270, main_v271, main_v272, main_cst_60, main_v273, main_v274, main_cst_61, main_v275, main_v276, main_v277, main_v278, main_v279, main_v280, main_v281, main_cst_62, main_v282, main_v283, main_cst_63, main_v284, main_v285, main_v286, main_v287, main_v288, main_v289, main_v290, main_cst_64, main_v291, main_v292, main_cst_65, main_v293, main_v294, main_v295, main_v296, main_v297, main_v298, main_cst_66, main_v299, main_cst_67, main_v300]

theorem W : WritesOnce (ops : List (HloOp τ sig (Elt F))) outs := by repeat' constructor

variable {V : Valuation τ sig (Elt F)}

variable (V) in
abbrev S (r : Ref sig .tc) (v : r.ty.Contents (Elt F)) : Prop := after ops V (Proc.devRef .tc r) = v
variable (V) in
abbrev x0 := V (Proc.devRef .tc main_arg0)
variable (V) in
abbrev x1 := V (Proc.devRef .tc main_arg1)
variable (V) in
abbrev x2 := V (Proc.devRef .tc main_arg2)

theorem s_main_arg0 : S V main_arg0 (x0 V) := W.after_arg V main_arg0
theorem s_main_arg1 : S V main_arg1 (x1 V) := W.after_arg V main_arg1
theorem s_main_arg2 : S V main_arg2 (x2 V) := W.after_arg V main_arg2
theorem s_main_call0_cst : S V main_call0_cst val_main_call0_cst := W.tstage0 V 0 rfl
theorem s_main_call0_v0 : S V main_call0_v0 (val_main_call0_v0 (x0 V)) := W.tstage2 V 1 rfl s_main_arg0 s_main_call0_cst
theorem s_main_call0_cst_0 : S V main_call0_cst_0 val_main_call0_cst_0 := W.tstage0 V 2 rfl
theorem s_main_call0_v1 : S V main_call0_v1 val_main_call0_v1 := W.tstage1 V 3 rfl s_main_call0_cst_0
theorem s_main_call0_v2 : S V main_call0_v2 (val_main_call0_v2 (x0 V)) := W.tstage2 V 4 rfl s_main_call0_v1 s_main_call0_v0
theorem s_main_call0_v3 : S V main_call0_v3 (val_main_call0_v3 (x0 V)) := W.tstage1 V 5 rfl s_main_call0_v2
theorem s_main_call0_v4 : S V main_call0_v4 (val_main_call0_v4 (x0 V)) := W.tstage1 V 6 rfl s_main_call0_v3
theorem s_main_call0_v5 : S V main_call0_v5 (val_main_call0_v5 (x0 V)) := W.tstage2 V 7 rfl s_main_arg0 s_main_call0_v4
theorem s_main_call0_v6 : S V main_call0_v6 (val_main_call0_v6 (x0 V)) := W.tstage1 V 8 rfl s_main_call0_v5
theorem s_main_call0_cst_1 : S V main_call0_cst_1 val_main_call0_cst_1 := W.tstage0 V 9 rfl
theorem s_main_call0_v7 : S V main_call0_v7 (val_main_call0_v7 (x0 V)) := W.tstage2 V 10 rfl s_main_call0_v6 s_main_call0_cst_1
theorem s_main_call0_v8 : S V main_call0_v8 (val_main_call0_v8 (x0 V)) := W.tstage1 V 11 rfl s_main_call0_v7
theorem s_main_call0_v9 : S V main_call0_v9 (val_main_call0_v9 (x0 V)) := W.tstage1 V 12 rfl s_main_call0_v8
theorem s_main_call0_v10 : S V main_call0_v10 (val_main_call0_v10 (x0 V)) := W.tstage1 V 13 rfl s_main_call0_v9
theorem s_main_v0 : S V main_v0 (val_main_v0 (x0 V)) := W.tstage2 V 14 rfl s_main_call0_v5 s_main_call0_v10
theorem s_main_v1 : S V main_v1 (val_main_v1 (x1 V)) := W.stage1 V 15 rfl s_main_arg1
theorem s_main_call1_c : S V main_call1_c val_main_call1_c := W.tstage0 V 16 rfl
theorem s_main_call1_v0 : S V main_call1_v0 val_main_call1_v0 := W.tstage1 V 17 rfl s_main_call1_c
theorem s_main_call1_v1 : S V main_call1_v1 (val_main_call1_v1 (x1 V)) := W.tstage2 V 18 rfl s_main_v1 s_main_call1_v0
theorem s_main_call1_c_0 : S V main_call1_c_0 val_main_call1_c_0 := W.tstage0 V 19 rfl
theorem s_main_call1_v2 : S V main_call1_v2 val_main_call1_v2 := W.tstage1 V 20 rfl s_main_call1_c_0
theorem s_main_call1_v3 : S V main_call1_v3 (val_main_call1_v3 (x1 V)) := W.tstage2 V 21 rfl s_main_v1 s_main_call1_v2
theorem s_main_call1_v4 : S V main_call1_v4 (val_main_call1_v4 (x1 V)) := W.tstage3 V 22 rfl s_main_call1_v1 s_main_call1_v3 s_main_v1
theorem s_main_call1_v5 : S V main_call1_v5 (val_main_call1_v5 (x1 V)) := W.tstageR V 23 rfl s_main_call1_v4
theorem s_main_call1_c_1 : S V main_call1_c_1 val_main_call1_c_1 := W.tstage0 V 24 rfl
theorem s_main_call1_c_2 : S V main_call1_c_2 val_main_call1_c_2 := W.tstage0 V 25 rfl
theorem s_main_call1_v6 : S V main_call1_v6 val_main_call1_v6 := W.tstage1 V 26 rfl s_main_call1_c_2
theorem s_main_call1_v7 : S V main_call1_v7 (val_main_call1_v7 (x1 V)) := W.tstage2 V 27 rfl s_main_call1_v5 s_main_call1_v6
theorem s_main_call1_v8 : S V main_call1_v8 val_main_call1_v8 := W.tstage1 V 28 rfl s_main_call1_c_1
theorem s_main_call1_v9 : S V main_call1_v9 val_main_call1_v9 := W.tstage1 V 29 rfl s_main_call1_v8
theorem s_main_call1_v10 : S V main_call1_v10 (val_main_call1_v10 (x1 V)) := W.tstage2 V 30 rfl s_main_call1_v5 s_main_call1_v9
theorem s_main_call1_v11 : S V main_call1_v11 (val_main_call1_v11 (x1 V)) := W.tstage2 V 31 rfl s_main_call1_v7 s_main_call1_v10
theorem s_main_call1_c_3 : S V main_call1_c_3 val_main_call1_c_3 := W.tstage0 V 32 rfl
theorem s_main_call1_v12 : S V main_call1_v12 (val_main_call1_v12 (x1 V)) := W.tstage2 V 33 rfl s_main_call1_v11 s_main_call1_c_3
theorem s_main_call1_v13 : S V main_call1_v13 (val_main_call1_v13 (x0 V) (x1 V)) := W.tstage2 V 34 rfl s_main_v0 s_main_call1_v5
theorem s_main_call1_cst : S V main_call1_cst val_main_call1_cst := W.tstage0 V 35 rfl
theorem s_main_call1_v14 : S V main_call1_v14 val_main_call1_v14 := W.tstage1 V 36 rfl s_main_call1_cst
theorem s_main_v2 : S V main_v2 (val_main_v2 (x0 V) (x1 V)) := W.tstage3 V 37 rfl s_main_call1_v12 s_main_call1_v13 s_main_call1_v14
theorem s_main_v3 : S V main_v3 (val_main_v3 (x0 V) (x1 V)) := W.stageR V 38 rfl s_main_v2
theorem s_main_v4 : S V main_v4 (val_main_v4 (x0 V) (x1 V)) := W.stage1 V 39 rfl s_main_v3
theorem s_main_c : S V main_c val_main_c := W.stage0 V 40 rfl
theorem s_main_call2_v0 : S V main_call2_v0 val_main_call2_v0 := W.tstage1 V 41 rfl s_main_c
theorem s_main_v5 : S V main_v5 (val_main_v5 (x0 V)) := W.tstage2 V 42 rfl s_main_arg0 s_main_call2_v0
theorem s_main_cst : S V main_cst val_main_cst := W.stage0 V 43 rfl
theorem s_main_v6 : S V main_v6 val_main_v6 := W.stage1 V 44 rfl s_main_cst
theorem s_main_v7 : S V main_v7 (val_main_v7 (x0 V)) := W.stage1 V 45 rfl s_main_v5
theorem s_main_v8 : S V main_v8 (val_main_v8 (x0 V)) := W.stage2 V 46 rfl s_main_arg0 s_main_v7
theorem s_main_v9 : S V main_v9 (val_main_v9 (x0 V)) := W.stage2 V 47 rfl s_main_v8 s_main_v8
theorem s_main_cst_0 : S V main_cst_0 val_main_cst_0 := W.stage0 V 48 rfl
theorem s_main_v10 : S V main_v10 val_main_v10 := W.stage1 V 49 rfl s_main_cst_0
theorem s_main_v11 : S V main_v11 (val_main_v11 (x0 V)) := W.stage2 V 50 rfl s_main_v10 s_main_v9
theorem s_main_cst_1 : S V main_cst_1 val_main_cst_1 := W.stage0 V 51 rfl
theorem s_main_v12 : S V main_v12 val_main_v12 := W.stage1 V 52 rfl s_main_cst_1
theorem s_main_v13 : S V main_v13 (val_main_v13 (x0 V)) := W.stage2 V 53 rfl s_main_v11 s_main_v12
theorem s_main_v14 : S V main_v14 (val_main_v14 (x0 V)) := W.stage1 V 54 rfl s_main_v13
theorem s_main_v15 : S V main_v15 (val_main_v15 (x0 V)) := W.stage2 V 55 rfl s_main_v6 s_main_v14
theorem s_main_v16 : S V main_v16 (val_main_v16 (x0 V)) := W.stage1 V 56 rfl s_main_v5
theorem s_main_v17 : S V main_v17 (val_main_v17 (x0 V)) := W.stage2 V 57 rfl s_main_arg0 s_main_v16
theorem s_main_v18 : S V main_v18 (val_main_v18 (x0 V)) := W.stage2 V 58 rfl s_main_v17 s_main_v17
theorem s_main_cst_2 : S V main_cst_2 val_main_cst_2 := W.stage0 V 59 rfl
theorem s_main_v19 : S V main_v19 val_main_v19 := W.stage1 V 60 rfl s_main_cst_2
theorem s_main_v20 : S V main_v20 (val_main_v20 (x0 V)) := W.stage2 V 61 rfl s_main_v19 s_main_v18
theorem s_main_cst_3 : S V main_cst_3 val_main_cst_3 := W.stage0 V 62 rfl
theorem s_main_v21 : S V main_v21 val_main_v21 := W.stage1 V 63 rfl s_main_cst_3
theorem s_main_v22 : S V main_v22 (val_main_v22 (x0 V)) := W.stage2 V 64 rfl s_main_v20 s_main_v21
theorem s_main_v23 : S V main_v23 (val_main_v23 (x0 V)) := W.stage1 V 65 rfl s_main_v22
theorem s_main_v24 : S V main_v24 (val_main_v24 (x0 V)) := W.stage2 V 66 rfl s_main_v15 s_main_v23
theorem s_main_v25 : S V main_v25 (val_main_v25 (x0 V)) := W.stage1 V 67 rfl s_main_v5
theorem s_main_v26 : S V main_v26 (val_main_v26 (x0 V)) := W.stage2 V 68 rfl s_main_arg0 s_main_v25
theorem s_main_v27 : S V main_v27 (val_main_v27 (x0 V)) := W.stage2 V 69 rfl s_main_v26 s_main_v26
theorem s_main_cst_4 : S V main_cst_4 val_main_cst_4 := W.stage0 V 70 rfl
theorem s_main_v28 : S V main_v28 val_main_v28 := W.stage1 V 71 rfl s_main_cst_4
theorem s_main_v29 : S V main_v29 (val_main_v29 (x0 V)) := W.stage2 V 72 rfl s_main_v28 s_main_v27
theorem s_main_cst_5 : S V main_cst_5 val_main_cst_5 := W.stage0 V 73 rfl
theorem s_main_v30 : S V main_v30 val_main_v30 := W.stage1 V 74 rfl s_main_cst_5
theorem s_main_v31 : S V main_v31 (val_main_v31 (x0 V)) := W.stage2 V 75 rfl s_main_v29 s_main_v30
theorem s_main_v32 : S V main_v32 (val_main_v32 (x0 V)) := W.stage1 V 76 rfl s_main_v31
theorem s_main_v33 : S V main_v33 (val_main_v33 (x0 V)) := W.stage2 V 77 rfl s_main_v24 s_main_v32
theorem s_main_v34 : S V main_v34 (val_main_v34 (x0 V)) := W.stage1 V 78 rfl s_main_v5
theorem s_main_v35 : S V main_v35 (val_main_v35 (x0 V)) := W.stage2 V 79 rfl s_main_arg0 s_main_v34
theorem s_main_v36 : S V main_v36 (val_main_v36 (x0 V)) := W.stage2 V 80 rfl s_main_v35 s_main_v35
theorem s_main_cst_6 : S V main_cst_6 val_main_cst_6 := W.stage0 V 81 rfl
theorem s_main_v37 : S V main_v37 val_main_v37 := W.stage1 V 82 rfl s_main_cst_6
theorem s_main_v38 : S V main_v38 (val_main_v38 (x0 V)) := W.stage2 V 83 rfl s_main_v37 s_main_v36
theorem s_main_cst_7 : S V main_cst_7 val_main_cst_7 := W.stage0 V 84 rfl
theorem s_main_v39 : S V main_v39 val_main_v39 := W.stage1 V 85 rfl s_main_cst_7
theorem s_main_v40 : S V main_v40 (val_main_v40 (x0 V)) := W.stage2 V 86 rfl s_main_v38 s_main_v39
theorem s_main_v41 : S V main_v41 (val_main_v41 (x0 V)) := W.stage1 V 87 rfl s_main_v40
theorem s_main_v42 : S V main_v42 (val_main_v42 (x0 V)) := W.stage2 V 88 rfl s_main_v33 s_main_v41
theorem s_main_v43 : S V main_v43 (val_main_v43 (x0 V)) := W.stage1 V 89 rfl s_main_v5
theorem s_main_v44 : S V main_v44 (val_main_v44 (x0 V)) := W.stage2 V 90 rfl s_main_arg0 s_main_v43
theorem s_main_v45 : S V main_v45 (val_main_v45 (x0 V)) := W.stage2 V 91 rfl s_main_v44 s_main_v44
theorem s_main_cst_8 : S V main_cst_8 val_main_cst_8 := W.stage0 V 92 rfl
theorem s_main_v46 : S V main_v46 val_main_v46 := W.stage1 V 93 rfl s_main_cst_8
theorem s_main_v47 : S V main_v47 (val_main_v47 (x0 V)) := W.stage2 V 94 rfl s_main_v46 s_main_v45
theorem s_main_cst_9 : S V main_cst_9 val_main_cst_9 := W.stage0 V 95 rfl
theorem s_main_v48 : S V main_v48 val_main_v48 := W.stage1 V 96 rfl s_main_cst_9
theorem s_main_v49 : S V main_v49 (val_main_v49 (x0 V)) := W.stage2 V 97 rfl s_main_v47 s_main_v48
theorem s_main_v50 : S V main_v50 (val_main_v50 (x0 V)) := W.stage1 V 98 rfl s_main_v49
theorem s_main_v51 : S V main_v51 (val_main_v51 (x0 V)) := W.stage2 V 99 rfl s_main_v42 s_main_v50
theorem s_main_v52 : S V main_v52 (val_main_v52 (x0 V)) := W.stage1 V 100 rfl s_main_v5
theorem s_main_v53 : S V main_v53 (val_main_v53 (x0 V)) := W.stage2 V 101 rfl s_main_arg0 s_main_v52
theorem s_main_v54 : S V main_v54 (val_main_v54 (x0 V)) := W.stage2 V 102 rfl s_main_v53 s_main_v53
theorem s_main_cst_10 : S V main_cst_10 val_main_cst_10 := W.stage0 V 103 rfl
theorem s_main_v55 : S V main_v55 val_main_v55 := W.stage1 V 104 rfl s_main_cst_10
theorem s_main_v56 : S V main_v56 (val_main_v56 (x0 V)) := W.stage2 V 105 rfl s_main_v55 s_main_v54
theorem s_main_cst_11 : S V main_cst_11 val_main_cst_11 := W.stage0 V 106 rfl
theorem s_main_v57 : S V main_v57 val_main_v57 := W.stage1 V 107 rfl s_main_cst_11
theorem s_main_v58 : S V main_v58 (val_main_v58 (x0 V)) := W.stage2 V 108 rfl s_main_v56 s_main_v57
theorem s_main_v59 : S V main_v59 (val_main_v59 (x0 V)) := W.stage1 V 109 rfl s_main_v58
theorem s_main_v60 : S V main_v60 (val_main_v60 (x0 V)) := W.stage2 V 110 rfl s_main_v51 s_main_v59
theorem s_main_v61 : S V main_v61 (val_main_v61 (x0 V)) := W.stage1 V 111 rfl s_main_v5
theorem s_main_v62 : S V main_v62 (val_main_v62 (x0 V)) := W.stage2 V 112 rfl s_main_arg0 s_main_v61
theorem s_main_v63 : S V main_v63 (val_main_v63 (x0 V)) := W.stage2 V 113 rfl s_main_v62 s_main_v62
theorem s_main_cst_12 : S V main_cst_12 val_main_cst_12 := W.stage0 V 114 rfl
theorem s_main_v64 : S V main_v64 val_main_v64 := W.stage1 V 115 rfl s_main_cst_12
theorem s_main_v65 : S V main_v65 (val_main_v65 (x0 V)) := W.stage2 V 116 rfl s_main_v64 s_main_v63
theorem s_main_cst_13 : S V main_cst_13 val_main_cst_13 := W.stage0 V 117 rfl
theorem s_main_v66 : S V main_v66 val_main_v66 := W.stage1 V 118 rfl s_main_cst_13
theorem s_main_v67 : S V main_v67 (val_main_v67 (x0 V)) := W.stage2 V 119 rfl s_main_v65 s_main_v66
theorem s_main_v68 : S V main_v68 (val_main_v68 (x0 V)) := W.stage1 V 120 rfl s_main_v67
theorem s_main_v69 : S V main_v69 (val_main_v69 (x0 V)) := W.stage2 V 121 rfl s_main_v60 s_main_v68
theorem s_main_v70 : S V main_v70 (val_main_v70 (x0 V)) := W.stage1 V 122 rfl s_main_v5
theorem s_main_v71 : S V main_v71 (val_main_v71 (x0 V)) := W.stage2 V 123 rfl s_main_arg0 s_main_v70
theorem s_main_v72 : S V main_v72 (val_main_v72 (x0 V)) := W.stage2 V 124 rfl s_main_v71 s_main_v71
theorem s_main_cst_14 : S V main_cst_14 val_main_cst_14 := W.stage0 V 125 rfl
theorem s_main_v73 : S V main_v73 val_main_v73 := W.stage1 V 126 rfl s_main_cst_14
theorem s_main_v74 : S V main_v74 (val_main_v74 (x0 V)) := W.stage2 V 127 rfl s_main_v73 s_main_v72
theorem s_main_cst_15 : S V main_cst_15 val_main_cst_15 := W.stage0 V 128 rfl
theorem s_main_v75 : S V main_v75 val_main_v75 := W.stage1 V 129 rfl s_main_cst_15
theorem s_main_v76 : S V main_v76 (val_main_v76 (x0 V)) := W.stage2 V 130 rfl s_main_v74 s_main_v75
theorem s_main_v77 : S V main_v77 (val_main_v77 (x0 V)) := W.stage1 V 131 rfl s_main_v76
theorem s_main_v78 : S V main_v78 (val_main_v78 (x0 V)) := W.stage2 V 132 rfl s_main_v69 s_main_v77
theorem s_main_v79 : S V main_v79 (val_main_v79 (x0 V)) := W.stage1 V 133 rfl s_main_v5
theorem s_main_v80 : S V main_v80 (val_main_v80 (x0 V)) := W.stage2 V 134 rfl s_main_arg0 s_main_v79
theorem s_main_v81 : S V main_v81 (val_main_v81 (x0 V)) := W.stage2 V 135 rfl s_main_v80 s_main_v80
theorem s_main_cst_16 : S V main_cst_16 val_main_cst_16 := W.stage0 V 136 rfl
theorem s_main_v82 : S V main_v82 val_main_v82 := W.stage1 V 137 rfl s_main_cst_16
theorem s_main_v83 : S V main_v83 (val_main_v83 (x0 V)) := W.stage2 V 138 rfl s_main_v82 s_main_v81
theorem s_main_cst_17 : S V main_cst_17 val_main_cst_17 := W.stage0 V 139 rfl
theorem s_main_v84 : S V main_v84 val_main_v84 := W.stage1 V 140 rfl s_main_cst_17
theorem s_main_v85 : S V main_v85 (val_main_v85 (x0 V)) := W.stage2 V 141 rfl s_main_v83 s_main_v84
theorem s_main_v86 : S V main_v86 (val_main_v86 (x0 V)) := W.stage1 V 142 rfl s_main_v85
theorem s_main_v87 : S V main_v87 (val_main_v87 (x0 V)) := W.stage2 V 143 rfl s_main_v78 s_main_v86
theorem s_main_v88 : S V main_v88 (val_main_v88 (x0 V)) := W.stage1 V 144 rfl s_main_v5
theorem s_main_v89 : S V main_v89 (val_main_v89 (x0 V)) := W.stage2 V 145 rfl s_main_arg0 s_main_v88
theorem s_main_v90 : S V main_v90 (val_main_v90 (x0 V)) := W.stage2 V 146 rfl s_main_v89 s_main_v89
theorem s_main_cst_18 : S V main_cst_18 val_main_cst_18 := W.stage0 V 147 rfl
theorem s_main_v91 : S V main_v91 val_main_v91 := W.stage1 V 148 rfl s_main_cst_18
theorem s_main_v92 : S V main_v92 (val_main_v92 (x0 V)) := W.stage2 V 149 rfl s_main_v91 s_main_v90
theorem s_main_cst_19 : S V main_cst_19 val_main_cst_19 := W.stage0 V 150 rfl
theorem s_main_v93 : S V main_v93 val_main_v93 := W.stage1 V 151 rfl s_main_cst_19
theorem s_main_v94 : S V main_v94 (val_main_v94 (x0 V)) := W.stage2 V 152 rfl s_main_v92 s_main_v93
theorem s_main_v95 : S V main_v95 (val_main_v95 (x0 V)) := W.stage1 V 153 rfl s_main_v94
theorem s_main_v96 : S V main_v96 (val_main_v96 (x0 V)) := W.stage2 V 154 rfl s_main_v87 s_main_v95
theorem s_main_v97 : S V main_v97 (val_main_v97 (x0 V)) := W.stage1 V 155 rfl s_main_v5
theorem s_main_v98 : S V main_v98 (val_main_v98 (x0 V)) := W.stage2 V 156 rfl s_main_arg0 s_main_v97
theorem s_main_v99 : S V main_v99 (val_main_v99 (x0 V)) := W.stage2 V 157 rfl s_main_v98 s_main_v98
theorem s_main_cst_20 : S V main_cst_20 val_main_cst_20 := W.stage0 V 158 rfl
theorem s_main_v100 : S V main_v100 val_main_v100 := W.stage1 V 159 rfl s_main_cst_20
theorem s_main_v101 : S V main_v101 (val_main_v101 (x0 V)) := W.stage2 V 160 rfl s_main_v100 s_main_v99
theorem s_main_cst_21 : S V main_cst_21 val_main_cst_21 := W.stage0 V 161 rfl
theorem s_main_v102 : S V main_v102 val_main_v102 := W.stage1 V 162 rfl s_main_cst_21
theorem s_main_v103 : S V main_v103 (val_main_v103 (x0 V)) := W.stage2 V 163 rfl s_main_v101 s_main_v102
theorem s_main_v104 : S V main_v104 (val_main_v104 (x0 V)) := W.stage1 V 164 rfl s_main_v103
theorem s_main_v105 : S V main_v105 (val_main_v105 (x0 V)) := W.stage2 V 165 rfl s_main_v96 s_main_v104
theorem s_main_v106 : S V main_v106 (val_main_v106 (x0 V)) := W.stage1 V 166 rfl s_main_v5
theorem s_main_v107 : S V main_v107 (val_main_v107 (x0 V)) := W.stage2 V 167 rfl s_main_arg0 s_main_v106
theorem s_main_v108 : S V main_v108 (val_main_v108 (x0 V)) := W.stage2 V 168 rfl s_main_v107 s_main_v107
theorem s_main_cst_22 : S V main_cst_22 val_main_cst_22 := W.stage0 V 169 rfl
theorem s_main_v109 : S V main_v109 val_main_v109 := W.stage1 V 170 rfl s_main_cst_22
theorem s_main_v110 : S V main_v110 (val_main_v110 (x0 V)) := W.stage2 V 171 rfl s_main_v109 s_main_v108
theorem s_main_cst_23 : S V main_cst_23 val_main_cst_23 := W.stage0 V 172 rfl
theorem s_main_v111 : S V main_v111 val_main_v111 := W.stage1 V 173 rfl s_main_cst_23
theorem s_main_v112 : S V main_v112 (val_main_v112 (x0 V)) := W.stage2 V 174 rfl s_main_v110 s_main_v111
theorem s_main_v113 : S V main_v113 (val_main_v113 (x0 V)) := W.stage1 V 175 rfl s_main_v112
theorem s_main_v114 : S V main_v114 (val_main_v114 (x0 V)) := W.stage2 V 176 rfl s_main_v105 s_main_v113
theorem s_main_v115 : S V main_v115 (val_main_v115 (x0 V)) := W.stage1 V 177 rfl s_main_v5
theorem s_main_v116 : S V main_v116 (val_main_v116 (x0 V)) := W.stage2 V 178 rfl s_main_arg0 s_main_v115
theorem s_main_v117 : S V main_v117 (val_main_v117 (x0 V)) := W.stage2 V 179 rfl s_main_v116 s_main_v116
theorem s_main_cst_24 : S V main_cst_24 val_main_cst_24 := W.stage0 V 180 rfl
theorem s_main_v118 : S V main_v118 val_main_v118 := W.stage1 V 181 rfl s_main_cst_24
theorem s_main_v119 : S V main_v119 (val_main_v119 (x0 V)) := W.stage2 V 182 rfl s_main_v118 s_main_v117
theorem s_main_cst_25 : S V main_cst_25 val_main_cst_25 := W.stage0 V 183 rfl
theorem s_main_v120 : S V main_v120 val_main_v120 := W.stage1 V 184 rfl s_main_cst_25
theorem s_main_v121 : S V main_v121 (val_main_v121 (x0 V)) := W.stage2 V 185 rfl s_main_v119 s_main_v120
theorem s_main_v122 : S V main_v122 (val_main_v122 (x0 V)) := W.stage1 V 186 rfl s_main_v121
theorem s_main_v123 : S V main_v123 (val_main_v123 (x0 V)) := W.stage2 V 187 rfl s_main_v114 s_main_v122
theorem s_main_v124 : S V main_v124 (val_main_v124 (x0 V)) := W.stage1 V 188 rfl s_main_v5
theorem s_main_v125 : S V main_v125 (val_main_v125 (x0 V)) := W.stage2 V 189 rfl s_main_arg0 s_main_v124
theorem s_main_v126 : S V main_v126 (val_main_v126 (x0 V)) := W.stage2 V 190 rfl s_main_v125 s_main_v125
theorem s_main_cst_26 : S V main_cst_26 val_main_cst_26 := W.stage0 V 191 rfl
theorem s_main_v127 : S V main_v127 val_main_v127 := W.stage1 V 192 rfl s_main_cst_26
theorem s_main_v128 : S V main_v128 (val_main_v128 (x0 V)) := W.stage2 V 193 rfl s_main_v127 s_main_v126
theorem s_main_cst_27 : S V main_cst_27 val_main_cst_27 := W.stage0 V 194 rfl
theorem s_main_v129 : S V main_v129 val_main_v129 := W.stage1 V 195 rfl s_main_cst_27
theorem s_main_v130 : S V main_v130 (val_main_v130 (x0 V)) := W.stage2 V 196 rfl s_main_v128 s_main_v129
theorem s_main_v131 : S V main_v131 (val_main_v131 (x0 V)) := W.stage1 V 197 rfl s_main_v130
theorem s_main_v132 : S V main_v132 (val_main_v132 (x0 V)) := W.stage2 V 198 rfl s_main_v123 s_main_v131
theorem s_main_v133 : S V main_v133 (val_main_v133 (x0 V)) := W.stage1 V 199 rfl s_main_v5
theorem s_main_v134 : S V main_v134 (val_main_v134 (x0 V)) := W.stage2 V 200 rfl s_main_arg0 s_main_v133
theorem s_main_v135 : S V main_v135 (val_main_v135 (x0 V)) := W.stage2 V 201 rfl s_main_v134 s_main_v134
theorem s_main_cst_28 : S V main_cst_28 val_main_cst_28 := W.stage0 V 202 rfl
theorem s_main_v136 : S V main_v136 val_main_v136 := W.stage1 V 203 rfl s_main_cst_28
theorem s_main_v137 : S V main_v137 (val_main_v137 (x0 V)) := W.stage2 V 204 rfl s_main_v136 s_main_v135
theorem s_main_cst_29 : S V main_cst_29 val_main_cst_29 := W.stage0 V 205 rfl
theorem s_main_v138 : S V main_v138 val_main_v138 := W.stage1 V 206 rfl s_main_cst_29
theorem s_main_v139 : S V main_v139 (val_main_v139 (x0 V)) := W.stage2 V 207 rfl s_main_v137 s_main_v138
theorem s_main_v140 : S V main_v140 (val_main_v140 (x0 V)) := W.stage1 V 208 rfl s_main_v139
theorem s_main_v141 : S V main_v141 (val_main_v141 (x0 V)) := W.stage2 V 209 rfl s_main_v132 s_main_v140
theorem s_main_v142 : S V main_v142 (val_main_v142 (x0 V)) := W.stage1 V 210 rfl s_main_v5
theorem s_main_v143 : S V main_v143 (val_main_v143 (x0 V)) := W.stage2 V 211 rfl s_main_arg0 s_main_v142
theorem s_main_v144 : S V main_v144 (val_main_v144 (x0 V)) := W.stage2 V 212 rfl s_main_v143 s_main_v143
theorem s_main_cst_30 : S V main_cst_30 val_main_cst_30 := W.stage0 V 213 rfl
theorem s_main_v145 : S V main_v145 val_main_v145 := W.stage1 V 214 rfl s_main_cst_30
theorem s_main_v146 : S V main_v146 (val_main_v146 (x0 V)) := W.stage2 V 215 rfl s_main_v145 s_main_v144
theorem s_main_cst_31 : S V main_cst_31 val_main_cst_31 := W.stage0 V 216 rfl
theorem s_main_v147 : S V main_v147 val_main_v147 := W.stage1 V 217 rfl s_main_cst_31
theorem s_main_v148 : S V main_v148 (val_main_v148 (x0 V)) := W.stage2 V 218 rfl s_main_v146 s_main_v147
theorem s_main_v149 : S V main_v149 (val_main_v149 (x0 V)) := W.stage1 V 219 rfl s_main_v148
theorem s_main_v150 : S V main_v150 (val_main_v150 (x0 V)) := W.stage2 V 220 rfl s_main_v141 s_main_v149
theorem s_main_c_32 : S V main_c_32 val_main_c_32 := W.stage0 V 221 rfl
theorem s_main_call3_v0 : S V main_call3_v0 val_main_call3_v0 := W.tstage1 V 222 rfl s_main_c_32
theorem s_main_v151 : S V main_v151 (val_main_v151 (x2 V)) := W.tstage2 V 223 rfl s_main_arg2 s_main_call3_v0
theorem s_main_cst_33 : S V main_cst_33 val_main_cst_33 := W.stage0 V 224 rfl
theorem s_main_v152 : S V main_v152 val_main_v152 := W.stage1 V 225 rfl s_main_cst_33
theorem s_main_v153 : S V main_v153 (val_main_v153 (x2 V)) := W.stage1 V 226 rfl s_main_v151
theorem s_main_v154 : S V main_v154 (val_main_v154 (x2 V)) := W.stage2 V 227 rfl s_main_arg2 s_main_v153
theorem s_main_v155 : S V main_v155 (val_main_v155 (x2 V)) := W.stage2 V 228 rfl s_main_v154 s_main_v154
theorem s_main_cst_34 : S V main_cst_34 val_main_cst_34 := W.stage0 V 229 rfl
theorem s_main_v156 : S V main_v156 val_main_v156 := W.stage1 V 230 rfl s_main_cst_34
theorem s_main_v157 : S V main_v157 (val_main_v157 (x2 V)) := W.stage2 V 231 rfl s_main_v156 s_main_v155
theorem s_main_cst_35 : S V main_cst_35 val_main_cst_35 := W.stage0 V 232 rfl
theorem s_main_v158 : S V main_v158 val_main_v158 := W.stage1 V 233 rfl s_main_cst_35
theorem s_main_v159 : S V main_v159 (val_main_v159 (x2 V)) := W.stage2 V 234 rfl s_main_v157 s_main_v158
theorem s_main_v160 : S V main_v160 (val_main_v160 (x2 V)) := W.stage1 V 235 rfl s_main_v159
theorem s_main_v161 : S V main_v161 (val_main_v161 (x2 V)) := W.stage2 V 236 rfl s_main_v152 s_main_v160
theorem s_main_v162 : S V main_v162 (val_main_v162 (x2 V)) := W.stage1 V 237 rfl s_main_v151
theorem s_main_v163 : S V main_v163 (val_main_v163 (x2 V)) := W.stage2 V 238 rfl s_main_arg2 s_main_v162
theorem s_main_v164 : S V main_v164 (val_main_v164 (x2 V)) := W.stage2 V 239 rfl s_main_v163 s_main_v163
theorem s_main_cst_36 : S V main_cst_36 val_main_cst_36 := W.stage0 V 240 rfl
theorem s_main_v165 : S V main_v165 val_main_v165 := W.stage1 V 241 rfl s_main_cst_36
theorem s_main_v166 : S V main_v166 (val_main_v166 (x2 V)) := W.stage2 V 242 rfl s_main_v165 s_main_v164
theorem s_main_cst_37 : S V main_cst_37 val_main_cst_37 := W.stage0 V 243 rfl
theorem s_main_v167 : S V main_v167 val_main_v167 := W.stage1 V 244 rfl s_main_cst_37
theorem s_main_v168 : S V main_v168 (val_main_v168 (x2 V)) := W.stage2 V 245 rfl s_main_v166 s_main_v167
theorem s_main_v169 : S V main_v169 (val_main_v169 (x2 V)) := W.stage1 V 246 rfl s_main_v168
theorem s_main_v170 : S V main_v170 (val_main_v170 (x2 V)) := W.stage2 V 247 rfl s_main_v161 s_main_v169
theorem s_main_v171 : S V main_v171 (val_main_v171 (x2 V)) := W.stage1 V 248 rfl s_main_v151
theorem s_main_v172 : S V main_v172 (val_main_v172 (x2 V)) := W.stage2 V 249 rfl s_main_arg2 s_main_v171
theorem s_main_v173 : S V main_v173 (val_main_v173 (x2 V)) := W.stage2 V 250 rfl s_main_v172 s_main_v172
theorem s_main_cst_38 : S V main_cst_38 val_main_cst_38 := W.stage0 V 251 rfl
theorem s_main_v174 : S V main_v174 val_main_v174 := W.stage1 V 252 rfl s_main_cst_38
theorem s_main_v175 : S V main_v175 (val_main_v175 (x2 V)) := W.stage2 V 253 rfl s_main_v174 s_main_v173
theorem s_main_cst_39 : S V main_cst_39 val_main_cst_39 := W.stage0 V 254 rfl
theorem s_main_v176 : S V main_v176 val_main_v176 := W.stage1 V 255 rfl s_main_cst_39
theorem s_main_v177 : S V main_v177 (val_main_v177 (x2 V)) := W.stage2 V 256 rfl s_main_v175 s_main_v176
theorem s_main_v178 : S V main_v178 (val_main_v178 (x2 V)) := W.stage1 V 257 rfl s_main_v177
theorem s_main_v179 : S V main_v179 (val_main_v179 (x2 V)) := W.stage2 V 258 rfl s_main_v170 s_main_v178
theorem s_main_v180 : S V main_v180 (val_main_v180 (x2 V)) := W.stage1 V 259 rfl s_main_v151
theorem s_main_v181 : S V main_v181 (val_main_v181 (x2 V)) := W.stage2 V 260 rfl s_main_arg2 s_main_v180
theorem s_main_v182 : S V main_v182 (val_main_v182 (x2 V)) := W.stage2 V 261 rfl s_main_v181 s_main_v181
theorem s_main_cst_40 : S V main_cst_40 val_main_cst_40 := W.stage0 V 262 rfl
theorem s_main_v183 : S V main_v183 val_main_v183 := W.stage1 V 263 rfl s_main_cst_40
theorem s_main_v184 : S V main_v184 (val_main_v184 (x2 V)) := W.stage2 V 264 rfl s_main_v183 s_main_v182
theorem s_main_cst_41 : S V main_cst_41 val_main_cst_41 := W.stage0 V 265 rfl
theorem s_main_v185 : S V main_v185 val_main_v185 := W.stage1 V 266 rfl s_main_cst_41
theorem s_main_v186 : S V main_v186 (val_main_v186 (x2 V)) := W.stage2 V 267 rfl s_main_v184 s_main_v185
theorem s_main_v187 : S V main_v187 (val_main_v187 (x2 V)) := W.stage1 V 268 rfl s_main_v186
theorem s_main_v188 : S V main_v188 (val_main_v188 (x2 V)) := W.stage2 V 269 rfl s_main_v179 s_main_v187
theorem s_main_v189 : S V main_v189 (val_main_v189 (x2 V)) := W.stage1 V 270 rfl s_main_v151
theorem s_main_v190 : S V main_v190 (val_main_v190 (x2 V)) := W.stage2 V 271 rfl s_main_arg2 s_main_v189
theorem s_main_v191 : S V main_v191 (val_main_v191 (x2 V)) := W.stage2 V 272 rfl s_main_v190 s_main_v190
theorem s_main_cst_42 : S V main_cst_42 val_main_cst_42 := W.stage0 V 273 rfl
theorem s_main_v192 : S V main_v192 val_main_v192 := W.stage1 V 274 rfl s_main_cst_42
theorem s_main_v193 : S V main_v193 (val_main_v193 (x2 V)) := W.stage2 V 275 rfl s_main_v192 s_main_v191
theorem s_main_cst_43 : S V main_cst_43 val_main_cst_43 := W.stage0 V 276 rfl
theorem s_main_v194 : S V main_v194 val_main_v194 := W.stage1 V 277 rfl s_main_cst_43
theorem s_main_v195 : S V main_v195 (val_main_v195 (x2 V)) := W.stage2 V 278 rfl s_main_v193 s_main_v194
theorem s_main_v196 : S V main_v196 (val_main_v196 (x2 V)) := W.stage1 V 279 rfl s_main_v195
theorem s_main_v197 : S V main_v197 (val_main_v197 (x2 V)) := W.stage2 V 280 rfl s_main_v188 s_main_v196
theorem s_main_v198 : S V main_v198 (val_main_v198 (x2 V)) := W.stage1 V 281 rfl s_main_v151
theorem s_main_v199 : S V main_v199 (val_main_v199 (x2 V)) := W.stage2 V 282 rfl s_main_arg2 s_main_v198
theorem s_main_v200 : S V main_v200 (val_main_v200 (x2 V)) := W.stage2 V 283 rfl s_main_v199 s_main_v199
theorem s_main_cst_44 : S V main_cst_44 val_main_cst_44 := W.stage0 V 284 rfl
theorem s_main_v201 : S V main_v201 val_main_v201 := W.stage1 V 285 rfl s_main_cst_44
theorem s_main_v202 : S V main_v202 (val_main_v202 (x2 V)) := W.stage2 V 286 rfl s_main_v201 s_main_v200
theorem s_main_cst_45 : S V main_cst_45 val_main_cst_45 := W.stage0 V 287 rfl
theorem s_main_v203 : S V main_v203 val_main_v203 := W.stage1 V 288 rfl s_main_cst_45
theorem s_main_v204 : S V main_v204 (val_main_v204 (x2 V)) := W.stage2 V 289 rfl s_main_v202 s_main_v203
theorem s_main_v205 : S V main_v205 (val_main_v205 (x2 V)) := W.stage1 V 290 rfl s_main_v204
theorem s_main_v206 : S V main_v206 (val_main_v206 (x2 V)) := W.stage2 V 291 rfl s_main_v197 s_main_v205
theorem s_main_v207 : S V main_v207 (val_main_v207 (x2 V)) := W.stage1 V 292 rfl s_main_v151
theorem s_main_v208 : S V main_v208 (val_main_v208 (x2 V)) := W.stage2 V 293 rfl s_main_arg2 s_main_v207
theorem s_main_v209 : S V main_v209 (val_main_v209 (x2 V)) := W.stage2 V 294 rfl s_main_v208 s_main_v208
theorem s_main_cst_46 : S V main_cst_46 val_main_cst_46 := W.stage0 V 295 rfl
theorem s_main_v210 : S V main_v210 val_main_v210 := W.stage1 V 296 rfl s_main_cst_46
theorem s_main_v211 : S V main_v211 (val_main_v211 (x2 V)) := W.stage2 V 297 rfl s_main_v210 s_main_v209
theorem s_main_cst_47 : S V main_cst_47 val_main_cst_47 := W.stage0 V 298 rfl
theorem s_main_v212 : S V main_v212 val_main_v212 := W.stage1 V 299 rfl s_main_cst_47
theorem s_main_v213 : S V main_v213 (val_main_v213 (x2 V)) := W.stage2 V 300 rfl s_main_v211 s_main_v212
theorem s_main_v214 : S V main_v214 (val_main_v214 (x2 V)) := W.stage1 V 301 rfl s_main_v213
theorem s_main_v215 : S V main_v215 (val_main_v215 (x2 V)) := W.stage2 V 302 rfl s_main_v206 s_main_v214
theorem s_main_v216 : S V main_v216 (val_main_v216 (x2 V)) := W.stage1 V 303 rfl s_main_v151
theorem s_main_v217 : S V main_v217 (val_main_v217 (x2 V)) := W.stage2 V 304 rfl s_main_arg2 s_main_v216
theorem s_main_v218 : S V main_v218 (val_main_v218 (x2 V)) := W.stage2 V 305 rfl s_main_v217 s_main_v217
theorem s_main_cst_48 : S V main_cst_48 val_main_cst_48 := W.stage0 V 306 rfl
theorem s_main_v219 : S V main_v219 val_main_v219 := W.stage1 V 307 rfl s_main_cst_48
theorem s_main_v220 : S V main_v220 (val_main_v220 (x2 V)) := W.stage2 V 308 rfl s_main_v219 s_main_v218
theorem s_main_cst_49 : S V main_cst_49 val_main_cst_49 := W.stage0 V 309 rfl
theorem s_main_v221 : S V main_v221 val_main_v221 := W.stage1 V 310 rfl s_main_cst_49
theorem s_main_v222 : S V main_v222 (val_main_v222 (x2 V)) := W.stage2 V 311 rfl s_main_v220 s_main_v221
theorem s_main_v223 : S V main_v223 (val_main_v223 (x2 V)) := W.stage1 V 312 rfl s_main_v222
theorem s_main_v224 : S V main_v224 (val_main_v224 (x2 V)) := W.stage2 V 313 rfl s_main_v215 s_main_v223
theorem s_main_v225 : S V main_v225 (val_main_v225 (x2 V)) := W.stage1 V 314 rfl s_main_v151
theorem s_main_v226 : S V main_v226 (val_main_v226 (x2 V)) := W.stage2 V 315 rfl s_main_arg2 s_main_v225
theorem s_main_v227 : S V main_v227 (val_main_v227 (x2 V)) := W.stage2 V 316 rfl s_main_v226 s_main_v226
theorem s_main_cst_50 : S V main_cst_50 val_main_cst_50 := W.stage0 V 317 rfl
theorem s_main_v228 : S V main_v228 val_main_v228 := W.stage1 V 318 rfl s_main_cst_50
theorem s_main_v229 : S V main_v229 (val_main_v229 (x2 V)) := W.stage2 V 319 rfl s_main_v228 s_main_v227
theorem s_main_cst_51 : S V main_cst_51 val_main_cst_51 := W.stage0 V 320 rfl
theorem s_main_v230 : S V main_v230 val_main_v230 := W.stage1 V 321 rfl s_main_cst_51
theorem s_main_v231 : S V main_v231 (val_main_v231 (x2 V)) := W.stage2 V 322 rfl s_main_v229 s_main_v230
theorem s_main_v232 : S V main_v232 (val_main_v232 (x2 V)) := W.stage1 V 323 rfl s_main_v231
theorem s_main_v233 : S V main_v233 (val_main_v233 (x2 V)) := W.stage2 V 324 rfl s_main_v224 s_main_v232
theorem s_main_v234 : S V main_v234 (val_main_v234 (x2 V)) := W.stage1 V 325 rfl s_main_v151
theorem s_main_v235 : S V main_v235 (val_main_v235 (x2 V)) := W.stage2 V 326 rfl s_main_arg2 s_main_v234
theorem s_main_v236 : S V main_v236 (val_main_v236 (x2 V)) := W.stage2 V 327 rfl s_main_v235 s_main_v235
theorem s_main_cst_52 : S V main_cst_52 val_main_cst_52 := W.stage0 V 328 rfl
theorem s_main_v237 : S V main_v237 val_main_v237 := W.stage1 V 329 rfl s_main_cst_52
theorem s_main_v238 : S V main_v238 (val_main_v238 (x2 V)) := W.stage2 V 330 rfl s_main_v237 s_main_v236
theorem s_main_cst_53 : S V main_cst_53 val_main_cst_53 := W.stage0 V 331 rfl
theorem s_main_v239 : S V main_v239 val_main_v239 := W.stage1 V 332 rfl s_main_cst_53
theorem s_main_v240 : S V main_v240 (val_main_v240 (x2 V)) := W.stage2 V 333 rfl s_main_v238 s_main_v239
theorem s_main_v241 : S V main_v241 (val_main_v241 (x2 V)) := W.stage1 V 334 rfl s_main_v240
theorem s_main_v242 : S V main_v242 (val_main_v242 (x2 V)) := W.stage2 V 335 rfl s_main_v233 s_main_v241
theorem s_main_v243 : S V main_v243 (val_main_v243 (x2 V)) := W.stage1 V 336 rfl s_main_v151
theorem s_main_v244 : S V main_v244 (val_main_v244 (x2 V)) := W.stage2 V 337 rfl s_main_arg2 s_main_v243
theorem s_main_v245 : S V main_v245 (val_main_v245 (x2 V)) := W.stage2 V 338 rfl s_main_v244 s_main_v244
theorem s_main_cst_54 : S V main_cst_54 val_main_cst_54 := W.stage0 V 339 rfl
theorem s_main_v246 : S V main_v246 val_main_v246 := W.stage1 V 340 rfl s_main_cst_54
theorem s_main_v247 : S V main_v247 (val_main_v247 (x2 V)) := W.stage2 V 341 rfl s_main_v246 s_main_v245
theorem s_main_cst_55 : S V main_cst_55 val_main_cst_55 := W.stage0 V 342 rfl
theorem s_main_v248 : S V main_v248 val_main_v248 := W.stage1 V 343 rfl s_main_cst_55
theorem s_main_v249 : S V main_v249 (val_main_v249 (x2 V)) := W.stage2 V 344 rfl s_main_v247 s_main_v248
theorem s_main_v250 : S V main_v250 (val_main_v250 (x2 V)) := W.stage1 V 345 rfl s_main_v249
theorem s_main_v251 : S V main_v251 (val_main_v251 (x2 V)) := W.stage2 V 346 rfl s_main_v242 s_main_v250
theorem s_main_v252 : S V main_v252 (val_main_v252 (x2 V)) := W.stage1 V 347 rfl s_main_v151
theorem s_main_v253 : S V main_v253 (val_main_v253 (x2 V)) := W.stage2 V 348 rfl s_main_arg2 s_main_v252
theorem s_main_v254 : S V main_v254 (val_main_v254 (x2 V)) := W.stage2 V 349 rfl s_main_v253 s_main_v253
theorem s_main_cst_56 : S V main_cst_56 val_main_cst_56 := W.stage0 V 350 rfl
theorem s_main_v255 : S V main_v255 val_main_v255 := W.stage1 V 351 rfl s_main_cst_56
theorem s_main_v256 : S V main_v256 (val_main_v256 (x2 V)) := W.stage2 V 352 rfl s_main_v255 s_main_v254
theorem s_main_cst_57 : S V main_cst_57 val_main_cst_57 := W.stage0 V 353 rfl
theorem s_main_v257 : S V main_v257 val_main_v257 := W.stage1 V 354 rfl s_main_cst_57
theorem s_main_v258 : S V main_v258 (val_main_v258 (x2 V)) := W.stage2 V 355 rfl s_main_v256 s_main_v257
theorem s_main_v259 : S V main_v259 (val_main_v259 (x2 V)) := W.stage1 V 356 rfl s_main_v258
theorem s_main_v260 : S V main_v260 (val_main_v260 (x2 V)) := W.stage2 V 357 rfl s_main_v251 s_main_v259
theorem s_main_v261 : S V main_v261 (val_main_v261 (x2 V)) := W.stage1 V 358 rfl s_main_v151
theorem s_main_v262 : S V main_v262 (val_main_v262 (x2 V)) := W.stage2 V 359 rfl s_main_arg2 s_main_v261
theorem s_main_v263 : S V main_v263 (val_main_v263 (x2 V)) := W.stage2 V 360 rfl s_main_v262 s_main_v262
theorem s_main_cst_58 : S V main_cst_58 val_main_cst_58 := W.stage0 V 361 rfl
theorem s_main_v264 : S V main_v264 val_main_v264 := W.stage1 V 362 rfl s_main_cst_58
theorem s_main_v265 : S V main_v265 (val_main_v265 (x2 V)) := W.stage2 V 363 rfl s_main_v264 s_main_v263
theorem s_main_cst_59 : S V main_cst_59 val_main_cst_59 := W.stage0 V 364 rfl
theorem s_main_v266 : S V main_v266 val_main_v266 := W.stage1 V 365 rfl s_main_cst_59
theorem s_main_v267 : S V main_v267 (val_main_v267 (x2 V)) := W.stage2 V 366 rfl s_main_v265 s_main_v266
theorem s_main_v268 : S V main_v268 (val_main_v268 (x2 V)) := W.stage1 V 367 rfl s_main_v267
theorem s_main_v269 : S V main_v269 (val_main_v269 (x2 V)) := W.stage2 V 368 rfl s_main_v260 s_main_v268
theorem s_main_v270 : S V main_v270 (val_main_v270 (x2 V)) := W.stage1 V 369 rfl s_main_v151
theorem s_main_v271 : S V main_v271 (val_main_v271 (x2 V)) := W.stage2 V 370 rfl s_main_arg2 s_main_v270
theorem s_main_v272 : S V main_v272 (val_main_v272 (x2 V)) := W.stage2 V 371 rfl s_main_v271 s_main_v271
theorem s_main_cst_60 : S V main_cst_60 val_main_cst_60 := W.stage0 V 372 rfl
theorem s_main_v273 : S V main_v273 val_main_v273 := W.stage1 V 373 rfl s_main_cst_60
theorem s_main_v274 : S V main_v274 (val_main_v274 (x2 V)) := W.stage2 V 374 rfl s_main_v273 s_main_v272
theorem s_main_cst_61 : S V main_cst_61 val_main_cst_61 := W.stage0 V 375 rfl
theorem s_main_v275 : S V main_v275 val_main_v275 := W.stage1 V 376 rfl s_main_cst_61
theorem s_main_v276 : S V main_v276 (val_main_v276 (x2 V)) := W.stage2 V 377 rfl s_main_v274 s_main_v275
theorem s_main_v277 : S V main_v277 (val_main_v277 (x2 V)) := W.stage1 V 378 rfl s_main_v276
theorem s_main_v278 : S V main_v278 (val_main_v278 (x2 V)) := W.stage2 V 379 rfl s_main_v269 s_main_v277
theorem s_main_v279 : S V main_v279 (val_main_v279 (x2 V)) := W.stage1 V 380 rfl s_main_v151
theorem s_main_v280 : S V main_v280 (val_main_v280 (x2 V)) := W.stage2 V 381 rfl s_main_arg2 s_main_v279
theorem s_main_v281 : S V main_v281 (val_main_v281 (x2 V)) := W.stage2 V 382 rfl s_main_v280 s_main_v280
theorem s_main_cst_62 : S V main_cst_62 val_main_cst_62 := W.stage0 V 383 rfl
theorem s_main_v282 : S V main_v282 val_main_v282 := W.stage1 V 384 rfl s_main_cst_62
theorem s_main_v283 : S V main_v283 (val_main_v283 (x2 V)) := W.stage2 V 385 rfl s_main_v282 s_main_v281
theorem s_main_cst_63 : S V main_cst_63 val_main_cst_63 := W.stage0 V 386 rfl
theorem s_main_v284 : S V main_v284 val_main_v284 := W.stage1 V 387 rfl s_main_cst_63
theorem s_main_v285 : S V main_v285 (val_main_v285 (x2 V)) := W.stage2 V 388 rfl s_main_v283 s_main_v284
theorem s_main_v286 : S V main_v286 (val_main_v286 (x2 V)) := W.stage1 V 389 rfl s_main_v285
theorem s_main_v287 : S V main_v287 (val_main_v287 (x2 V)) := W.stage2 V 390 rfl s_main_v278 s_main_v286
theorem s_main_v288 : S V main_v288 (val_main_v288 (x2 V)) := W.stage1 V 391 rfl s_main_v151
theorem s_main_v289 : S V main_v289 (val_main_v289 (x2 V)) := W.stage2 V 392 rfl s_main_arg2 s_main_v288
theorem s_main_v290 : S V main_v290 (val_main_v290 (x2 V)) := W.stage2 V 393 rfl s_main_v289 s_main_v289
theorem s_main_cst_64 : S V main_cst_64 val_main_cst_64 := W.stage0 V 394 rfl
theorem s_main_v291 : S V main_v291 val_main_v291 := W.stage1 V 395 rfl s_main_cst_64
theorem s_main_v292 : S V main_v292 (val_main_v292 (x2 V)) := W.stage2 V 396 rfl s_main_v291 s_main_v290
theorem s_main_cst_65 : S V main_cst_65 val_main_cst_65 := W.stage0 V 397 rfl
theorem s_main_v293 : S V main_v293 val_main_v293 := W.stage1 V 398 rfl s_main_cst_65
theorem s_main_v294 : S V main_v294 (val_main_v294 (x2 V)) := W.stage2 V 399 rfl s_main_v292 s_main_v293
theorem s_main_v295 : S V main_v295 (val_main_v295 (x2 V)) := W.stage1 V 400 rfl s_main_v294
theorem s_main_v296 : S V main_v296 (val_main_v296 (x2 V)) := W.stage2 V 401 rfl s_main_v287 s_main_v295
theorem s_main_v297 : S V main_v297 (val_main_v297 (x0 V) (x2 V)) := W.stage2 V 402 rfl s_main_v150 s_main_v296
theorem s_main_v298 : S V main_v298 (val_main_v298 (x0 V) (x2 V)) := W.stage2 V 403 rfl s_main_v297 s_main_v297
theorem s_main_cst_66 : S V main_cst_66 val_main_cst_66 := W.stage0 V 404 rfl
theorem s_main_v299 : S V main_v299 (val_main_v299 (x0 V) (x2 V)) := W.stage2 V 405 rfl s_main_v298 s_main_cst_66
theorem s_main_cst_67 : S V main_cst_67 val_main_cst_67 := W.stage0 V 406 rfl
theorem s_main_v300 : S V main_v300 (val_main_v300 (x0 V) (x2 V)) := W.stage2 V 407 rfl s_main_v299 s_main_cst_67

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = val_main_v4 (F := F) (m ((c.tc : Thread nD τ).loc main_arg0)) (m ((c.tc : Thread nD τ).loc main_arg1))
      ∧ r.2.mem ((c.tc : Thread nD τ).loc main_v300) = val_main_v300 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v4).trans s_main_v4, (h c main_v300).trans s_main_v300, (h c main_arg0).trans s_main_arg0,
        (h c main_arg1).trans s_main_arg1, (h c main_arg2).trans s_main_arg2⟩)
    (run_after m ρ)

end Cert.ReferenceIdeal.Hand

end
-- ==== Proof.SpecAlg.lean ====
import proofs.«413255_j25812753449052_3_alg».proof.Proof.Spec
import Mathlib.Algebra.BigOperators.Fin
import Mathlib.Algebra.BigOperators.Intervals

noncomputable section

namespace Cert.Spec

theorem blockSum_eq (x l : ℕ → ℕ → ℕ → ℝ) :
    blockSum x l = ∑ c : Fin 7, ∑ h : Fin 256, ∑ w : Fin 256,
      (gauss (x c) h w - gauss (l c) h w) * (gauss (x c) h w - gauss (l c) h w) := by
  unfold blockSum
  simp only [accK_eq]

theorem sum_fin21_split (f : ℕ → ℝ) :
    ∑ c : Fin 21, f c = (∑ c : Fin 7, f c + ∑ c : Fin 7, f (7 + c)) + ∑ c : Fin 7, f (14 + c) := by
  rw [Fin.sum_univ_eq_sum_range (fun n => f n) 21, Fin.sum_univ_eq_sum_range (fun n => f n) 7,
    Fin.sum_univ_eq_sum_range (fun n => f (7 + n)) 7, Fin.sum_univ_eq_sum_range (fun n => f (14 + n)) 7]
  rw [show (21 : ℕ) = 14 + 7 from rfl, Finset.sum_range_add, show (14 : ℕ) = 7 + 7 from rfl,
    Finset.sum_range_add]

theorem sqSumK_eq (x l : R4) : sqSumK x l = sqSum x l := by
  unfold sqSumK sqSum
  refine Finset.sum_congr rfl fun b _ => ?_
  simp only [blockSum_eq]
  exact (sum_fin21_split (fun c => ∑ h : Fin 256, ∑ w : Fin 256,
    (gauss (x b c) h w - gauss (l b c) h w) * (gauss (x b c) h w - gauss (l b c) h w))).symm

theorem mseK_eq (x l : R4) : sqSumK x l / 11010048 = mse x l := by
  unfold mse
  rw [sqSumK_eq]

end Cert.Spec

end
-- ==== Proof.PreDecode.lean ====
import proofs.«413255_j25812753449052_3_alg».proof.Proof.Gen.Pre_finite_inputs
import proofs.«413255_j25812753449052_3_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

instance : Subsingleton S_.Idx := ⟨fun a b => funext fun d => d.elim0⟩

theorem real_of_abs_lt_top (v : EReal)
    (h : FloatOps.cmpf (F := Ideal) (φ := .f32) CmpFPredicate.olt (FloatOps.hostAbsf v)
      (FloatOps.ofBits .f32 2139095040#32) = 1#1) :
    v = ((v.toReal : ℝ) : EReal) := by
  have ht : Ideal.ofBits .f32 2139095040#32 = ⊤ := by simp [Ideal.ofBits, Ideal.ieee]
  change Ideal.cmp .olt (max v (-v)) (Ideal.ofBits .f32 2139095040#32) = 1#1 at h
  rw [ht] at h
  simp only [Ideal.cmp, StableHlo.Predicate.ofBool_eq_one_iff, decide_eq_true_eq] at h
  induction v using EReal.rec with
  | bot => simp at h
  | coe r => simp
  | top => simp at h

theorem word_lt (w : BitVec 32) (h0 : IntOp.cmpi .sge w 0#32 = 1#1) (h21 : IntOp.cmpi .slt w 21#32 = 1#1) :
    w.toNat < 21 := by
  simp only [IntOp.cmpi, StableHlo.Predicate.ofBool_eq_one_iff, BitVec.slt, BitVec.sle, decide_eq_true_eq] at h0 h21
  have z : (0#32).toInt = 0 := by decide
  have t : (21#32).toInt = 21 := by decide
  rw [z] at h0
  rw [t] at h21
  have c := BitVec.toInt_eq_toNat_cond w
  have hw := w.isLt
  split at c <;> omega

theorem word_eq (w : BitVec 32) : w = BitVec.ofNat 32 w.toNat := by
  apply BitVec.eq_of_toNat_eq
  rw [BitVec.toNat_ofNat, Nat.mod_eq_of_lt w.isLt]

theorem elems (x : FVec Ideal S8x21x256x256 .f32) (lbl : IVec S8x256x256 32) (l : FVec Ideal S8x21x256x256 .f32)
    (h : Cert.Pre_finite_inputs.fn (F := Ideal) x lbl l = fun _ => 1#1) :
    (∀ i, x i = (((x i).toReal : ℝ) : EReal)) ∧ (∀ i, l i = (((l i).toReal : ℝ) : EReal))
      ∧ ∀ j, (lbl j).toNat < 21 := by
  have e := congrFun h ValueIdx.ix0
  dsimp only [Cert.Pre_finite_inputs.fn, Cert.Pre_finite_inputs.fn_part1] at e
  simp only [andi, IntOp.andi_eq_one] at e
  obtain ⟨⟨⟨hx, hl⟩, h0⟩, h21⟩ := e
  refine ⟨fun i => ?_, fun i => ?_, fun j => ?_⟩
  · have hxi := Host.reduce_andi_all _ _ _ _ _ hx i
    simp only [cmpf, Host.absf, broadcastInDim, constant] at hxi
    exact real_of_abs_lt_top _ hxi
  · have hli := Host.reduce_andi_all _ _ _ _ _ hl i
    simp only [cmpf, Host.absf, broadcastInDim, constant] at hli
    exact real_of_abs_lt_top _ hli
  · have h0j := Host.reduce_andi_all _ _ _ _ _ h0 j
    have h21j := Host.reduce_andi_all _ _ _ _ _ h21 j
    simp only [cmpi, broadcastInDim, constantI] at h0j h21j
    exact word_lt _ h0j h21j

def dec4 (x : S8x21x256x256.Idx → EReal) : Cert.Spec.R4 := fun b c hh w =>
  if hb : b < 8 ∧ c < 21 ∧ hh < 256 ∧ w < 256 then
    (x (ValueIdx.ix4 ⟨b, hb.1⟩ ⟨c, hb.2.1⟩ ⟨hh, hb.2.2.1⟩ ⟨w, hb.2.2.2⟩)).toReal
  else 0

def dec3 (lbl : S8x256x256.Idx → BitVec 32) : ℕ → ℕ → ℕ → ℕ := fun b hh w =>
  if hb : b < 8 ∧ hh < 256 ∧ w < 256 then
    (lbl (ValueIdx.ix3 ⟨b, hb.1⟩ ⟨hh, hb.2.1⟩ ⟨w, hb.2.2⟩)).toNat
  else 0

theorem dec4_at (x : S8x21x256x256.Idx → EReal) (i : S8x21x256x256.Idx) :
    dec4 x (i 0).val (i 1).val (i 2).val (i 3).val = (x i).toReal := by
  have hb : (i 0).val < 8 ∧ (i 1).val < 21 ∧ (i 2).val < 256 ∧ (i 3).val < 256 :=
    ⟨(i 0).isLt, (i 1).isLt, (i 2).isLt, (i 3).isLt⟩
  unfold dec4
  rw [dif_pos hb]
  exact congrArg (fun k => (x k).toReal) (ValueIdx.eq_ix4 i).symm

theorem dec3_at (lbl : S8x256x256.Idx → BitVec 32) (j : S8x256x256.Idx) :
    dec3 lbl (j 0).val (j 1).val (j 2).val = (lbl j).toNat := by
  have hb : (j 0).val < 8 ∧ (j 1).val < 256 ∧ (j 2).val < 256 := ⟨(j 0).isLt, (j 1).isLt, (j 2).isLt⟩
  unfold dec3
  rw [dif_pos hb]
  exact congrArg (fun k => (lbl k).toNat) (ValueIdx.eq_ix3 j).symm

theorem decode (x : S8x21x256x256.Idx → EReal) (lbl : S8x256x256.Idx → BitVec 32) (l : S8x21x256x256.Idx → EReal)
    (h : Cert.Pre_finite_inputs.fn (F := Ideal) x lbl l = fun _ => 1#1) :
    (∃ xr : Cert.Spec.R4, ∀ i, x i = ((xr (i 0).val (i 1).val (i 2).val (i 3).val : ℝ) : EReal))
    ∧ (∃ lr : Cert.Spec.R4, ∀ i, l i = ((lr (i 0).val (i 1).val (i 2).val (i 3).val : ℝ) : EReal))
    ∧ (∃ lab : ℕ → ℕ → ℕ → ℕ, (∀ i, lbl i = BitVec.ofNat 32 (lab (i 0).val (i 1).val (i 2).val))
        ∧ ∀ b hh w, lab b hh w < 21) := by
  obtain ⟨hx, hl, hlab⟩ := elems x lbl l h
  refine ⟨⟨dec4 x, fun i => ?_⟩, ⟨dec4 l, fun i => ?_⟩, ⟨dec3 lbl, fun i => ?_, fun b hh w => ?_⟩⟩
  · rw [dec4_at]; exact hx i
  · rw [dec4_at]; exact hl i
  · rw [dec3_at]; exact word_eq _
  · unfold dec3
    by_cases hb : b < 8 ∧ hh < 256 ∧ w < 256
    · rw [dif_pos hb]; exact hlab _
    · rw [dif_neg hb]; decide

end Cert.PreDecode

end
-- ==== Proof.Algebraic.lean ====
import proofs.«413255_j25812753449052_3_alg».proof.Defs
import proofs.«413255_j25812753449052_3_alg».proof.Proof.Gen.Pre_finite_inputs
import proofs.«413255_j25812753449052_3_alg».proof.Proof.Asm
import proofs.«413255_j25812753449052_3_alg».proof.Proof.CeKernel
import proofs.«413255_j25812753449052_3_alg».proof.Proof.CeRef
import proofs.«413255_j25812753449052_3_alg».proof.Proof.MseKernel
import proofs.«413255_j25812753449052_3_alg».proof.Proof.GmseBlock
import proofs.«413255_j25812753449052_3_alg».proof.Proof.Frame1
import proofs.«413255_j25812753449052_3_alg».proof.Proof.Frame1Value
import proofs.«413255_j25812753449052_3_alg».proof.Proof.MseRefD
import proofs.«413255_j25812753449052_3_alg».proof.Proof.RefRun
import proofs.«413255_j25812753449052_3_alg».proof.Proof.SpecAlg
import proofs.«413255_j25812753449052_3_alg».proof.Proof.PreDecode

set_option maxRecDepth 16384

noncomputable section

namespace Cert.KernelIdeal.Hand

open Cert.KernelIdeal Cert.KernelIdeal.Gen
open Idealize.ShloMosaic Idealize.ShloMosaic.TcCoe
open Idealize.SL.Sem

-- Both programs end with the reference's two stages of the arguments: each side's results are the specification's real numbers of the decoded inputs.
theorem algebraic : Cert.algebraic_KernelIdeal_ReferenceIdeal := by
  intro m ρ m' ρ' hpre hagree
  refine ⟨fun c => Cert.ReferenceIdeal.ReadP.val_main_v4 (F := Ideal)
      (m ((c.tc : Thread nD τ).loc main_arg0)) (m ((c.tc : Thread nD τ).loc main_arg1)),
    fun c => Cert.ReferenceIdeal.ReadP.val_main_v300 (F := Ideal)
      (m ((c.tc : Thread nD τ).loc main_arg0)) (m ((c.tc : Thread nD τ).loc main_arg2)), ?_, ?_⟩
  · refine (θ_run (Cert.KernelIdeal.defs (F := Ideal)) _ _).mono (fun r h c => ?_) (run_values (F := Ideal) m ρ)
    obtain ⟨h0, h3, ha0, ha1, ha2⟩ := h c
    obtain ⟨⟨xr, hx⟩, ⟨lr, hl⟩, ⟨lab, hlab, hlr⟩⟩ := Cert.PreDecode.decode _ _ _ (hpre c)
    refine ⟨?_, ?_, ha0, ha1, ha2⟩
    · exact h0.trans ((ceK_arr (V0 m ρ) c xr hx lab hlab hlr).trans
        (Cert.ReferenceIdeal.Hand.ceR _ _ xr hx lab hlab hlr).symm)
    · have e1 := mseK (V2 m ρ (dat0 (F := Ideal))) c xr lr
        (fun i => (congrFun (V2_main_arg0 m ρ (dat0 (F := Ideal)) (fun V c w => A_eq0 V c w) c) i).trans (hx i))
        (fun i => (congrFun (V2_main_arg2 m ρ (dat0 (F := Ideal)) c) i).trans (hl i))
        gmseBlock_real (dat1 (F := Ideal) _ c) (outsAt1 (F := Ideal) _ c) (after1_2 (F := Ideal) _ c)
        (outsAt1_reset _ c) (outsAt1_acc _ c)
      rw [Cert.Spec.mseK_eq] at e1
      exact h3.trans (e1.trans (Cert.ReferenceIdeal.Hand.mseR _ _ xr lr hx hl).symm)
  · refine (θ_run (Cert.ReferenceIdeal.defs (F := Ideal)) _ _).mono (fun r h c => ?_)
      (Cert.ReferenceIdeal.Hand.run (F := Ideal) m' ρ')
    obtain ⟨h4, h300, ha0, ha1, ha2⟩ := h c
    refine ⟨?_, ?_, ha0, ha1, ha2⟩
    · rw [h4, (hagree c).1, (hagree c).2.1]
    · rw [h300, (hagree c).1, (hagree c).2.2]

end Cert.KernelIdeal.Hand

end
-- ==== Proof.lean ====
import proofs.«413255_j25812753449052_3_alg».proof.Defs
import proofs.«413255_j25812753449052_3_alg».proof.Proof.Gen.Kernel
import proofs.«413255_j25812753449052_3_alg».proof.Proof.Gen.KernelIdeal
import proofs.«413255_j25812753449052_3_alg».proof.Proof.Gen.ReferenceIdeal
import proofs.«413255_j25812753449052_3_alg».proof.Proof.Gen.Pre_finite_inputs
import proofs.«413255_j25812753449052_3_alg».proof.Proof.Frames
import proofs.«413255_j25812753449052_3_alg».proof.Proof.Preserves
import proofs.«413255_j25812753449052_3_alg».proof.Proof.Algebraic

/-! The kernel and its reference both end with the per-pixel cross entropy of the 21 logits at the pixel's label and
with the mean, over all entries, of the squared difference of the two sixteen-tap Gaussian potentials; the kernel
accumulates that sum per batch entry in three chunks of seven channels, which is the same sum regrouped. -/

noncomputable section

namespace Cert.Proof

open Idealize.ShloMosaic Idealize.SL.Sem

theorem frame_ri : Cert.frame_ReferenceIdeal := fun m ρ _ =>
  (θ_run (Cert.ReferenceIdeal.defs (F := Ideal)) _ _).mono (fun _ h c => (h c).2.2)
    (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.KernelIdeal.Hand.algebraic⟩

end Cert.Proof

end
